-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x14 : Shape := ⟨2, ![50000, 14]⟩
abbrev S500000x11 : Shape := ⟨2, ![500000, 11]⟩
abbrev S1x4 : Shape := ⟨2, ![1, 4]⟩
abbrev S1x128 : Shape := ⟨2, ![1, 128]⟩
abbrev S14x128 : Shape := ⟨2, ![14, 128]⟩
abbrev S11x128 : Shape := ⟨2, ![11, 128]⟩
abbrev S3x388x128 : Shape := ⟨3, ![3, 388, 128]⟩
abbrev S3x128 : Shape := ⟨2, ![3, 128]⟩
abbrev S3x128x384 : Shape := ⟨3, ![3, 128, 384]⟩
abbrev S3x384 : Shape := ⟨2, ![3, 384]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S50000x14 : S_.BroadcastsInDim S50000x14 (![] : Fin 0 → Fin S50000x14.rank)
  reducesTo_S50000x14_S_d0_1 : S50000x14.ReducesTo [0, 1] S_
  h_S_ : 0 < S_.numel
  bcast_S_S500000x11 : S_.BroadcastsInDim S500000x11 (![] : Fin 0 → Fin S500000x11.rank)
  reducesTo_S500000x11_S_d0_1 : S500000x11.ReducesTo [0, 1] S_
  bcast_S_S1x4 : S_.BroadcastsInDim S1x4 (![] : Fin 0 → Fin S1x4.rank)
  reducesTo_S1x4_S_d0_1 : S1x4.ReducesTo [0, 1] S_
  bcast_S_S1x128 : S_.BroadcastsInDim S1x128 (![] : Fin 0 → Fin S1x128.rank)
  reducesTo_S1x128_S_d0_1 : S1x128.ReducesTo [0, 1] S_
  bcast_S_S14x128 : S_.BroadcastsInDim S14x128 (![] : Fin 0 → Fin S14x128.rank)
  reducesTo_S14x128_S_d0_1 : S14x128.ReducesTo [0, 1] S_
  bcast_S_S11x128 : S_.BroadcastsInDim S11x128 (![] : Fin 0 → Fin S11x128.rank)
  reducesTo_S11x128_S_d0_1 : S11x128.ReducesTo [0, 1] S_
  bcast_S_S3x388x128 : S_.BroadcastsInDim S3x388x128 (![] : Fin 0 → Fin S3x388x128.rank)
  reducesTo_S3x388x128_S_d0_1_2 : S3x388x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x384 : S_.BroadcastsInDim S3x128x384 (![] : Fin 0 → Fin S3x128x384.rank)
  reducesTo_S3x128x384_S_d0_1_2 : S3x128x384.ReducesTo [0, 1, 2] S_
  bcast_S_S3x384 : S_.BroadcastsInDim S3x384 (![] : Fin 0 → Fin S3x384.rank)
  reducesTo_S3x384_S_d0_1 : S3x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg20 : IVec S500000 32) (main_arg21 : IVec S500000 32) (main_v98 : IVec S_ 1) (main_v100 : IVec S500000 1) (main_v101 : IVec S500000 32) : IVec S_ 1 :=
  let main_v102 : IVec S500000 1 := cmpi .slt main_arg20 main_v101
  let main_v103 : IVec S500000 1 := andi main_v100 main_v102
  let main_c_40 : IVec S_ 1 := constantI S_ 1 1#1
  let main_v104 : IVec S_ 1 := (fun x v => Host.reduce IntOp.andi x v reducesTo_S500000_S_d0 h_S_) main_v103 main_c_40
  let main_v105 : IVec S_ 1 := andi main_v98 main_v104
  let main_c_41 : IVec S_ 32 := constantI S_ 32 0#32
  let main_v106 : IVec S500000 32 := broadcastInDim S500000 ![] bcast_S_S500000 main_c_41
  let main_v107 : IVec S500000 1 := cmpi .sge main_arg21 main_v106
  let main_c_42 : IVec S_ 32 := constantI S_ 32 50000#32
  let main_v108 : IVec S500000 32 := broadcastInDim S500000 ![] bcast_S_S500000 main_c_42
  let main_v109 : IVec S500000 1 := cmpi .slt main_arg21 main_v108
  let main_v110 : IVec S500000 1 := andi main_v107 main_v109
  let main_c_43 : IVec S_ 1 := constantI S_ 1 1#1
  let main_v111 : IVec S_ 1 := (fun x v => Host.reduce IntOp.andi x v reducesTo_S500000_S_d0 h_S_) main_v110 main_c_43
  let main_v112 : IVec S_ 1 := andi main_v105 main_v111
  main_v112

def fn_part5 {F : FTy → Type} [FloatOps F] (main_arg18 : FVec F S128x128 .f32) (main_arg19 : FVec F S128 .f32) (main_arg20 : IVec S500000 32) (main_arg21 : IVec S500000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_c_38 : IVec S_ 32 := constantI S_ 32 0#32
  let main_v99 : IVec S500000 32 := broadcastInDim S500000 ![] bcast_S_S500000 main_c_38
  let main_v100 : IVec S500000 1 := cmpi .sge main_arg20 main_v99
  let main_c_39 : IVec S_ 32 := constantI S_ 32 50000#32
  let main_v101 : IVec S500000 32 := broadcastInDim S500000 ![] bcast_S_S500000 main_c_39
  fn_part6 (F := F) main_arg20 main_arg21 main_v98 main_v100 main_v101

def fn_part4 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S500000 32) (main_arg21 : IVec S500000 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S3x384 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S500000 32) (main_arg21 : IVec S500000 32) (main_v48 : IVec S_ 1) (main_v49 : FVec F S3x384 .f32) (main_v50 : FVec F S3x384 .f32) : IVec S_ 1 :=
  let main_v51 : IVec S3x384 1 := cmpf .olt main_v49 main_v50
  let main_c_19 : IVec S_ 1 := constantI S_ 1 1#1
  let main_v52 : IVec S_ 1 := (fun x v => Host.reduce IntOp.andi x v reducesTo_S3x384_S_d0_1 h_S_) main_v51 main_c_19
  let main_v53 : IVec S_ 1 := andi main_v48 main_v52
  let main_v54 : FVec F S3x384 .f32 := Host.absf main_arg11
  let main_cst_20 : FVec F S_ .f32 := constant S_ .f32 0x7F800000#32
  let main_v55 : FVec F S3x384 .f32 := broadcastInDim S3x384 ![] bcast_S_S3x384 main_cst_20
  let main_v56 : IVec S3x384 1 := cmpf .olt main_v54 main_v55
  let main_c_21 : IVec S_ 1 := constantI S_ 1 1#1
  let main_v57 : IVec S_ 1 := (fun x v => Host.reduce IntOp.andi x v reducesTo_S3x384_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S3x128 .f32) (main_arg8 : FVec F S3x128x384 .f32) (main_arg9 : FVec F S3x128x384 .f32) (main_arg10 : FVec F S3x384 .f32) (main_arg11 : FVec F S3x384 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S500000 32) (main_arg21 : IVec S500000 32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x384 .f32 := Host.absf main_arg8
  let main_cst_14 : FVec F S_ .f32 := constant S_ .f32 0x7F800000#32
  let main_v40 : FVec F S3x128x384 .f32 := broadcastInDim S3x128x384 ![] bcast_S_S3x128x384 main_cst_14
  let main_v41 : IVec S3x128x384 1 := cmpf .olt main_v39 main_v40
  let main_c_15 : IVec S_ 1 := constantI S_ 1 1#1
  let main_v42 : IVec S_ 1 := (fun x v => Host.reduce IntOp.andi x v reducesTo_S3x128x384_S_d0_1_2 h_S_) main_v41 main_c_15
  let main_v43 : IVec S_ 1 := andi main_v38 main_v42
  let main_v44 : FVec F S3x128x384 .f32 := Host.absf main_arg9
  let main_cst_16 : FVec F S_ .f32 := constant S_ .f32 0x7F800000#32
  let main_v45 : FVec F S3x128x384 .f32 := broadcastInDim S3x128x384 ![] bcast_S_S3x128x384 main_cst_16
  let main_v46 : IVec S3x128x384 1 := cmpf .olt main_v44 main_v45
  let main_c_17 : IVec S_ 1 := constantI S_ 1 1#1
  let main_v47 : IVec S_ 1 := (fun x v => Host.reduce IntOp.andi x v reducesTo_S3x128x384_S_d0_1_2 h_S_) main_v46 main_c_17
  let main_v48 : IVec S_ 1 := andi main_v43 main_v47
  let main_v49 : FVec F S3x384 .f32 := Host.absf main_arg10
  let main_cst_18 : FVec F S_ .f32 := constant S_ .f32 0x7F800000#32
  let main_v50 : FVec F S3x384 .f32 := broadcastInDim S3x384 ![] bcast_S_S3x384 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S14x128 .f32) (main_arg5 : FVec F S11x128 .f32) (main_arg6 : FVec F S3x388x128 .f32) (main_arg7 : FVec F S3x128 .f32) (main_arg8 : FVec F S3x128x384 .f32) (main_arg9 : FVec F S3x128x384 .f32) (main_arg10 : FVec F S3x384 .f32) (main_arg11 : FVec F S3x384 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S500000 32) (main_arg21 : IVec S500000 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S14x128 .f32 := Host.absf main_arg4
  let main_cst_6 : FVec F S_ .f32 := constant S_ .f32 0x7F800000#32
  let main_v20 : FVec F S14x128 .f32 := broadcastInDim S14x128 ![] bcast_S_S14x128 main_cst_6
  let main_v21 : IVec S14x128 1 := cmpf .olt main_v19 main_v20
  let main_c_7 : IVec S_ 1 := constantI S_ 1 1#1
  let main_v22 : IVec S_ 1 := (fun x v => Host.reduce IntOp.andi x v reducesTo_S14x128_S_d0_1 h_S_) main_v21 main_c_7
  let main_v23 : IVec S_ 1 := andi main_v18 main_v22
  let main_v24 : FVec F S11x128 .f32 := Host.absf main_arg5
  let main_cst_8 : FVec F S_ .f32 := constant S_ .f32 0x7F800000#32
  let main_v25 : FVec F S11x128 .f32 := broadcastInDim S11x128 ![] bcast_S_S11x128 main_cst_8
  let main_v26 : IVec S11x128 1 := cmpf .olt main_v24 main_v25
  let main_c_9 : IVec S_ 1 := constantI S_ 1 1#1
  let main_v27 : IVec S_ 1 := (fun x v => Host.reduce IntOp.andi x v reducesTo_S11x128_S_d0_1 h_S_) main_v26 main_c_9
  let main_v28 : IVec S_ 1 := andi main_v23 main_v27
  let main_v29 : FVec F S3x388x128 .f32 := Host.absf main_arg6
  let main_cst_10 : FVec F S_ .f32 := constant S_ .f32 0x7F800000#32
  let main_v30 : FVec F S3x388x128 .f32 := broadcastInDim S3x388x128 ![] bcast_S_S3x388x128 main_cst_10
  let main_v31 : IVec S3x388x128 1 := cmpf .olt main_v29 main_v30
  let main_c_11 : IVec S_ 1 := constantI S_ 1 1#1
  let main_v32 : IVec S_ 1 := (fun x v => Host.reduce IntOp.andi x v reducesTo_S3x388x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x14 .f32) (main_arg1 : FVec F S500000x11 .f32) (main_arg2 : FVec F S1x4 .f32) (main_arg3 : FVec F S1x128 .f32) (main_arg4 : FVec F S14x128 .f32) (main_arg5 : FVec F S11x128 .f32) (main_arg6 : FVec F S3x388x128 .f32) (main_arg7 : FVec F S3x128 .f32) (main_arg8 : FVec F S3x128x384 .f32) (main_arg9 : FVec F S3x128x384 .f32) (main_arg10 : FVec F S3x384 .f32) (main_arg11 : FVec F S3x384 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S500000 32) (main_arg21 : IVec S500000 32) : IVec S_ 1 :=
  let main_v0 : FVec F S50000x14 .f32 := Host.absf main_arg0
  let main_cst : FVec F S_ .f32 := constant S_ .f32 0x7F800000#32
  let main_v1 : FVec F S50000x14 .f32 := broadcastInDim S50000x14 ![] bcast_S_S50000x14 main_cst
  let main_v2 : IVec S50000x14 1 := cmpf .olt main_v0 main_v1
  let main_c : IVec S_ 1 := constantI S_ 1 1#1
  let main_v3 : IVec S_ 1 := (fun x v => Host.reduce IntOp.andi x v reducesTo_S50000x14_S_d0_1 h_S_) main_v2 main_c
  let main_v4 : FVec F S500000x11 .f32 := Host.absf main_arg1
  let main_cst_0 : FVec F S_ .f32 := constant S_ .f32 0x7F800000#32
  let main_v5 : FVec F S500000x11 .f32 := broadcastInDim S500000x11 ![] bcast_S_S500000x11 main_cst_0
  let main_v6 : IVec S500000x11 1 := cmpf .olt main_v4 main_v5
  let main_c_1 : IVec S_ 1 := constantI S_ 1 1#1
  let main_v7 : IVec S_ 1 := (fun x v => Host.reduce IntOp.andi x v reducesTo_S500000x11_S_d0_1 h_S_) main_v6 main_c_1
  let main_v8 : IVec S_ 1 := andi main_v3 main_v7
  let main_v9 : FVec F S1x4 .f32 := Host.absf main_arg2
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x14 : Shape := ⟨2, ![50000, 14]⟩
abbrev S500000x11 : Shape := ⟨2, ![500000, 11]⟩
abbrev S1x4 : Shape := ⟨2, ![1, 4]⟩
abbrev S1x128 : Shape := ⟨2, ![1, 128]⟩
abbrev S14x128 : Shape := ⟨2, ![14, 128]⟩
abbrev S11x128 : Shape := ⟨2, ![11, 128]⟩
abbrev S3x388x128 : Shape := ⟨3, ![3, 388, 128]⟩
abbrev S3x128 : Shape := ⟨2, ![3, 128]⟩
abbrev S3x128x384 : Shape := ⟨3, ![3, 128, 384]⟩
abbrev S3x384 : Shape := ⟨2, ![3, 384]⟩
abbrev S128x128 : Shape := ⟨2, ![128, 128]⟩
abbrev S128 : Shape := ⟨1, ![128]⟩
abbrev S500000 : Shape := ⟨1, ![500000]⟩
abbrev S50000x128 : Shape := ⟨2, ![50000, 128]⟩
abbrev S10000x14 : Shape := ⟨2, ![10000, 14]⟩
abbrev S10000x128 : Shape := ⟨2, ![10000, 128]⟩
abbrev S500000x128 : Shape := ⟨2, ![500000, 128]⟩
abbrev S25000x11 : Shape := ⟨2, ![25000, 11]⟩
abbrev S25000x128 : Shape := ⟨2, ![25000, 128]⟩
abbrev S1x128x128 : Shape := ⟨3, ![1, 128, 128]⟩
abbrev S1x4x128 : Shape := ⟨3, ![1, 4, 128]⟩
abbrev S4x128 : Shape := ⟨2, ![4, 128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S1x384 : Shape := ⟨2, ![1, 384]⟩
abbrev S384 : Shape := ⟨1, ![384]⟩
abbrev S1x128x384 : Shape := ⟨3, ![1, 128, 384]⟩
abbrev S128x384 : Shape := ⟨2, ![128, 384]⟩
abbrev S10000x384 : Shape := ⟨2, ![10000, 384]⟩

abbrev nBuf : Space → Nat
  | .hbm => 265
  | .vmem => 84
  | .smem => 0
  | _ => 0

abbrev hbmTy0_0 (i : Nat) : BufTy := match i % 128 with
  | 0 => ⟨S50000x14, .f32⟩
  | 1 => ⟨S500000x11, .f32⟩
  | 2 => ⟨S1x4, .f32⟩
  | 3 => ⟨S1x128, .f32⟩
  | 4 => ⟨S14x128, .f32⟩
  | 5 => ⟨S11x128, .f32⟩
  | 6 => ⟨S3x388x128, .f32⟩
  | 7 => ⟨S3x128, .f32⟩
  | 8 => ⟨S3x128x384, .f32⟩
  | 9 => ⟨S3x128x384, .f32⟩
  | 10 => ⟨S3x384, .f32⟩
  | 11 => ⟨S3x384, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S500000, .i32⟩
  | 21 => ⟨S500000, .i32⟩
  | 22 => ⟨S50000x128, .f32⟩
  | 23 => ⟨S500000x128, .f32⟩
  | 24 => ⟨S1x128x128, .f32⟩
  | 25 => ⟨S128x128, .f32⟩
  | 26 => ⟨S1x128x128, .f32⟩
  | 27 => ⟨S128x128, .f32⟩
  | 28 => ⟨S1x128x128, .f32⟩
  | 29 => ⟨S128x128, .f32⟩
  | 30 => ⟨S1x4x128, .f32⟩
  | 31 => ⟨S4x128, .f32⟩
  | 32 => ⟨S1x128, .f32⟩
  | 33 => ⟨S1x128, .f32⟩
  | 34 => ⟨S128, .f32⟩
  | 35 => ⟨S1x128, .f32⟩
  | 36 => ⟨S1x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S1, .i32⟩
  | 46 => ⟨S_, .i32⟩
  | 47 => ⟨S500000x1, .i32⟩
  | 48 => ⟨S500000x1, .i1⟩
  | 49 => ⟨S1x1, .i32⟩
  | 50 => ⟨S500000x1, .i32⟩
  | 51 => ⟨S500000x1, .i1⟩
  | 52 => ⟨S500000x1, .i1⟩
  | 53 => ⟨S_, .i1⟩
  | 54 => ⟨S500000, .i1⟩
  | 55 => ⟨S500000x128, .f32⟩
  | 56 => ⟨S500000x128, .i1⟩
  | 57 => ⟨S_, .f32⟩
  | 58 => ⟨S500000x128, .f32⟩
  | 59 => ⟨S500000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S1, .i32⟩
  | 69 => ⟨S_, .i32⟩
  | 70 => ⟨S500000x1, .i32⟩
  | 71 => ⟨S500000x1, .i1⟩
  | 72 => ⟨S1x1, .i32⟩
  | 73 => ⟨S500000x1, .i32⟩
  | 74 => ⟨S500000x1, .i1⟩
  | 75 => ⟨S500000x1, .i1⟩
  | 76 => ⟨S_, .i1⟩
  | 77 => ⟨S500000, .i1⟩
  | 78 => ⟨S500000x128, .f32⟩
  | 79 => ⟨S500000x128, .i1⟩
  | 80 => ⟨S_, .f32⟩
  | 81 => ⟨S500000x128, .f32⟩
  | 82 => ⟨S500000x128, .f32⟩
  | 83 => ⟨S500000x128, .f32⟩
  | 84 => ⟨S_, .f32⟩
  | 85 => ⟨S50000x128, .f32⟩
  | 86 => ⟨S500000x1, .i32⟩
  | 87 => ⟨S50000x128, .f32⟩
  | 88 => ⟨S1x384, .f32⟩
  | 89 => ⟨S384, .f32⟩
  | 90 => ⟨S1x384, .f32⟩
  | 91 => ⟨S1x384, .f32⟩
  | 92 => ⟨S384, .f32⟩
  | 93 => ⟨S1x384, .f32⟩
  | 94 => ⟨S1x128x384, .f32⟩
  | 95 => ⟨S128x384, .f32⟩
  | 96 => ⟨S1x128x384, .f32⟩
  | 97 => ⟨S128x384, .f32⟩
  | 98 => ⟨S50000x128, .f32⟩
  | 99 => ⟨S1x128x128, .f32⟩
  | 100 => ⟨S128x128, .f32⟩
  | 101 => ⟨S1x128x128, .f32⟩
  | 102 => ⟨S128x128, .f32⟩
  | 103 => ⟨S1x128x128, .f32⟩
  | 104 => ⟨S128x128, .f32⟩
  | 105 => ⟨S1x4x128, .f32⟩
  | 106 => ⟨S4x128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S1, .i32⟩
  | 121 => ⟨S_, .i32⟩
  | 122 => ⟨S500000x1, .i32⟩
  | 123 => ⟨S500000x1, .i1⟩
  | 124 => ⟨S1x1, .i32⟩
  | 125 => ⟨S500000x1, .i32⟩
  | 126 => ⟨S500000x1, .i1⟩
  | 127 => ⟨S500000x1, .i1⟩
  | _ => ⟨S50000x14, .f32⟩

abbrev hbmTy0_1 (i : Nat) : BufTy := match i % 128 with
  | 0 => ⟨S_, .i1⟩
  | 1 => ⟨S500000, .i1⟩
  | 2 => ⟨S500000x128, .f32⟩
  | 3 => ⟨S500000x128, .i1⟩
  | 4 => ⟨S_, .f32⟩
  | 5 => ⟨S500000x128, .f32⟩
  | 6 => ⟨S500000x128, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S1, .i32⟩
  | 16 => ⟨S_, .i32⟩
  | 17 => ⟨S500000x1, .i32⟩
  | 18 => ⟨S500000x1, .i1⟩
  | 19 => ⟨S1x1, .i32⟩
  | 20 => ⟨S500000x1, .i32⟩
  | 21 => ⟨S500000x1, .i1⟩
  | 22 => ⟨S500000x1, .i1⟩
  | 23 => ⟨S_, .i1⟩
  | 24 => ⟨S500000, .i1⟩
  | 25 => ⟨S500000x128, .f32⟩
  | 26 => ⟨S500000x128, .i1⟩
  | 27 => ⟨S_, .f32⟩
  | 28 => ⟨S500000x128, .f32⟩
  | 29 => ⟨S500000x128, .f32⟩
  | 30 => ⟨S500000x128, .f32⟩
  | 31 => ⟨S_, .f32⟩
  | 32 => ⟨S50000x128, .f32⟩
  | 33 => ⟨S500000x1, .i32⟩
  | 34 => ⟨S50000x128, .f32⟩
  | 35 => ⟨S1x384, .f32⟩
  | 36 => ⟨S384, .f32⟩
  | 37 => ⟨S1x384, .f32⟩
  | 38 => ⟨S1x384, .f32⟩
  | 39 => ⟨S384, .f32⟩
  | 40 => ⟨S1x384, .f32⟩
  | 41 => ⟨S1x128x384, .f32⟩
  | 42 => ⟨S128x384, .f32⟩
  | 43 => ⟨S1x128x384, .f32⟩
  | 44 => ⟨S128x384, .f32⟩
  | 45 => ⟨S50000x128, .f32⟩
  | 46 => ⟨S1x128x128, .f32⟩
  | 47 => ⟨S128x128, .f32⟩
  | 48 => ⟨S1x128x128, .f32⟩
  | 49 => ⟨S128x128, .f32⟩
  | 50 => ⟨S1x128x128, .f32⟩
  | 51 => ⟨S128x128, .f32⟩
  | 52 => ⟨S1x4x128, .f32⟩
  | 53 => ⟨S4x128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S1, .i32⟩
  | 68 => ⟨S_, .i32⟩
  | 69 => ⟨S500000x1, .i32⟩
  | 70 => ⟨S500000x1, .i1⟩
  | 71 => ⟨S1x1, .i32⟩
  | 72 => ⟨S500000x1, .i32⟩
  | 73 => ⟨S500000x1, .i1⟩
  | 74 => ⟨S500000x1, .i1⟩
  | 75 => ⟨S_, .i1⟩
  | 76 => ⟨S500000, .i1⟩
  | 77 => ⟨S500000x128, .f32⟩
  | 78 => ⟨S500000x128, .i1⟩
  | 79 => ⟨S_, .f32⟩
  | 80 => ⟨S500000x128, .f32⟩
  | 81 => ⟨S500000x128, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S1, .i32⟩
  | 91 => ⟨S_, .i32⟩
  | 92 => ⟨S500000x1, .i32⟩
  | 93 => ⟨S500000x1, .i1⟩
  | 94 => ⟨S1x1, .i32⟩
  | 95 => ⟨S500000x1, .i32⟩
  | 96 => ⟨S500000x1, .i1⟩
  | 97 => ⟨S500000x1, .i1⟩
  | 98 => ⟨S_, .i1⟩
  | 99 => ⟨S500000, .i1⟩
  | 100 => ⟨S500000x128, .f32⟩
  | 101 => ⟨S500000x128, .i1⟩
  | 102 => ⟨S_, .f32⟩
  | 103 => ⟨S500000x128, .f32⟩
  | 104 => ⟨S500000x128, .f32⟩
  | 105 => ⟨S500000x128, .f32⟩
  | 106 => ⟨S_, .f32⟩
  | 107 => ⟨S50000x128, .f32⟩
  | 108 => ⟨S500000x1, .i32⟩
  | 109 => ⟨S50000x128, .f32⟩
  | 110 => ⟨S1x384, .f32⟩
  | 111 => ⟨S384, .f32⟩
  | 112 => ⟨S1x384, .f32⟩
  | 113 => ⟨S1x384, .f32⟩
  | 114 => ⟨S384, .f32⟩
  | 115 => ⟨S1x384, .f32⟩
  | 116 => ⟨S1x128x384, .f32⟩
  | 117 => ⟨S128x384, .f32⟩
  | 118 => ⟨S1x128x384, .f32⟩
  | 119 => ⟨S128x384, .f32⟩
  | 120 => ⟨S50000x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x14, .f32⟩

abbrev hbmTy0_2 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x384, .f32⟩
  | _ => ⟨S50000x14, .f32⟩

abbrev hbmTy (i : Nat) : BufTy := match i / 128 with
  | 0 => hbmTy0_0 i
  | 1 => hbmTy0_1 i
  | 2 => hbmTy0_2 i
  | _ => ⟨S50000x14, .f32⟩

abbrev bufTy : (tb : Table) → Fin (tcTables nBuf tb) → BufTy
  | .hbm, ⟨i, _⟩ => hbmTy i
  | .local _ .vmem, ⟨0, _⟩ => ⟨S10000x14, .f32⟩
  | .local _ .vmem, ⟨1, _⟩ => ⟨S10000x14, .f32⟩
  | .local _ .vmem, ⟨2, _⟩ => ⟨S14x128, .f32⟩
  | .local _ .vmem, ⟨3, _⟩ => ⟨S10000x128, .f32⟩
  | .local _ .vmem, ⟨4, _⟩ => ⟨S10000x128, .f32⟩
  | .local _ .vmem, ⟨5, _⟩ => ⟨S25000x11, .f32⟩
  | .local _ .vmem, ⟨6, _⟩ => ⟨S25000x11, .f32⟩
  | .local _ .vmem, ⟨7, _⟩ => ⟨S11x128, .f32⟩
  | .local _ .vmem, ⟨8, _⟩ => ⟨S25000x128, .f32⟩
  | .local _ .vmem, ⟨9, _⟩ => ⟨S25000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x384, .f32⟩
  | .local _ .vmem, ⟨27, _⟩ => ⟨S128x384, .f32⟩
  | .local _ .vmem, ⟨28, _⟩ => ⟨S1x384, .f32⟩
  | .local _ .vmem, ⟨29, _⟩ => ⟨S1x384, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S128x384, .f32⟩
  | .local _ .vmem, ⟨49, _⟩ => ⟨S128x384, .f32⟩
  | .local _ .vmem, ⟨50, _⟩ => ⟨S1x384, .f32⟩
  | .local _ .vmem, ⟨51, _⟩ => ⟨S1x384, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S128x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S10000x128, .f32⟩
  | .local _ .vmem, ⟨69, _⟩ => ⟨S10000x128, .f32⟩
  | .local _ .vmem, ⟨70, _⟩ => ⟨S128x384, .f32⟩
  | .local _ .vmem, ⟨71, _⟩ => ⟨S128x384, .f32⟩
  | .local _ .vmem, ⟨72, _⟩ => ⟨S1x384, .f32⟩
  | .local _ .vmem, ⟨73, _⟩ => ⟨S1x384, .f32⟩
  | .local _ .vmem, ⟨74, _⟩ => ⟨S10000x128, .f32⟩
  | .local _ .vmem, ⟨75, _⟩ => ⟨S10000x128, .f32⟩
  | .local _ .vmem, ⟨76, _⟩ => ⟨S10000x128, .f32⟩
  | .local _ .vmem, ⟨77, _⟩ => ⟨S10000x128, .f32⟩
  | .local _ .vmem, ⟨78, _⟩ => ⟨S128x128, .f32⟩
  | .local _ .vmem, ⟨79, _⟩ => ⟨S1x128, .f32⟩
  | .local _ .vmem, ⟨80, _⟩ => ⟨S128x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | _, _ => ⟨S50000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v15 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v16 : Ref sig .tc := ⟨.hbm, 82, rfl⟩
abbrev main_v17 : Ref sig .tc := ⟨.hbm, 83, rfl⟩
abbrev main_cst : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v45 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v46 : Ref sig .tc := ⟨.hbm, 157, rfl⟩
abbrev main_v47 : Ref sig .tc := ⟨.hbm, 158, rfl⟩
abbrev main_cst_0 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_call4_c : Ref sig .tc := ⟨.hbm, 187, rfl⟩
abbrev main_call4_v0 : Ref sig .tc := ⟨.hbm, 188, rfl⟩
abbrev main_call4_v1 : Ref sig .tc := ⟨.hbm, 189, rfl⟩
abbrev main_call4_c_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_c_1 : Ref sig .tc := ⟨.hbm, 195, rfl⟩
abbrev main_call4_c_2 : Ref sig .tc := ⟨.hbm, 196, rfl⟩
abbrev main_call4_v6 : Ref sig .tc := ⟨.hbm, 197, rfl⟩
abbrev main_call4_v7 : Ref sig .tc := ⟨.hbm, 198, rfl⟩
abbrev main_call4_v8 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_c_3 : Ref sig .tc := ⟨.hbm, 203, rfl⟩
abbrev main_call4_v12 : Ref sig .tc := ⟨.hbm, 204, rfl⟩
abbrev main_call4_v13 : Ref sig .tc := ⟨.hbm, 205, rfl⟩
abbrev main_call4_v14 : Ref sig .tc := ⟨.hbm, 206, rfl⟩
abbrev main_call4_cst : Ref sig .tc := ⟨.hbm, 207, rfl⟩
abbrev main_call4_v15 : Ref sig .tc := ⟨.hbm, 208, rfl⟩
abbrev main_v75 : Ref sig .tc := ⟨.hbm, 209, rfl⟩
abbrev main_call5_c : Ref sig .tc := ⟨.hbm, 210, rfl⟩
abbrev main_call5_v0 : Ref sig .tc := ⟨.hbm, 211, rfl⟩
abbrev main_call5_v1 : Ref sig .tc := ⟨.hbm, 212, rfl⟩
abbrev main_call5_c_0 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_c_1 : Ref sig .tc := ⟨.hbm, 218, rfl⟩
abbrev main_call5_c_2 : Ref sig .tc := ⟨.hbm, 219, rfl⟩
abbrev main_call5_v6 : Ref sig .tc := ⟨.hbm, 220, rfl⟩
abbrev main_call5_v7 : Ref sig .tc := ⟨.hbm, 221, rfl⟩
abbrev main_call5_v8 : Ref sig .tc := ⟨.hbm, 222, rfl⟩
abbrev main_call5_v9 : Ref sig .tc := ⟨.hbm, 223, rfl⟩
abbrev main_call5_v10 : Ref sig .tc := ⟨.hbm, 224, rfl⟩
abbrev main_call5_v11 : Ref sig .tc := ⟨.hbm, 225, rfl⟩
abbrev main_call5_c_3 : Ref sig .tc := ⟨.hbm, 226, rfl⟩
abbrev main_call5_v12 : Ref sig .tc := ⟨.hbm, 227, rfl⟩
abbrev main_call5_v13 : Ref sig .tc := ⟨.hbm, 228, rfl⟩
abbrev main_call5_v14 : Ref sig .tc := ⟨.hbm, 229, rfl⟩
abbrev main_call5_cst : Ref sig .tc := ⟨.hbm, 230, rfl⟩
abbrev main_call5_v15 : Ref sig .tc := ⟨.hbm, 231, rfl⟩
abbrev main_v76 : Ref sig .tc := ⟨.hbm, 232, rfl⟩
abbrev main_v77 : Ref sig .tc := ⟨.hbm, 233, rfl⟩
abbrev main_cst_1 : Ref sig .tc := ⟨.hbm, 234, rfl⟩
abbrev main_v78 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩
abbrev main_v84 : Ref sig .tc := ⟨.hbm, 241, rfl⟩
abbrev main_v85 : Ref sig .tc := ⟨.hbm, 242, rfl⟩
abbrev main_v86 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_v90 : Ref sig .tc := ⟨.hbm, 247, rfl⟩
abbrev main_v91 : Ref sig .tc := ⟨.hbm, 248, rfl⟩
abbrev main_v92 : Ref sig .tc := ⟨.hbm, 249, rfl⟩
abbrev main_v93 : Ref sig .tc := ⟨.hbm, 250, rfl⟩
abbrev main_v94 : Ref sig .tc := ⟨.hbm, 251, rfl⟩
abbrev main_v95 : Ref sig .tc := ⟨.hbm, 252, rfl⟩
abbrev main_v96 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_cst_2 : Ref sig .tc := ⟨.hbm, 258, rfl⟩
abbrev main_v101 : Ref sig .tc := ⟨.hbm, 259, rfl⟩
abbrev main_v102 : Ref sig .tc := ⟨.hbm, 260, rfl⟩
abbrev main_v103 : Ref sig .tc := ⟨.hbm, 261, rfl⟩
abbrev main_v104 : Ref sig .tc := ⟨.hbm, 262, rfl⟩
abbrev main_v105 : Ref sig .tc := ⟨.hbm, 263, rfl⟩
abbrev main_v106 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg7_0 : Ref sig .tc := ⟨.vmem, 64, rfl⟩
abbrev cc6_stg7_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_scratch0 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem7_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S11x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def k8_cond2 (i : grid8.Coords) : BitVec 1 :=
  let arg0 : BitVec 32 := BitVec.ofNat 32 (i 0).val
  let c4_i32 : BitVec 32 := 4#32
  let v28 : BitVec 1 := Scalar.cmpi .eq arg0 c4_i32
  let v29 : BitVec 32 := Scalar.extui v28
  let c0_i32_18 : BitVec 32 := 0#32
  let v30 : BitVec 1 := Scalar.cmpi .ne v29 c0_i32_18
  v30

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  inb_S10000x14_S10000x14_0_0 : ∀ a, (![0, 0] : Fin 2 → Nat) a + S10000x14.size a ≤ S10000x14.size a
  h_S10000x14 : 0 < S10000x14.numel
  inb_S14x128_S14x128_0_0 : ∀ a, (![0, 0] : Fin 2 → Nat) a + S14x128.size a ≤ S14x128.size a
  h_S14x128 : 0 < S14x128.numel
  inb_S10000x128_S10000x128_0_0 : ∀ a, (![0, 0] : Fin 2 → Nat) a + S10000x128.size a ≤ S10000x128.size a
  h_S10000x128 : 0 < S10000x128.numel
  inb_S25000x11_S25000x11_0_0 : ∀ a, (![0, 0] : Fin 2 → Nat) a + S25000x11.size a ≤ S25000x11.size a
  h_S25000x11 : 0 < S25000x11.numel
  inb_S11x128_S11x128_0_0 : ∀ a, (![0, 0] : Fin 2 → Nat) a + S11x128.size a ≤ S11x128.size a
  h_S11x128 : 0 < S11x128.numel
  inb_S25000x128_S25000x128_0_0 : ∀ a, (![0, 0] : Fin 2 → Nat) a + S25000x128.size a ≤ S25000x128.size a
  h_S25000x128 : 0 < S25000x128.numel
  slices_S3x388x128_S1x128x128_0_0_0 : S3x388x128.Slices ![0, 0, 0] S1x128x128
  shapeCasts_S1x128x128_S128x128 : S1x128x128.ShapeCasts S128x128
  slices_S3x388x128_S1x128x128_0_128_0 : S3x388x128.Slices ![0, 128, 0] S1x128x128
  slices_S3x388x128_S1x128x128_0_256_0 : S3x388x128.Slices ![0, 256, 0] S1x128x128
  slices_S3x388x128_S1x4x128_0_384_0 : S3x388x128.Slices ![0, 384, 0] S1x4x128
  shapeCasts_S1x4x128_S4x128 : S1x4x128.ShapeCasts S4x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S50000x128 : S_.BroadcastsInDim S50000x128 (![] : Fin 0 → Fin S50000x128.rank)
  slices_S3x384_S1x384_0_0 : S3x384.Slices ![0, 0] S1x384
  shapeCasts_S1x384_S384 : S1x384.ShapeCasts S384
  shapeCasts_S384_S1x384 : S384.ShapeCasts S1x384
  slices_S3x128x384_S1x128x384_0_0_0 : S3x128x384.Slices ![0, 0, 0] S1x128x384
  shapeCasts_S1x128x384_S128x384 : S1x128x384.ShapeCasts S128x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S10000x384 : S1x384.Broadcasts S10000x384
  slices_S10000x384_o0_0_S10000x128 : S10000x384.Slices ![0, 0] S10000x128
  slices_S10000x384_o0_128_S10000x128 : S10000x384.Slices ![0, 128] S10000x128
  slices_S10000x384_o0_256_S10000x128 : S10000x384.Slices ![0, 256] S10000x128
  slices_S3x388x128_S1x128x128_1_0_0 : S3x388x128.Slices ![1, 0, 0] S1x128x128
  slices_S3x388x128_S1x128x128_1_128_0 : S3x388x128.Slices ![1, 128, 0] S1x128x128
  slices_S3x388x128_S1x128x128_1_256_0 : S3x388x128.Slices ![1, 256, 0] S1x128x128
  slices_S3x388x128_S1x4x128_1_384_0 : S3x388x128.Slices ![1, 384, 0] S1x4x128
  slices_S3x128_S1x128_1_0 : S3x128.Slices ![1, 0] S1x128
  slices_S3x384_S1x384_1_0 : S3x384.Slices ![1, 0] S1x384
  slices_S3x128x384_S1x128x384_1_0_0 : S3x128x384.Slices ![1, 0, 0] S1x128x384
  slices_S3x388x128_S1x128x128_2_0_0 : S3x388x128.Slices ![2, 0, 0] S1x128x128
  slices_S3x388x128_S1x128x128_2_128_0 : S3x388x128.Slices ![2, 128, 0] S1x128x128
  slices_S3x388x128_S1x128x128_2_256_0 : S3x388x128.Slices ![2, 256, 0] S1x128x128
  slices_S3x388x128_S1x4x128_2_384_0 : S3x388x128.Slices ![2, 384, 0] S1x4x128
  slices_S3x128_S1x128_2_0 : S3x128.Slices ![2, 0] S1x128
  slices_S3x384_S1x384_2_0 : S3x384.Slices ![2, 0] S1x384
  slices_S3x128x384_S1x128x384_2_0_0 : S3x128x384.Slices ![2, 0, 0] S1x128x384
  shapeCasts_S128_S1x128 : S128.ShapeCasts S1x128
  reduces_S10000x128_S128 : S10000x128.Reduces [0] S128
  bcast_S_S1x128 : S_.BroadcastsInDim S1x128 (![] : Fin 0 → Fin S1x128.rank)
  concatenates_S1x128_S1x128_S1x128_S1x384_d1 : Shape.Concatenates [S1x128, S1x128, S1x128] S1x384 1
  dot_S10000x14_S14x128_S10000x128_1_0_0_1_n_n_wf : DotDims.WF S10000x14 S14x128 S10000x128 [1] [0] [0] [1] [] []
  dot_S25000x11_S11x128_S25000x128_1_0_0_1_n_n_wf : DotDims.WF S25000x11 S11x128 S25000x128 [1] [0] [0] [1] [] []
  dot_S1x4_S4x128_S1x128_1_0_0_1_n_n_wf : DotDims.WF S1x4 S4x128 S1x128 [1] [0] [0] [1] [] []
  gather_S50000x128_S500000x1_S500000x128_1_0_n_n_0_1_1128_wf : GatherDims.WF S50000x128 S500000x1 S500000x128 [1] [0] [] [0] [] 1 ![1, 128]
  dot_S10000x128_S128x128_S10000x128_1_0_0_1_n_n_wf : DotDims.WF S10000x128 S128x128 S10000x128 [1] [0] [0] [1] [] []
  scatter_S50000x128_S500000x1_S500000x128_1_0_0_1_wf : ScatterDims.WF S50000x128 S500000x1 S500000x128 [1] [0] [0] 1
  dot_S10000x128_S128x384_S10000x384_1_0_0_1_n_n_wf : DotDims.WF S10000x128 S128x384 S10000x384 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S50000x14.size a
  hwx0_0 : ∀ i : grid0.Coords, EltTy.bits .f32 = 32 ∨ (Rect.block (s := S50000x14) S10000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x128.size a ≤ S14x128.size a
  hwx0_1 : ∀ i : grid0.Coords, EltTy.bits .f32 = 32 ∨ (Rect.block (s := S14x128) S14x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x11.size a ≤ S500000x11.size a
  hwx1_0 : ∀ i : grid1.Coords, EltTy.bits .f32 = 32 ∨ (Rect.block (s := S500000x11) S25000x11.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S11x128.size a ≤ S11x128.size a
  hwx1_1 : ∀ i : grid1.Coords, EltTy.bits .f32 = 32 ∨ (Rect.block (s := S11x128) S11x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x128.size a ≤ S500000x128.size a
  hwx1_2 : ∀ i : grid1.Coords, EltTy.bits .f32 = 32 ∨ (Rect.block (s := S500000x128) S25000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S500000x128.size a
  hwx2_2 : ∀ i : grid2.Coords, EltTy.bits .f32 = 32 ∨ (Rect.block (s := S500000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S500000x128.size a
  hwx2_7 : ∀ i : grid2.Coords, EltTy.bits .f32 = 32 ∨ (Rect.block (s := S500000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S500000x128.size a
  hwx4_0 : ∀ i : grid4.Coords, EltTy.bits .f32 = 32 ∨ (Rect.block (s := S500000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S500000x128.size a
  hwx4_1 : ∀ i : grid4.Coords, EltTy.bits .f32 = 32 ∨ (Rect.block (s := S500000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S500000x128.size a
  hwx4_2 : ∀ i : grid4.Coords, EltTy.bits .f32 = 32 ∨ (Rect.block (s := S500000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S500000x128.size a
  hwx4_7 : ∀ i : grid4.Coords, EltTy.bits .f32 = 32 ∨ (Rect.block (s := S500000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .f32 = 32 ∨ (Rect.block (s := S50000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S50000x128.size a
  hwx5_6 : ∀ i : grid5.Coords, EltTy.bits .f32 = 32 ∨ (Rect.block (s := S50000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S500000x128.size a
  hwx6_0 : ∀ i : grid6.Coords, EltTy.bits .f32 = 32 ∨ (Rect.block (s := S500000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S500000x128.size a
  hwx6_1 : ∀ i : grid6.Coords, EltTy.bits .f32 = 32 ∨ (Rect.block (s := S500000x128) S10000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S500000x128.size a
  hwx6_2 : ∀ i : grid6.Coords, EltTy.bits .f32 = 32 ∨ (Rect.block (s := S500000x128) S10000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x128.size a ≤ S500000x128.size a
  hwx6_7 : ∀ i : grid6.Coords, EltTy.bits .f32 = 32 ∨ (Rect.block (s := S500000x128) S10000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S50000x128.size a
  hwx7_1 : ∀ i : grid7.Coords, EltTy.bits .f32 = 32 ∨ (Rect.block (s := S50000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x384.size a ≤ S128x384.size a
  hwx7_2 : ∀ i : grid7.Coords, EltTy.bits .f32 = 32 ∨ (Rect.block (s := S128x384) S128x384.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x128.size a ≤ S50000x128.size a
  hwx7_6 : ∀ i : grid7.Coords, EltTy.bits .f32 = 32 ∨ (Rect.block (s := S50000x128) S10000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)

variable [Facts₀]

def dot_S10000x14_S14x128_S10000x128_1_0_0_1_n_n : DotDims S10000x14 S14x128 S10000x128 where
  lhsContracting := [1]
  rhsContracting := [0]
  lhsNonContracting := [0]
  rhsNonContracting := [1]
  lhsBatch := []
  rhsBatch := []
  wf := dot_S10000x14_S14x128_S10000x128_1_0_0_1_n_n_wf
def dot_S25000x11_S11x128_S25000x128_1_0_0_1_n_n : DotDims S25000x11 S11x128 S25000x128 where
  lhsContracting := [1]
  rhsContracting := [0]
  lhsNonContracting := [0]
  rhsNonContracting := [1]
  lhsBatch := []
  rhsBatch := []
  wf := dot_S25000x11_S11x128_S25000x128_1_0_0_1_n_n_wf
def dot_S1x4_S4x128_S1x128_1_0_0_1_n_n : DotDims S1x4 S4x128 S1x128 where
  lhsContracting := [1]
  rhsContracting := [0]
  lhsNonContracting := [0]
  rhsNonContracting := [1]
  lhsBatch := []
  rhsBatch := []
  wf := dot_S1x4_S4x128_S1x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S14x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S25000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S11x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S25000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v20) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v45) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S10000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v33) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v44) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v47) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v50) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v53) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v61) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v75) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v1) S10000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v63) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v74) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v77) S10000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v80) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v61) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v88) S128x384.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v83) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v86) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v91) S10000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v91) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v92) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg14) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v93) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v94) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev idle8 : Fin 6 → grid8.Coords → Bool := fun | 0 => fun _ => false | 1 => fun _ => false | 2 => fun _ => false | 3 => fun _ => false | 4 => fun _ => false | 5 => fun i => !(k8_cond2 i == 1#1) | ⟨_ + 6, h⟩ => absurd h (Nat.not_lt.2 (Nat.le_add_left _ _))

class Facts : Prop extends Facts₀ where

variable [Facts]
-- ==== ReferenceIdeal.lean ====
abbrev S50000x14 : Shape := ⟨2, ![50000, 14]⟩
abbrev S500000x11 : Shape := ⟨2, ![500000, 11]⟩
abbrev S1x4 : Shape := ⟨2, ![1, 4]⟩
abbrev S1x128 : Shape := ⟨2, ![1, 128]⟩
abbrev S14x128 : Shape := ⟨2, ![14, 128]⟩
abbrev S11x128 : Shape := ⟨2, ![11, 128]⟩
abbrev S3x388x128 : Shape := ⟨3, ![3, 388, 128]⟩
abbrev S3x128 : Shape := ⟨2, ![3, 128]⟩
abbrev S3x128x384 : Shape := ⟨3, ![3, 128, 384]⟩
abbrev S3x384 : Shape := ⟨2, ![3, 384]⟩
abbrev S128x128 : Shape := ⟨2, ![128, 128]⟩
abbrev S128 : Shape := ⟨1, ![128]⟩
abbrev S500000 : Shape := ⟨1, ![500000]⟩
abbrev S50000x128 : Shape := ⟨2, ![50000, 128]⟩
abbrev S500000x128 : Shape := ⟨2, ![500000, 128]⟩
abbrev S1x128x128 : Shape := ⟨3, ![1, 128, 128]⟩
abbrev S1x4x128 : Shape := ⟨3, ![1, 4, 128]⟩
abbrev S4x128 : Shape := ⟨2, ![4, 128]⟩
abbrev S_ : Shape := ⟨0, ![]⟩
abbrev S500000x1 : Shape := ⟨2, ![500000, 1]⟩
abbrev S1x128x384 : Shape := ⟨3, ![1, 128, 384]⟩
abbrev S128x384 : Shape := ⟨2, ![128, 384]⟩
abbrev S1x384 : Shape := ⟨2, ![1, 384]⟩
abbrev S384 : Shape := ⟨1, ![384]⟩
abbrev S50000x384 : Shape := ⟨2, ![50000, 384]⟩

abbrev nBuf : Space → Nat
  | .hbm => 333
  | .vmem => 0
  | .smem => 0
  | _ => 0

abbrev hbmTy0_0 (i : Nat) : BufTy := match i % 128 with
  | 0 => ⟨S50000x14, .f32⟩
  | 1 => ⟨S500000x11, .f32⟩
  | 2 => ⟨S1x4, .f32⟩
  | 3 => ⟨S1x128, .f32⟩
  | 4 => ⟨S14x128, .f32⟩
  | 5 => ⟨S11x128, .f32⟩
  | 6 => ⟨S3x388x128, .f32⟩
  | 7 => ⟨S3x128, .f32⟩
  | 8 => ⟨S3x128x384, .f32⟩
  | 9 => ⟨S3x128x384, .f32⟩
  | 10 => ⟨S3x384, .f32⟩
  | 11 => ⟨S3x384, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S500000, .i32⟩
  | 21 => ⟨S500000, .i32⟩
  | 22 => ⟨S50000x128, .f32⟩
  | 23 => ⟨S500000x128, .f32⟩
  | 24 => ⟨S1x128x128, .f32⟩
  | 25 => ⟨S128x128, .f32⟩
  | 26 => ⟨S1x128x128, .f32⟩
  | 27 => ⟨S128x128, .f32⟩
  | 28 => ⟨S1x128x128, .f32⟩
  | 29 => ⟨S128x128, .f32⟩
  | 30 => ⟨S1x4x128, .f32⟩
  | 31 => ⟨S4x128, .f32⟩
  | 32 => ⟨S1x128, .f32⟩
  | 33 => ⟨S1x128, .f32⟩
  | 34 => ⟨S128, .f32⟩
  | 35 => ⟨S1x128, .f32⟩
  | 36 => ⟨S1x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x128, .f32⟩
  | 57 => ⟨S500000x128, .f32⟩
  | 58 => ⟨S500000x128, .f32⟩
  | 59 => ⟨S500000x128, .f32⟩
  | 60 => ⟨S500000x128, .f32⟩
  | 61 => ⟨S500000x128, .f32⟩
  | 62 => ⟨S_, .f32⟩
  | 63 => ⟨S50000x128, .f32⟩
  | 64 => ⟨S500000x1, .i32⟩
  | 65 => ⟨S50000x128, .f32⟩
  | 66 => ⟨S1x128x384, .f32⟩
  | 67 => ⟨S128x384, .f32⟩
  | 68 => ⟨S1x128x384, .f32⟩
  | 69 => ⟨S128x384, .f32⟩
  | 70 => ⟨S1x384, .f32⟩
  | 71 => ⟨S384, .f32⟩
  | 72 => ⟨S1x384, .f32⟩
  | 73 => ⟨S384, .f32⟩
  | 74 => ⟨S50000x384, .f32⟩
  | 75 => ⟨S1x384, .f32⟩
  | 76 => ⟨S50000x384, .f32⟩
  | 77 => ⟨S50000x384, .f32⟩
  | 78 => ⟨S50000x384, .f32⟩
  | 79 => ⟨S1x384, .f32⟩
  | 80 => ⟨S50000x384, .f32⟩
  | 81 => ⟨S50000x384, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S1x128x128, .f32⟩
  | 116 => ⟨S128x128, .f32⟩
  | 117 => ⟨S1x128x128, .f32⟩
  | 118 => ⟨S128x128, .f32⟩
  | 119 => ⟨S1x128x128, .f32⟩
  | 120 => ⟨S128x128, .f32⟩
  | 121 => ⟨S1x4x128, .f32⟩
  | 122 => ⟨S4x128, .f32⟩
  | 123 => ⟨S1x128, .f32⟩
  | 124 => ⟨S1x128, .f32⟩
  | 125 => ⟨S128, .f32⟩
  | 126 => ⟨S1x128, .f32⟩
  | 127 => ⟨S1x128, .f32⟩
  | _ => ⟨S50000x14, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S500000x128, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .f32⟩
  | 19 => ⟨S500000x128, .f32⟩
  | 20 => ⟨S500000x128, .f32⟩
  | 21 => ⟨S500000x128, .f32⟩
  | 22 => ⟨S500000x128, .f32⟩
  | 23 => ⟨S500000x128, .f32⟩
  | 24 => ⟨S500000x128, .f32⟩
  | 25 => ⟨S_, .f32⟩
  | 26 => ⟨S50000x128, .f32⟩
  | 27 => ⟨S500000x1, .i32⟩
  | 28 => ⟨S50000x128, .f32⟩
  | 29 => ⟨S1x128x384, .f32⟩
  | 30 => ⟨S128x384, .f32⟩
  | 31 => ⟨S1x128x384, .f32⟩
  | 32 => ⟨S128x384, .f32⟩
  | 33 => ⟨S1x384, .f32⟩
  | 34 => ⟨S384, .f32⟩
  | 35 => ⟨S1x384, .f32⟩
  | 36 => ⟨S384, .f32⟩
  | 37 => ⟨S50000x384, .f32⟩
  | 38 => ⟨S1x384, .f32⟩
  | 39 => ⟨S50000x384, .f32⟩
  | 40 => ⟨S50000x384, .f32⟩
  | 41 => ⟨S50000x384, .f32⟩
  | 42 => ⟨S1x384, .f32⟩
  | 43 => ⟨S50000x384, .f32⟩
  | 44 => ⟨S50000x384, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S1x128x128, .f32⟩
  | 81 => ⟨S128x128, .f32⟩
  | 82 => ⟨S1x128x128, .f32⟩
  | 83 => ⟨S128x128, .f32⟩
  | 84 => ⟨S1x4x128, .f32⟩
  | 85 => ⟨S4x128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S500000x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x128, .f32⟩
  | 111 => ⟨S500000x128, .f32⟩
  | 112 => ⟨S500000x128, .f32⟩
  | 113 => ⟨S500000x128, .f32⟩
  | 114 => ⟨S500000x128, .f32⟩
  | 115 => ⟨S500000x128, .f32⟩
  | 116 => ⟨S_, .f32⟩
  | 117 => ⟨S50000x128, .f32⟩
  | 118 => ⟨S500000x1, .i32⟩
  | 119 => ⟨S50000x128, .f32⟩
  | 120 => ⟨S1x128x384, .f32⟩
  | 121 => ⟨S128x384, .f32⟩
  | 122 => ⟨S1x128x384, .f32⟩
  | 123 => ⟨S128x384, .f32⟩
  | 124 => ⟨S1x384, .f32⟩
  | 125 => ⟨S384, .f32⟩
  | 126 => ⟨S1x384, .f32⟩
  | 127 => ⟨S384, .f32⟩
  | _ => ⟨S50000x14, .f32⟩

abbrev hbmTy0_2 (i : Nat) : BufTy := match i % 128 with
  | 0 => ⟨S50000x384, .f32⟩
  | 1 => ⟨S1x384, .f32⟩
  | 2 => ⟨S50000x384, .f32⟩
  | 3 => ⟨S50000x384, .f32⟩
  | 4 => ⟨S50000x384, .f32⟩
  | 5 => ⟨S1x384, .f32⟩
  | 6 => ⟨S50000x384, .f32⟩
  | 7 => ⟨S50000x384, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S1x384, .f32⟩
  | _ => ⟨S50000x14, .f32⟩

abbrev hbmTy (i : Nat) : BufTy := match i / 128 with
  | 0 => hbmTy0_0 i
  | 1 => hbmTy0_1 i
  | 2 => hbmTy0_2 i
  | _ => ⟨S50000x14, .f32⟩

abbrev bufTy : (tb : Table) → Fin (tcTables nBuf tb) → BufTy
  | .hbm, ⟨i, _⟩ => hbmTy i
  | _, _ => ⟨S50000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_1 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_3 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_5 : Ref sig .tc := ⟨.hbm, 100, rfl⟩
abbrev main_v71 : Ref sig .tc := ⟨.hbm, 101, rfl⟩
abbrev main_v72 : Ref sig .tc := ⟨.hbm, 102, rfl⟩
abbrev main_cst_6 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_7 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_8 : Ref sig .tc := ⟨.hbm, 128, rfl⟩
abbrev main_v96 : Ref sig .tc := ⟨.hbm, 129, rfl⟩
abbrev main_v97 : Ref sig .tc := ⟨.hbm, 130, rfl⟩
abbrev main_c_9 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_10 : Ref sig .tc := ⟨.hbm, 138, rfl⟩
abbrev main_v104 : Ref sig .tc := ⟨.hbm, 139, rfl⟩
abbrev main_v105 : Ref sig .tc := ⟨.hbm, 140, rfl⟩
abbrev main_c_11 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_12 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_13 : Ref sig .tc := ⟨.hbm, 182, rfl⟩
abbrev main_v145 : Ref sig .tc := ⟨.hbm, 183, rfl⟩
abbrev main_v146 : Ref sig .tc := ⟨.hbm, 184, rfl⟩
abbrev main_cst_14 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_15 : Ref sig .tc := ⟨.hbm, 191, rfl⟩
abbrev main_v152 : Ref sig .tc := ⟨.hbm, 192, rfl⟩
abbrev main_v153 : Ref sig .tc := ⟨.hbm, 193, rfl⟩
abbrev main_cst_16 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_17 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_c_18 : Ref sig .tc := ⟨.hbm, 219, rfl⟩
abbrev main_v177 : Ref sig .tc := ⟨.hbm, 220, rfl⟩
abbrev main_v178 : Ref sig .tc := ⟨.hbm, 221, rfl⟩
abbrev main_c_19 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_c_20 : Ref sig .tc := ⟨.hbm, 229, rfl⟩
abbrev main_v185 : Ref sig .tc := ⟨.hbm, 230, rfl⟩
abbrev main_v186 : Ref sig .tc := ⟨.hbm, 231, rfl⟩
abbrev main_c_21 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_cst_22 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_cst_23 : Ref sig .tc := ⟨.hbm, 273, rfl⟩
abbrev main_v226 : Ref sig .tc := ⟨.hbm, 274, rfl⟩
abbrev main_v227 : Ref sig .tc := ⟨.hbm, 275, rfl⟩
abbrev main_cst_24 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_cst_25 : Ref sig .tc := ⟨.hbm, 282, rfl⟩
abbrev main_v233 : Ref sig .tc := ⟨.hbm, 283, rfl⟩
abbrev main_v234 : Ref sig .tc := ⟨.hbm, 284, rfl⟩
abbrev main_cst_26 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_cst_27 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_cst_28 : Ref sig .tc := ⟨.hbm, 307, rfl⟩
abbrev main_v255 : Ref sig .tc := ⟨.hbm, 308, rfl⟩
abbrev main_v256 : Ref sig .tc := ⟨.hbm, 309, rfl⟩
abbrev main_cst_29 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_cst_30 : Ref sig .tc := ⟨.hbm, 314, rfl⟩
abbrev main_v260 : Ref sig .tc := ⟨.hbm, 315, rfl⟩
abbrev main_v261 : Ref sig .tc := ⟨.hbm, 316, rfl⟩
abbrev main_cst_31 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_cst_32 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩

abbrev nD : Nat := 1
abbrev τ : Topo := Topo.v7x

variable {F : FTy → Type} [FloatOps F]

class Facts₀ : Prop where
  slices_S3x388x128_S1x128x128_0_0_0 : S3x388x128.Slices ![0, 0, 0] S1x128x128
  shapeCasts_S1x128x128_S128x128 : S1x128x128.ShapeCasts S128x128
  slices_S3x388x128_S1x128x128_0_128_0 : S3x388x128.Slices ![0, 128, 0] S1x128x128
  slices_S3x388x128_S1x128x128_0_256_0 : S3x388x128.Slices ![0, 256, 0] S1x128x128
  slices_S3x388x128_S1x4x128_0_384_0 : S3x388x128.Slices ![0, 384, 0] S1x4x128
  shapeCasts_S1x4x128_S4x128 : S1x4x128.ShapeCasts S4x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  slices_S3x128x384_S1x128x384_0_0_0 : S3x128x384.Slices ![0, 0, 0] S1x128x384
  shapeCasts_S1x128x384_S128x384 : S1x128x384.ShapeCasts S128x384
  slices_S3x384_S1x384_0_0 : S3x384.Slices ![0, 0] S1x384
  shapeCasts_S1x384_S384 : S1x384.ShapeCasts S384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S3x388x128_S1x128x128_1_0_0 : S3x388x128.Slices ![1, 0, 0] S1x128x128
  slices_S3x388x128_S1x128x128_1_128_0 : S3x388x128.Slices ![1, 128, 0] S1x128x128
  slices_S3x388x128_S1x128x128_1_256_0 : S3x388x128.Slices ![1, 256, 0] S1x128x128
  slices_S3x388x128_S1x4x128_1_384_0 : S3x388x128.Slices ![1, 384, 0] S1x4x128
  slices_S3x128_S1x128_1_0 : S3x128.Slices ![1, 0] S1x128
  slices_S3x128x384_S1x128x384_1_0_0 : S3x128x384.Slices ![1, 0, 0] S1x128x384
  slices_S3x384_S1x384_1_0 : S3x384.Slices ![1, 0] S1x384
  slices_S3x388x128_S1x128x128_2_0_0 : S3x388x128.Slices ![2, 0, 0] S1x128x128
  slices_S3x388x128_S1x128x128_2_128_0 : S3x388x128.Slices ![2, 128, 0] S1x128x128
  slices_S3x388x128_S1x128x128_2_256_0 : S3x388x128.Slices ![2, 256, 0] S1x128x128
  slices_S3x388x128_S1x4x128_2_384_0 : S3x388x128.Slices ![2, 384, 0] S1x4x128
  slices_S3x128_S1x128_2_0 : S3x128.Slices ![2, 0] S1x128
  slices_S3x128x384_S1x128x384_2_0_0 : S3x128x384.Slices ![2, 0, 0] S1x128x384
  slices_S3x384_S1x384_2_0 : S3x384.Slices ![2, 0] S1x384
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  concatenates_S1x128_S1x128_S1x128_S1x384_d1 : Shape.Concatenates [S1x128, S1x128, S1x128] S1x384 1
  dot_S50000x14_S14x128_S50000x128_1_0_0_1_n_n_wf : DotDims.WF S50000x14 S14x128 S50000x128 [1] [0] [0] [1] [] []
  dot_S500000x11_S11x128_S500000x128_1_0_0_1_n_n_wf : DotDims.WF S500000x11 S11x128 S500000x128 [1] [0] [0] [1] [] []
  dot_S1x4_S4x128_S1x128_1_0_0_1_n_n_wf : DotDims.WF S1x4 S4x128 S1x128 [1] [0] [0] [1] [] []
  gather_S50000x128_S500000x1_S500000x128_1_0_n_n_0_1_1128_wf : GatherDims.WF S50000x128 S500000x1 S500000x128 [1] [0] [] [0] [] 1 ![1, 128]
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x384_S50000x384_1_0_0_1_n_n_wf : DotDims.WF S50000x128 S128x384 S50000x384 [1] [0] [0] [1] [] []
  dot_S50000x128_S128x128_S50000x128_1_0_0_1_n_n_wf : DotDims.WF S50000x128 S128x128 S50000x128 [1] [0] [0] [1] [] []
  dot_S1x128_S128x128_S1x128_1_0_0_1_n_n_wf : DotDims.WF S1x128 S128x128 S1x128 [1] [0] [0] [1] [] []

variable [Facts₀]

def dot_S50000x14_S14x128_S50000x128_1_0_0_1_n_n : DotDims S50000x14 S14x128 S50000x128 where
  lhsContracting := [1]
  rhsContracting := [0]
  lhsNonContracting := [0]
  rhsNonContracting := [1]
  lhsBatch := []
  rhsBatch := []
  wf := dot_S50000x14_S14x128_S50000x128_1_0_0_1_n_n_wf
def dot_S500000x11_S11x128_S500000x128_1_0_0_1_n_n : DotDims S500000x11 S11x128 S500000x128 where
  lhsContracting := [1]
  rhsContracting := [0]
  lhsNonContracting := [0]
  rhsNonContracting := [1]
  lhsBatch := []
  rhsBatch := []
  wf := dot_S500000x11_S11x128_S500000x128_1_0_0_1_n_n_wf
def dot_S1x4_S4x128_S1x128_1_0_0_1_n_n : DotDims S1x4 S4x128 S1x128 where
  lhsContracting := [1]
  rhsContracting := [0]
  lhsNonContracting := [0]
  rhsNonContracting := [1]
  lhsBatch := []
  rhsBatch := []
  wf := dot_S1x4_S4x128_S1x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.K.Reg0.lean ====
import proofs.«406877_j20933670601167_1_alg».proof.Proof.Gen.Kernel.Launch
import proofs.«406877_j20933670601167_1_alg».proof.Proof.Gen.Kernel.Skeleton
import proofs.«406877_j20933670601167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x14 := Rect.unit (s := S10000x14) ![0, 0] S10000x14.size inb_S10000x14_S10000x14_0_0
abbrev r0_w : Rect S14x128 := Rect.unit (s := S14x128) ![0, 0] S14x128.size inb_S14x128_S14x128_0_0
abbrev r0_o : Rect S10000x128 := Rect.unit (s := S10000x128) ![0, 0] S10000x128.size inb_S10000x128_S10000x128_0_0

def out0_2 (x0 : Vec F S10000x14 .f32) (x1 : Vec F S14x128 .f32) : Vec F S10000x128 .f32 :=
  View.canon [⟨r0_o, k0_pay1 (View.ld x0 r0_x) (View.ld x1 r0_w)⟩]

set_option maxHeartbeats 1000000 in
theorem sound_kernel0 (c : Dev nD) (E : Set ℕ) (i : grid0.Coords)
    (arg1 : Memref sig .tc .vmem S10000x14 .f32) (harg1 : arg1.IsWhole) (arg2 : Memref sig .tc .vmem S14x128 .f32) (harg2 : arg2.IsWhole)
    (arg3 : Memref sig .tc .vmem S10000x128 .f32) (harg3 : arg3.IsWhole)
    (x0 : Vec F S10000x14 .f32) (x1 : Vec F S14x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ (∀ d, (dat0 V c).before 1 t d = iblk0 V c 1 t) := by
  refine ⟨fun d => ?_, fun d => ?_⟩ <;>
    exact ((dat0 V c).before_in_eq_fetched _ rfl (fun _ => rfl) (fun _ _ _ => rfl)
      (fun t => by
        first | rw [show (dat0 V c).after 0 t = iblk0 V c 0 t from rfl] | rw [show (dat0 V c).after 1 t = iblk0 V c 1 t from rfl]
        unfold Dat.blockOf iblk0; rw [A_eq0]; try rfl) t d).trans
      (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1⟩ := before0 V c t
  simp only [b0, b1]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«406877_j20933670601167_1_alg».proof.Proof.Gen.Kernel.Launch
import proofs.«406877_j20933670601167_1_alg».proof.Proof.Gen.Kernel.Skeleton
import proofs.«406877_j20933670601167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S25000x11 := Rect.unit (s := S25000x11) ![0, 0] S25000x11.size inb_S25000x11_S25000x11_0_0
abbrev r1_w : Rect S11x128 := Rect.unit (s := S11x128) ![0, 0] S11x128.size inb_S11x128_S11x128_0_0
abbrev r1_o : Rect S25000x128 := Rect.unit (s := S25000x128) ![0, 0] S25000x128.size inb_S25000x128_S25000x128_0_0

def out1_2 (x0 : Vec F S25000x11 .f32) (x1 : Vec F S11x128 .f32) : Vec F S25000x128 .f32 :=
  View.canon [⟨r1_o, k1_pay1 (View.ld x0 r1_x) (View.ld x1 r1_w)⟩]

set_option maxHeartbeats 1000000 in
theorem sound_kernel1 (c : Dev nD) (E : Set ℕ) (i : grid1.Coords)
    (arg1 : Memref sig .tc .vmem S25000x11 .f32) (harg1 : arg1.IsWhole) (arg2 : Memref sig .tc .vmem S11x128 .f32) (harg2 : arg2.IsWhole)
    (arg3 : Memref sig .tc .vmem S25000x128 .f32) (harg3 : arg3.IsWhole)
    (x0 : Vec F S25000x11 .f32) (x1 : Vec F S11x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S25000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨fun d => ?_, fun d => ?_⟩ <;>
    exact ((dat1 V c).before_in_eq_fetched _ rfl (fun _ => rfl) (fun _ _ _ => rfl)
      (fun t => by
        first | rw [show (dat1 V c).after 0 t = iblk1 V c 0 t from rfl] | rw [show (dat1 V c).after 1 t = iblk1 V c 1 t from rfl]
        unfold Dat.blockOf iblk1; rw [A_eq1]; try rfl) t d).trans
      (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1⟩ := before1 V c t
  simp only [b0, b1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«406877_j20933670601167_1_alg».proof.Proof.Gen.Kernel.Launch
import proofs.«406877_j20933670601167_1_alg».proof.Proof.Gen.Kernel.Skeleton
import proofs.«406877_j20933670601167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S10000x128 := Rect.unit (s := S10000x128) ![0, 0] S10000x128.size inb_S10000x128_S10000x128_0_0

def out2_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r2_o, k2_pay1 (View.ld x0 r2_x) (View.ld x3 r2_w) (View.ld x1 r2_x) (View.ld x4 r2_w) (View.ld x2 r2_x) (View.ld x5 r2_w) (View.ld x6 r2_b)⟩]

/-- The body keeps its seven inputs and leaves `out2_7` of them in the output. -/
theorem sound_kernel2 (c : Dev nD) (E : Set ℕ) (i : grid2.Coords) (a1 a2 a3 a8 : Memref sig .tc .vmem S10000x128 .f32)
    (a4 a5 a6 : Memref sig .tc .vmem S128x128 .f32) (a7 : Memref sig .tc .vmem S1x128 .f32)
    (h1 : a1.IsWhole) (h2 : a2.IsWhole) (h3 : a3.IsWhole) (h4 : a4.IsWhole) (h5 : a5.IsWhole) (h6 : a6.IsWhole) (h7 : a7.IsWhole) (h8 : a8.IsWhole)
    (x0 x1 x2 : Vec F S10000x128 .f32) (x3 x4 x5 : Vec F S128x128 .f32) (x6 : Vec F S1x128 .f32) (K : PUnit → sProp 𝕄) :
    iprop(owns c a1 fullShare x0 ∗ owns c a2 fullShare x1 ∗ owns c a3 fullShare x2 ∗ owns c a4 fullShare x3 ∗ owns c a5 fullShare x4
        ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4
            ∗ owns c a6 fullShare x5 ∗ owns c a7 fullShare x6 ∗ owns c a8 fullShare (out2_7 x0 x1 x2 x3 x4 x5 x6)) -∗ K ⟨⟩))
      ⊢ wp frame (wpE (defs₀ (F := F)) Variants.none c none) E (cc2__msg_kernel i a1 h1 a2 h2 a3 h3 a4 h4 a5 h5 a6 h6 a7 h7 a8 h8) K := by
  rw [cc2__msg_kernel_eq_skeleton]; unfold cc2__msg_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%_, %f7, -, H7⟩, Hk⟩
  subst e0 e1 e2 e3 e4 e5 e6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  iexists _; iframe H7; ipureintro
  exact View.read_writes_eq_canon _ _ _ (View.cover_of_tiled _ S10000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- The body keeps its inputs. -/
theorem before2 (c : Dev nD) (t : Fin cfg2.N) (w : Fin cfg2.W) (hw : w ≠ 7) (d) : (dat2 V c).before w t d = (dat2 V c).after w t := by
  fin_cases w <;> first | exact absurd rfl hw | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp (disch := decide) only [before2 V c]
  dsimp only [dat2]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  iintro H
  iframe HΦ H
  iexact Ho

/-- The three message kernels are one function. -/
theorem cc4_eq : cc4__msg_kernel (F := F) = cc2__msg_kernel := rfl
theorem cc6_eq : cc6__msg_kernel (F := F) = cc2__msg_kernel := rfl

end Cert.Kernel.Hand

end
-- ==== Proof.K.GruBody.lean ====
import proofs.«406877_j20933670601167_1_alg».proof.Proof.Gen.Kernel.Launch
import proofs.«406877_j20933670601167_1_alg».proof.Proof.Gen.Kernel.Skeleton
import proofs.«406877_j20933670601167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev gruA : Rect S10000x128 := Rect.unit (s := S10000x128) ![0, 0] S10000x128.size inb_S10000x128_S10000x128_0_0
abbrev gruW : Rect S128x384 := Rect.unit (s := S128x384) ![0, 0] S128x384.size inb_S128x384_S128x384_0_0
abbrev gruB : Rect S1x384 := Rect.unit (s := S1x384) ![0, 0] S1x384.size inb_S1x384_S1x384_0_0

-- The body keeps its six inputs and leaves their cell update in the output block; P and Q are carried along.
theorem gru_body (c : Dev nD) {E : Set ℕ} (i : grid3.Coords)
    {a1 a2 a7 : Memref sig .tc .vmem S10000x128 .f32} {a3 a4 : Memref sig .tc .vmem S128x384 .f32} {a5 a6 : Memref sig .tc .vmem S1x384 .f32}
    (h1 : a1.IsWhole) (h2 : a2.IsWhole) (h3 : a3.IsWhole) (h4 : a4.IsWhole) (h5 : a5.IsWhole) (h6 : a6.IsWhole) (h7 : a7.IsWhole)
    {x0 x1 : Vec F S10000x128 .f32} {x2 x3 : Vec F S128x384 .f32} {x4 x5 : Vec F S1x384 .f32}
    {b : Vec F S10000x128 .f32 → Vec F S10000x128 .f32} {P Q : sProp 𝕄} :
    iprop(P ∗ Q ∗ (∃ _ : Vec F S10000x128 .f32, owns c.tc a1 fullShare x0)
        ∗ (∃ _ : Vec F S10000x128 .f32, owns c.tc a2 fullShare x1)
        ∗ (∃ _ : Vec F S128x384 .f32, owns c.tc a3 fullShare x2)
        ∗ (∃ _ : Vec F S128x384 .f32, owns c.tc a4 fullShare x3)
        ∗ (∃ _ : Vec F S1x384 .f32, owns c.tc a5 fullShare x4)
        ∗ (∃ _ : Vec F S1x384 .f32, owns c.tc a6 fullShare x5)
        ∗ (∃ d, owns c.tc a7 fullShare (b d)))
      ⊢ wp frame (wpE (defs₀ (F := F)) Variants.none c none) E (cc3__gru_kernel i a1 h1 a2 h2 a3 h3 a4 h4 a5 h5 a6 h6 a7 h7)
          fun _ => iprop(P ∗ Q ∗ owns c.tc a1 fullShare x0 ∗ owns c.tc a2 fullShare x1
            ∗ owns c.tc a3 fullShare x2 ∗ owns c.tc a4 fullShare x3 ∗ owns c.tc a5 fullShare x4
            ∗ owns c.tc a6 fullShare x5 ∗ owns c.tc a7 fullShare (View.canon [⟨gruA, k3_pay1 (View.ld x0 gruA) (View.ld x2 gruW) (View.ld x4 gruB) (View.ld x1 gruA) (View.ld x3 gruW) (View.ld x5 gruB) (View.ld x1 gruA)⟩])) := by
  simp only [cc3__gru_kernel_eq_skeleton]; unfold cc3__gru_kernel_skel
  simp only [k3_part1_eq_skeleton]; unfold k3_part1_skel
  unfold owns
  iintro ⟨HP, HQ, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%d6, %f6, -, H6⟩⟩
  subst hf0; subst hf1; subst hf2; subst hf3; subst hf4; subst hf5
  sl_exec
  sl_step
  iframe HP HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x128.size (by rfl))

end Cert.Kernel.Hand

end
-- ==== Proof.K.Reg3.lean ====
import proofs.«406877_j20933670601167_1_alg».proof.Proof.K.GruBody

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x128 := Rect.unit (s := S10000x128) ![0, 0] S10000x128.size inb_S10000x128_S10000x128_0_0
abbrev r3_w : Rect S128x384 := Rect.unit (s := S128x384) ![0, 0] S128x384.size inb_S128x384_S128x384_0_0
abbrev r3_b : Rect S1x384 := Rect.unit (s := S1x384) ![0, 0] S1x384.size inb_S1x384_S1x384_0_0

def out3_6 (x0 x1 : Vec F S10000x128 .f32) (x2 x3 : Vec F S128x384 .f32) (x4 x5 : Vec F S1x384 .f32) : Vec F S10000x128 .f32 :=
  View.canon [⟨r3_a, k3_pay1 (View.ld x0 r3_a) (View.ld x2 r3_w) (View.ld x4 r3_b) (View.ld x1 r3_a) (View.ld x3 r3_w) (View.ld x5 r3_b) (View.ld x1 r3_a)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

-- Each input window holds before the body what it holds after it: its array's block at the point.
theorem before3 (c : Dev nD) (t : Fin cfg3.N) (w : Fin cfg3.W) (hw : w ≠ 6) (d) : (dat3 V c).before w t d = (dat3 V c).after w t := by
  fin_cases w <;> first | exact absurd rfl hw | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c t]
  dsimp only [dat3]
  exact gru_body (F := F) c (grid3.coords t) (hstage3_0 _) (hstage3_1 _) (hstage3_2 _) (hstage3_3 _) (hstage3_4 _) (hstage3_5 _) (hstage3_6 _)

end Cert.Kernel.Hand

end
-- ==== Proof.K.Reg4.lean ====
import proofs.«406877_j20933670601167_1_alg».proof.Proof.K.Reg2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S10000x128 := Rect.unit (s := S10000x128) ![0, 0] S10000x128.size inb_S10000x128_S10000x128_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0
abbrev r4_o : Rect S10000x128 := Rect.unit (s := S10000x128) ![0, 0] S10000x128.size inb_S10000x128_S10000x128_0_0

def out4_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r4_o, k4_pay1 (View.ld x0 r4_x) (View.ld x3 r4_w) (View.ld x1 r4_x) (View.ld x4 r4_w) (View.ld x2 r4_x) (View.ld x5 r4_w) (View.ld x6 r4_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- The body keeps its inputs. -/
theorem before4 (c : Dev nD) (t : Fin cfg4.N) (w : Fin cfg4.W) (hw : w ≠ 7) (d) : (dat4 V c).before w t d = (dat4 V c).after w t := by
  fin_cases w <;> first | exact absurd rfl hw | exact (dat4 V c).before_in_eq_fetched _ rfl (fun _ => rfl) (fun _ _ _ => rfl) (fun _ => rfl) t d

theorem out4_eq : out4_7 (F := F) = out2_7 := rfl

theorem body_obligation4 (c : Dev nD) : BodyObligation (dat4 (F := F) V c) (defs₀ (F := F)) Variants.none () Set.univ := fun t => by
  rw [bigSep_W4, bigSep_W4]
  simp (disch := decide) only [before4 V c]
  dsimp only [dat4]
  sl_whnfR [defs₀, Defs.onTc]
  rw [cc4_eq, out4_eq]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  iframe H0 H1 H2 H3 H4 H5 H6
  isplitl [H7]; · iexists _; iexact H7
  iintro H
  iframe HΦ H
  iexact Ho

end Cert.Kernel.Hand

end
-- ==== Proof.K.Reg5.lean ====
import proofs.«406877_j20933670601167_1_alg».proof.Proof.K.GruBody

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S10000x128 := Rect.unit (s := S10000x128) ![0, 0] S10000x128.size inb_S10000x128_S10000x128_0_0
abbrev r5_w : Rect S128x384 := Rect.unit (s := S128x384) ![0, 0] S128x384.size inb_S128x384_S128x384_0_0
abbrev r5_b : Rect S1x384 := Rect.unit (s := S1x384) ![0, 0] S1x384.size inb_S1x384_S1x384_0_0

def out5_6 (x0 x1 : Vec F S10000x128 .f32) (x2 x3 : Vec F S128x384 .f32) (x4 x5 : Vec F S1x384 .f32) : Vec F S10000x128 .f32 :=
  View.canon [⟨r5_a, k5_pay1 (View.ld x0 r5_a) (View.ld x2 r5_w) (View.ld x4 r5_b) (View.ld x1 r5_a) (View.ld x3 r5_w) (View.ld x5 r5_b) (View.ld x1 r5_a)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

-- Each input window holds before the body what it holds after it: its array's block at the point.
theorem before5 (c : Dev nD) (t : Fin cfg5.N) (w : Fin cfg5.W) (hw : w ≠ 6) (d) : (dat5 V c).before w t d = (dat5 V c).after w t := by
  fin_cases w <;> first | exact absurd rfl hw | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp +decide only [before5 V c t]
  dsimp only [dat5]
  exact gru_body (F := F) c (grid5.coords t) (hstage5_0 _) (hstage5_1 _) (hstage5_2 _) (hstage5_3 _) (hstage5_4 _) (hstage5_5 _) (hstage5_6 _)

end Cert.Kernel.Hand

end
-- ==== Proof.K.Reg6.lean ====
import proofs.«406877_j20933670601167_1_alg».proof.Proof.K.Reg2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S10000x128 := Rect.unit (s := S10000x128) ![0, 0] S10000x128.size inb_S10000x128_S10000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S10000x128 := Rect.unit (s := S10000x128) ![0, 0] S10000x128.size inb_S10000x128_S10000x128_0_0

def out6_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r6_o, k6_pay1 (View.ld x0 r6_x) (View.ld x3 r6_w) (View.ld x1 r6_x) (View.ld x4 r6_w) (View.ld x2 r6_x) (View.ld x5 r6_w) (View.ld x6 r6_b)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by dsimp only [dat6]

theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- The body keeps its inputs. -/
theorem before6 (c : Dev nD) (t : Fin cfg6.N) (w : Fin cfg6.W) (hw : w ≠ 7) (d) : (dat6 V c).before w t d = (dat6 V c).after w t := by
  fin_cases w <;> first | exact absurd rfl hw | exact (dat6 V c).before_in_eq_fetched _ rfl (fun _ => rfl) (fun _ _ _ => rfl) (fun _ => rfl) t d

theorem out6_eq : out6_7 (F := F) = out2_7 := rfl

theorem body_obligation6 (c : Dev nD) : BodyObligation (dat6 (F := F) V c) (defs₀ (F := F)) Variants.none () Set.univ := fun t => by
  rw [bigSep_W6, bigSep_W6]
  simp (disch := decide) only [before6 V c]
  dsimp only [dat6]
  sl_whnfR [defs₀, Defs.onTc]
  rw [cc6_eq, out6_eq]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro H
  iframe HΦ H
  iexact Ho

end Cert.Kernel.Hand

end
-- ==== Proof.K.Reg7.lean ====
import proofs.«406877_j20933670601167_1_alg».proof.Proof.K.GruBody

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S10000x128 := Rect.unit (s := S10000x128) ![0, 0] S10000x128.size inb_S10000x128_S10000x128_0_0
abbrev r7_w : Rect S128x384 := Rect.unit (s := S128x384) ![0, 0] S128x384.size inb_S128x384_S128x384_0_0
abbrev r7_b : Rect S1x384 := Rect.unit (s := S1x384) ![0, 0] S1x384.size inb_S1x384_S1x384_0_0

def out7_6 (x0 x1 : Vec F S10000x128 .f32) (x2 x3 : Vec F S128x384 .f32) (x4 x5 : Vec F S1x384 .f32) : Vec F S10000x128 .f32 :=
  View.canon [⟨r7_a, k7_pay1 (View.ld x0 r7_a) (View.ld x2 r7_w) (View.ld x4 r7_b) (View.ld x1 r7_a) (View.ld x3 r7_w) (View.ld x5 r7_b) (View.ld x1 r7_a)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem after7_6 (c : Dev nD) (t : Fin cfg7.N) :
    (dat7 V c).after 6 t = out7_6 (iblk7 V c 0 t) (iblk7 V c 1 t) (iblk7 V c 2 t) (iblk7 V c 3 t) (iblk7 V c 4 t) (iblk7 V c 5 t) := by dsimp only [dat7]

-- Each input window holds before the body what it holds after it: its array's block at the point.
theorem before7 (c : Dev nD) (t : Fin cfg7.N) (w : Fin cfg7.W) (hw : w ≠ 6) (d) : (dat7 V c).before w t d = (dat7 V c).after w t := by
  fin_cases w <;> first | exact absurd rfl hw | exact (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  simp +decide only [before7 V c t]
  dsimp only [dat7]
  exact gru_body (F := F) c (grid7.coords t) (hstage7_0 _) (hstage7_1 _) (hstage7_2 _) (hstage7_3 _) (hstage7_4 _) (hstage7_5 _) (hstage7_6 _)

end Cert.Kernel.Hand

end
-- ==== Proof.K.Reg8.lean ====
import proofs.«406877_j20933670601167_1_alg».proof.Proof.Gen.Kernel.Launch
import proofs.«406877_j20933670601167_1_alg».proof.Proof.Gen.Kernel.Skeleton
import proofs.«406877_j20933670601167_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r8_v : Rect S1x128 := Rect.unit (s := S1x128) ![0, 0] S1x128.size inb_S1x128_S1x128_0_0

theorem hz8 : (![0, 0] : Fin 2 → Nat) = fun _ => 0 := funext fun a => by fin_cases a <;> rfl

abbrev cond8_0 (i : grid8.Coords) : Prop := (Scalar.cmpi .ne (Scalar.extui (Scalar.cmpi .eq (BitVec.ofNat 32 (i 0).val) 0#32)) 0#32) = 1#1
abbrev cond8_1 (i : grid8.Coords) : Prop := k8_cond2 i = 1#1

-- the two conditions of the body single out the first and the last point
theorem hcond8 : ∀ t : Fin cfg8.N, (cond8_0 (grid8.coords t) ↔ t.val = 0) ∧ (cond8_1 (grid8.coords t) ↔ t.val = 4) :=
  (by decide +kernel : ∀ t : Fin grid8.N, (cond8_0 (grid8.coords t) ↔ t.val = 0) ∧ (cond8_1 (grid8.coords t) ↔ t.val = 4))

theorem out8_5 : ∀ t : Fin cfg8.N, (t.val ≠ 4 → cfg8.idle 5 (grid8.coords t) = true ∧ (cfg8.win 5).flush t = false)
    ∧ (t.val = 4 → cfg8.idle 5 (grid8.coords t) = false) := by decide +kernel

theorem cover8 (w : Vec F S1x128 .f32) (L : List (View.Piece (Elt F) S1x128 .f32)) (y : S1x128.Idx) :
    ∃ pc ∈ ((⟨r8_v, w⟩ : View.Piece (Elt F) S1x128 .f32) :: L), y ∈ pc.1.set :=
  ⟨_, List.mem_cons_self, View.mem_set_unit_zero hz8 inb_S1x128_S1x128_0_0 y⟩

section
variable (c : Dev nD) (E : Set ℕ) (i : grid8.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S10000x128 .f32) (x1 : Vec F S128x128 .f32) (x2 : Vec F S1x128 .f32) (x3 : Vec F S128x128 .f32) (x4 : Vec F S1x128 .f32)
    (xi xs : Vec F S1x128 .f32)

-- the body's seven operands at their contents: five inputs, the output block xi, the accumulator xs
def own8 : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare xi
    ∗ owns (c : Thread nD τ) arg7 fullShare xs)

set_option maxHeartbeats 4000000 in
-- first point: the accumulator is reset, then receives the block's column sum
theorem sound_kernel8_A (hc0 : cond8_0 i) (hc1 : ¬cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 xi (k8_pay2 x0 x1 x2 x0 x3 x4 (k8_pay1 (F := F))) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover8 _ _)).trans ?_
  rw [View.canon_cons_unit_zero hz8]
  have h21 : sound_kernel8_A.sl.v21 c arg7 = k8_pay1 (F := F) := by
    unfold sound_kernel8_A.sl.v21 sound_kernel8_A.sl.H6_1
    exact View.readCov_unit_zero _ hz8 _ _
  rw [h21]
  simp only [View.readAt_eq_ld, View.ld_unit_zero (S := S10000x128) hz8, View.ld_unit_zero (S := S128x128) hz8, View.ld_unit_zero (S := S1x128) hz8]

set_option maxHeartbeats 4000000 in
-- middle point: the block's column sum is added to the accumulator
theorem sound_kernel8_B (hc0 : ¬cond8_0 i) (hc1 : ¬cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 xi (k8_pay2 x0 x1 x2 x0 x3 x4 xs) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover8 _ _)).trans ?_
  rw [View.canon_cons_unit_zero hz8]
  simp only [View.readAt_eq_ld, View.ld_unit_zero (S := S10000x128) hz8, View.ld_unit_zero (S := S128x128) hz8, View.ld_unit_zero (S := S1x128) hz8]

set_option maxHeartbeats 4000000 in
-- last point: as in the middle, and the accumulator times the constant goes to the output block
theorem sound_kernel8_C (hc0 : ¬cond8_0 i) (hc1 : cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 (k8_pay3 (k8_pay2 x0 x1 x2 x0 x3 x4 xs)) (k8_pay2 x0 x1 x2 x0 x3 x4 xs) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have h31 : sound_kernel8_C.sl.v31 c arg1 arg2 arg3 arg4 arg5 arg7 f0 f1 f2 f3 f4 f6 = k8_pay2 (View.read (Elt F) arg1.view f0) (View.read (Elt F) arg2.view f1) (View.read (Elt F) arg3.view f2) (View.read (Elt F) arg1.view f0) (View.read (Elt F) arg4.view f3) (View.read (Elt F) arg5.view f4) (View.read (Elt F) arg7.view f6) := by
    unfold sound_kernel8_C.sl.v31 sound_kernel8_C.sl.H6_1
    rw [View.readCov_unit_zero _ hz8]
    simp only [View.readAt_eq_ld, View.ld_unit_zero (S := S10000x128) hz8, View.ld_unit_zero (S := S128x128) hz8, View.ld_unit_zero (S := S1x128) hz8]
  isplitl [H5]
  · iexists _; isplitr
    swap; · iexact H5
    ipureintro
    refine (View.read_writes_eq_canon _ _ _ (cover8 _ _)).trans ?_
    rw [View.canon_cons_unit_zero hz8, h31]
  iexists _; isplitr
  swap; · iexact H6
  ipureintro
  refine (View.read_writes_eq_canon _ _ _ (cover8 _ _)).trans ?_
  rw [View.canon_cons_unit_zero hz8]
  simp only [View.readAt_eq_ld, View.ld_unit_zero (S := S10000x128) hz8, View.ld_unit_zero (S := S128x128) hz8, View.ld_unit_zero (S := S1x128) hz8]

-- the three control cases as one triple at a grid point
theorem sound_kernel8 (t : Fin cfg8.N) (K : PUnit → sProp 𝕄) :
    iprop(own8 c arg1 arg2 arg3 arg4 arg5 arg6 arg7 x0 x1 x2 x3 x4 xi xs
        ∗ (own8 c arg1 arg2 arg3 arg4 arg5 arg6 arg7 x0 x1 x2 x3 x4 (if t.val = 4 then k8_pay3 (k8_pay2 x0 x1 x2 x0 x3 x4 (if t.val = 0 then k8_pay1 (F := F) else xs)) else xi)
            (k8_pay2 x0 x1 x2 x0 x3 x4 (if t.val = 0 then k8_pay1 (F := F) else xs)) -∗ K ⟨⟩))
      ⊢ wp frame (wpE (defs₀ (F := F)) Variants.none c none) E (cc8__kernel (grid8.coords t) arg1 harg1 arg2 harg2 arg3 harg3 arg4 harg4 arg5 harg5 arg6 harg6 arg7 harg7) K := by
  have hN : t.val < 5 := lt_of_lt_of_eq t.isLt N_8
  obtain ⟨e0, e1⟩ := hcond8 t
  by_cases h0 : t.val = 0
  · rw [if_pos h0, if_neg (by omega : ¬t.val = 4)]
    exact sound_kernel8_A _ _ _ _ _ _ _ _ _ _ _ _ _ _ _ _ _ _ _ _ _ _ _ _ (e0.mpr h0) (fun h => by have := e1.mp h; omega) _
  · rw [if_neg h0]
    by_cases h4 : t.val = 4
    · rw [if_pos h4]; exact sound_kernel8_C _ _ _ _ _ _ _ _ _ _ _ _ _ _ _ _ _ _ _ _ _ _ _ _ (fun h => h0 (e0.mp h)) (e1.mpr h4) _
    · rw [if_neg h4]; exact sound_kernel8_B _ _ _ _ _ _ _ _ _ _ _ _ _ _ _ _ _ _ _ _ _ _ _ _ (fun h => h0 (e0.mp h)) (fun h => h4 (e1.mp h)) _

end

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S1x128 .f32
  | 0, hn => k8_pay2 (iblk8 V c 0 ⟨0, hn⟩) (iblk8 V c 1 ⟨0, hn⟩) (iblk8 V c 2 ⟨0, hn⟩) (iblk8 V c 0 ⟨0, hn⟩) (iblk8 V c 3 ⟨0, hn⟩) (iblk8 V c 4 ⟨0, hn⟩) (k8_pay1 (F := F))
  | n + 1, hn => k8_pay2 (iblk8 V c 0 ⟨n + 1, hn⟩) (iblk8 V c 1 ⟨n + 1, hn⟩) (iblk8 V c 2 ⟨n + 1, hn⟩) (iblk8 V c 0 ⟨n + 1, hn⟩) (iblk8 V c 3 ⟨n + 1, hn⟩) (iblk8 V c 4 ⟨n + 1, hn⟩) (acc8 c n (Nat.lt_of_succ_lt hn))

theorem acc8_zero (c : Dev nD) (h : 0 < cfg8.N) :
    acc8 V c 0 h = k8_pay2 (iblk8 V c 0 ⟨0, h⟩) (iblk8 V c 1 ⟨0, h⟩) (iblk8 V c 2 ⟨0, h⟩) (iblk8 V c 0 ⟨0, h⟩) (iblk8 V c 3 ⟨0, h⟩) (iblk8 V c 4 ⟨0, h⟩) (k8_pay1 (F := F)) := rfl

theorem acc8_succ (c : Dev nD) (n : ℕ) (h : n + 1 < cfg8.N) :
    acc8 V c (n + 1) h = k8_pay2 (iblk8 V c 0 ⟨n + 1, h⟩) (iblk8 V c 1 ⟨n + 1, h⟩) (iblk8 V c 2 ⟨n + 1, h⟩) (iblk8 V c 0 ⟨n + 1, h⟩) (iblk8 V c 3 ⟨n + 1, h⟩) (iblk8 V c 4 ⟨n + 1, h⟩) (acc8 V c n (Nat.lt_of_succ_lt h)) := rfl

-- the accumulator after point t, over whatever d the point found, when d is what the point before left
theorem acc8_eq (c : Dev nD) (t : Fin cfg8.N) (d : Vec F S1x128 .f32)
    (hd : ∀ hz : t.val ≠ 0, d = acc8 V c (t.val - 1) (Nat.lt_of_le_of_lt (Nat.sub_le _ _) t.isLt)) :
    acc8 V c t.val t.isLt = k8_pay2 (iblk8 V c 0 t) (iblk8 V c 1 t) (iblk8 V c 2 t) (iblk8 V c 0 t) (iblk8 V c 3 t) (iblk8 V c 4 t) (if t.val = 0 then k8_pay1 (F := F) else d) := by
  obtain ⟨n, hn⟩ := t
  cases n with
  | zero => rw [if_pos rfl]; rfl
  | succ n => rw [if_neg (Nat.succ_ne_zero n), hd (Nat.succ_ne_zero n)]; rfl

abbrev scM8 : Memref sig .tc .vmem S1x128 .f32 := Memref.whole cc8_scratch0

abbrev rest8 (c : Dev nD) : sProp 𝕄 :=
  Pipeline.scopedRestBut (Ix := Unit) (Name := ℕ) (U := UR sig nD τ) (Lvl := ℕ) (Val := Elt F) spec8 c [cc8_scratch0]

theorem PhiA8_eq (c : Dev nD) :
    (Pipeline.ΦA spec8 c : sProp 𝕄)
      = iprop(iprop(iprop(∃ d, owns (c : Thread nD τ) scM8 fullShare d) ∗ rest8 (F := F) c) ∗ (∃ r, prngReg c r)) := by
  unfold Pipeline.ΦA; rw [scopedRest8_split]; simp only [scM8, owns_whole]; rfl

def PhiS8 (c : Dev nD) : (n : ℕ) → n ≤ cfg8.N → sProp 𝕄
  | 0, _ => Pipeline.ΦA spec8 c
  | n + 1, hn => iprop(iprop(owns (c : Thread nD τ) scM8 fullShare (acc8 V c n hn) ∗ rest8 (F := F) c) ∗ (∃ r, prngReg c r))

-- before any point the accumulator is owned at some d, which past the first point is what the point before left
theorem PhiS8_open (c : Dev nD) (n : ℕ) (h : n ≤ cfg8.N) :
    PhiS8 V c n h ⊢ iprop(iprop(iprop(∃ d, ⌜∀ hz : n ≠ 0, d = acc8 V c (n - 1) (by omega)⌝ ∗ owns (c : Thread nD τ) scM8 fullShare d) ∗ rest8 (F := F) c) ∗ (∃ r, prngReg c r)) := by
  cases n with
  | zero =>
    rw [PhiS8, PhiA8_eq]
    iintro ⟨⟨⟨%d, HS⟩, Hr⟩, Hg⟩
    iframe Hr Hg
    iexists d; isplitr; · ipureintro; exact fun hz => absurd rfl hz
    iexact HS
  | succ n =>
    rw [PhiS8]
    iintro ⟨⟨HS, Hr⟩, Hg⟩
    iframe Hr Hg
    iexists acc8 V c n h; isplitr; · ipureintro; exact fun _ => rfl
    iexact HS

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay3 (acc8 V c t.val t.isLt)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_5_last (c : Dev nD) : (dat8 V c).after 5 t8_4 = k8_pay3 (acc8 V c 4 t8_4.isLt) := rfl

theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t)
      ∧ (∀ d, (dat8 V c).before 3 t d = iblk8 V c 3 t) ∧ (∀ d, (dat8 V c).before 4 t d = iblk8 V c 4 t) := by
  refine ⟨?_, ?_, ?_, ?_, ?_⟩ <;> intro d <;>
    exact (Dat.before_in_eq_fetched (dat8 V c) _ rfl (fun _ => rfl) (fun _ _ _ => rfl) (fun _ => rfl) t d).trans rfl

def bodyPre8 (c : Dev nD) (t : Fin cfg8.N) : sProp 𝕄 :=
  iprop(PhiS8 V c t.val (Nat.le_of_lt t.isLt) ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop(iprop(iprop(owns (c : Thread nD τ) scM8 fullShare (acc8 V c t.val t.isLt) ∗ rest8 (F := F) c) ∗ (∃ r, prngReg c r)) ∗ (dat8 V c).owesAt () t.castSucc
    ∗ owns (c : Thread nD τ) (st8_0 t) fullShare (iblk8 V c 0 t) ∗ owns (c : Thread nD τ) (st8_1 t) fullShare (iblk8 V c 1 t)
    ∗ owns (c : Thread nD τ) (st8_2 t) fullShare (iblk8 V c 2 t) ∗ owns (c : Thread nD τ) (st8_3 t) fullShare (iblk8 V c 3 t)
    ∗ owns (c : Thread nD τ) (st8_4 t) fullShare (iblk8 V c 4 t) ∗ (dat8 V c).leavesExact 5 t)

-- at the last point the output block is the scaled accumulator; elsewhere it is as found
theorem leaves8_5 (c : Dev nD) (t : Fin cfg8.N) (d) :
    owns (c : Thread nD τ) (st8_5 t) fullShare (if t.val = 4 then k8_pay3 (acc8 V c t.val t.isLt) else (dat8 V c).before 5 t d) ⊢ (dat8 V c).leavesExact 5 t := by
  obtain ⟨hi, hl⟩ := out8_5 t
  by_cases h4 : t.val = 4
  · rw [if_pos h4, show (dat8 V c).leavesExact 5 t = owns (c : Thread nD τ) (st8_5 t) fullShare ((dat8 V c).after 5 t) from by
      unfold Dat.leavesExact; rw [hl h4]]
    iintro H; iexact H
  · rw [if_neg h4, Dat.leavesExact_idle (dat8 V c) 5 t (hi h4).1 (hi h4).2]
    iintro H; iexists _; iexact H

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  obtain ⟨b0, b1, b2, b3, b4⟩ := before8 V c t
  simp only [b0, b1, b2, b3, b4]
  refine (sep_mono_left (PhiS8_open V c _ _)).trans ?_
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ _ (iblk8 V c 0 t) (iblk8 V c 1 t) (iblk8 V c 2 t) (iblk8 V c 3 t) (iblk8 V c 4 t) ((dat8 V c).before 5 t d5) d t _)
  unfold own8
  rw [← acc8_eq V c t d hd]
  isplitl [H0 H1 H2 H3 H4 H5 HS]; · iframe
  iintro ⟨H0, H1, H2, H3, H4, H5, HS⟩
  iframe HS Hr Hg Ho H0 H1 H2 H3 H4
  iapply (leaves8_5 V c t d5); iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Pipeline.ΦA spec8 c from rfl]

theorem hout8 (c : Dev nD) : (dat8 V c).Φ (Fin.last cfg8.N) ⊢ Pipeline.ΦA spec8 c := by
  rw [PhiA8_eq]
  refine (PhiS8_open V c cfg8.N (Nat.le_refl _)).trans ?_
  iintro ⟨⟨⟨%d, -, HS⟩, Hr⟩, Hg⟩
  iframe Hr Hg; iexists d; iexact HS

end Cert.Kernel.Hand

end
-- ==== Proof.K.Fold.lean ====
import proofs.«406877_j20933670601167_1_alg».proof.Proof.K.Reg0
import proofs.«406877_j20933670601167_1_alg».proof.Proof.K.Reg1
import proofs.«406877_j20933670601167_1_alg».proof.Proof.K.Reg2
import proofs.«406877_j20933670601167_1_alg».proof.Proof.K.Reg3
import proofs.«406877_j20933670601167_1_alg».proof.Proof.K.Reg4
import proofs.«406877_j20933670601167_1_alg».proof.Proof.K.Reg5
import proofs.«406877_j20933670601167_1_alg».proof.Proof.K.Reg6
import proofs.«406877_j20933670601167_1_alg».proof.Proof.K.Reg7
import proofs.«406877_j20933670601167_1_alg».proof.Proof.K.Reg8
import proofs.«406877_j20933670601167_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def X0 (c : Dev nD) : Valuation τ sig (Elt F) := fun b => m (c, b)
def a1 (c : Dev nD) : Buf (Elt F) ((c : Thread nD τ).loc main_v0) := (dat0 (rd (X0 m)) c).arrAt 2 cfg0.N
def X1 (c : Dev nD) : Valuation τ sig (Elt F) := Function.update (X0 m c) main_v0 (a1 m c)
def a2 (c : Dev nD) : Buf (Elt F) ((c : Thread nD τ).loc main_v1) := (dat1 (rd (X1 m)) c).arrAt 2 cfg1.N
def X2 (c : Dev nD) : Valuation τ sig (Elt F) := Function.update (X1 m c) main_v1 (a2 m c)
def X3 (c : Dev nD) : Valuation τ sig (Elt F) := StableHlo.after hostOps2 (X2 m c)
def X4 (c : Dev nD) : Valuation τ sig (Elt F) := StableHlo.after hostOps2_1 (X3 m c)
def X5 (c : Dev nD) : Valuation τ sig (Elt F) := StableHlo.after hostOps2_2 (X4 m c)
def a6 (c : Dev nD) : Buf (Elt F) ((c : Thread nD τ).loc main_v17) := (dat2 (rd (X5 m)) c).arrAt 7 cfg2.N
def X6 (c : Dev nD) : Valuation τ sig (Elt F) := Function.update (X5 m c) main_v17 (a6 m c)
def X7 (c : Dev nD) : Valuation τ sig (Elt F) := StableHlo.after hostOps3 (X6 m c)
def a8 (c : Dev nD) : Buf (Elt F) ((c : Thread nD τ).loc main_v31) := (dat3 (rd (X7 m)) c).arrAt 6 cfg3.N
def X8 (c : Dev nD) : Valuation τ sig (Elt F) := Function.update (X7 m c) main_v31 (a8 m c)
def X9 (c : Dev nD) : Valuation τ sig (Elt F) := StableHlo.after hostOps4 (X8 m c)
def X10 (c : Dev nD) : Valuation τ sig (Elt F) := StableHlo.after hostOps4_1 (X9 m c)
def X11 (c : Dev nD) : Valuation τ sig (Elt F) := StableHlo.after hostOps4_2 (X10 m c)
def a12 (c : Dev nD) : Buf (Elt F) ((c : Thread nD τ).loc main_v47) := (dat4 (rd (X11 m)) c).arrAt 7 cfg4.N
def X12 (c : Dev nD) : Valuation τ sig (Elt F) := Function.update (X11 m c) main_v47 (a12 m c)
def X13 (c : Dev nD) : Valuation τ sig (Elt F) := StableHlo.after hostOps5 (X12 m c)
def a14 (c : Dev nD) : Buf (Elt F) ((c : Thread nD τ).loc main_v61) := (dat5 (rd (X13 m)) c).arrAt 6 cfg5.N
def X14 (c : Dev nD) : Valuation τ sig (Elt F) := Function.update (X13 m c) main_v61 (a14 m c)
def X15 (c : Dev nD) : Valuation τ sig (Elt F) := StableHlo.after hostOps6 (X14 m c)
def X16 (c : Dev nD) : Valuation τ sig (Elt F) := StableHlo.after hostOps6_1 (X15 m c)
def X17 (c : Dev nD) : Valuation τ sig (Elt F) := StableHlo.after hostOps6_2 (X16 m c)
def a18 (c : Dev nD) : Buf (Elt F) ((c : Thread nD τ).loc main_v77) := (dat6 (rd (X17 m)) c).arrAt 7 cfg6.N
def X18 (c : Dev nD) : Valuation τ sig (Elt F) := Function.update (X17 m c) main_v77 (a18 m c)
def X19 (c : Dev nD) : Valuation τ sig (Elt F) := StableHlo.after hostOps7 (X18 m c)
def a20 (c : Dev nD) : Buf (Elt F) ((c : Thread nD τ).loc main_v91) := (dat7 (rd (X19 m)) c).arrAt 6 cfg7.N
def X20 (c : Dev nD) : Valuation τ sig (Elt F) := Function.update (X19 m c) main_v91 (a20 m c)
def X21 (c : Dev nD) : Valuation τ sig (Elt F) := StableHlo.after hostOps8 (X20 m c)
def a22 (c : Dev nD) : Buf (Elt F) ((c : Thread nD τ).loc main_v94) := (dat8 (rd (X21 m)) c).arrAt 5 cfg8.N
def X22 (c : Dev nD) : Valuation τ sig (Elt F) := Function.update (X21 m c) main_v94 (a22 m c)
def X23 (c : Dev nD) : Valuation τ sig (Elt F) := StableHlo.after hostOps9 (X22 m c)

def outs : Outs (F := F) := fun J r c => match J with
  | 1 => X1 m c r
  | 2 => X2 m c r
  | 6 => X6 m c r
  | 8 => X8 m c r
  | 12 => X12 m c r
  | 14 => X14 m c r
  | 18 => X18 m c r
  | 20 => X20 m c r
  | 22 => X22 m c r
  | _ => X0 m c r

/-- Updating at a reference with the value an updated valuation already has there gives that valuation. -/
theorem update_read {A B : Valuation τ sig (Elt F)} (h : A = B) (r : DevRef τ sig) (v) :
    Function.update A r (Function.update B r v r) = Function.update B r v := by rw [h, Function.update_self]

theorem V0_eq (c : Dev nD) : V0 m c = X0 m c := rfl
theorem V1_eq (c : Dev nD) : V1 m (outs m) c = X1 m c := update_read (V0_eq m c) main_v0 (a1 m c)
theorem V2_eq (c : Dev nD) : V2 m (outs m) c = X2 m c := update_read (V1_eq m c) main_v1 (a2 m c)
theorem V3_eq (c : Dev nD) : V3 m (outs m) c = X3 m c := congrArg (StableHlo.after hostOps2) (V2_eq m c)
theorem V4_eq (c : Dev nD) : V4 m (outs m) c = X4 m c := congrArg (StableHlo.after hostOps2_1) (V3_eq m c)
theorem V5_eq (c : Dev nD) : V5 m (outs m) c = X5 m c := congrArg (StableHlo.after hostOps2_2) (V4_eq m c)
theorem V6_eq (c : Dev nD) : V6 m (outs m) c = X6 m c := update_read (V5_eq m c) main_v17 (a6 m c)
theorem V7_eq (c : Dev nD) : V7 m (outs m) c = X7 m c := congrArg (StableHlo.after hostOps3) (V6_eq m c)
theorem V8_eq (c : Dev nD) : V8 m (outs m) c = X8 m c := update_read (V7_eq m c) main_v31 (a8 m c)
theorem V9_eq (c : Dev nD) : V9 m (outs m) c = X9 m c := congrArg (StableHlo.after hostOps4) (V8_eq m c)
theorem V10_eq (c : Dev nD) : V10 m (outs m) c = X10 m c := congrArg (StableHlo.after hostOps4_1) (V9_eq m c)
theorem V11_eq (c : Dev nD) : V11 m (outs m) c = X11 m c := congrArg (StableHlo.after hostOps4_2) (V10_eq m c)
theorem V12_eq (c : Dev nD) : V12 m (outs m) c = X12 m c := update_read (V11_eq m c) main_v47 (a12 m c)
theorem V13_eq (c : Dev nD) : V13 m (outs m) c = X13 m c := congrArg (StableHlo.after hostOps5) (V12_eq m c)
theorem V14_eq (c : Dev nD) : V14 m (outs m) c = X14 m c := update_read (V13_eq m c) main_v61 (a14 m c)
theorem V15_eq (c : Dev nD) : V15 m (outs m) c = X15 m c := congrArg (StableHlo.after hostOps6) (V14_eq m c)
theorem V16_eq (c : Dev nD) : V16 m (outs m) c = X16 m c := congrArg (StableHlo.after hostOps6_1) (V15_eq m c)
theorem V17_eq (c : Dev nD) : V17 m (outs m) c = X17 m c := congrArg (StableHlo.after hostOps6_2) (V16_eq m c)
theorem V18_eq (c : Dev nD) : V18 m (outs m) c = X18 m c := update_read (V17_eq m c) main_v77 (a18 m c)
theorem V19_eq (c : Dev nD) : V19 m (outs m) c = X19 m c := congrArg (StableHlo.after hostOps7) (V18_eq m c)
theorem V20_eq (c : Dev nD) : V20 m (outs m) c = X20 m c := update_read (V19_eq m c) main_v91 (a20 m c)
theorem V21_eq (c : Dev nD) : V21 m (outs m) c = X21 m c := congrArg (StableHlo.after hostOps8) (V20_eq m c)
theorem V22_eq (c : Dev nD) : V22 m (outs m) c = X22 m c := update_read (V21_eq m c) main_v94 (a22 m c)
theorem V23_eq (c : Dev nD) : V23 m (outs m) c = X23 m c := congrArg (StableHlo.after hostOps9) (V22_eq m c)

/-- An input window's array at the end of a region is what the region found, also in the valuation updated at another reference. -/
theorem arrAt_kept {cfg : Pipeline.Cfg sig Λ₀} {c : Dev nD} (d : Dat τ (Elt F) Unit ℕ (UR sig nD τ) ℕ cfg c) (Xa : Dev nD → Valuation τ sig (Elt F))
    (r : Ref sig .tc) (v : Buf (Elt F) ((c : Thread nD τ).loc r)) (w : Fin cfg.W) (hw : (cfg.win w).isOut = false)
    (hA : d.A w = rd Xa c (Pipeline.arrRef cfg.spec w)) (hne : Pipeline.arrRef cfg.spec w ≠ r) :
    d.arrAt w cfg.N = rd (fun c' => Function.update (Xa c') r v) c (Pipeline.arrRef cfg.spec w) :=
  ((d.arrAt_in w hw _).trans hA).trans (Function.update_of_ne (StableHlo.devRef_ne_of_ne hne) _ _).symm

set_option maxHeartbeats 4000000 in
theorem hF0 (c : Dev nD) (w : Fin cfg0.W) : (dat0 (rd (X0 m)) c).arrAt w cfg0.N = rd (X1 m) c (Pipeline.arrRef spec0 w) := by
  match w with
  | ⟨0, _⟩ => exact arrAt_kept (dat0 (rd (X0 m)) c) (X0 m) main_v0 _ 0 rfl (A_eq0 _ c 0) (by decide)
  | ⟨1, _⟩ => exact arrAt_kept (dat0 (rd (X0 m)) c) (X0 m) main_v0 _ 1 rfl (A_eq0 _ c 1) (by decide)
  | ⟨2, _⟩ => exact Eq.symm (Function.update_self _ _ _)

theorem hrest0 (c : Dev nD) (b : Ref sig .tc) (hb : b ∉ Finset.univ.image (Pipeline.arrRef spec0)) : rd (X1 m) c b = rd (X0 m) c b :=
  Function.update_of_ne (StableHlo.devRef_ne_of_ne fun e => hb (Finset.mem_image.mpr ⟨2, Finset.mem_univ _, e.symm⟩)) _ _

set_option maxHeartbeats 4000000 in
theorem hF1 (c : Dev nD) (w : Fin cfg1.W) : (dat1 (rd (X1 m)) c).arrAt w cfg1.N = rd (X2 m) c (Pipeline.arrRef spec1 w) := by
  match w with
  | ⟨0, _⟩ => exact arrAt_kept (dat1 (rd (X1 m)) c) (X1 m) main_v1 _ 0 rfl (A_eq1 _ c 0) (by decide)
  | ⟨1, _⟩ => exact arrAt_kept (dat1 (rd (X1 m)) c) (X1 m) main_v1 _ 1 rfl (A_eq1 _ c 1) (by decide)
  | ⟨2, _⟩ => exact Eq.symm (Function.update_self _ _ _)

theorem hrest1 (c : Dev nD) (b : Ref sig .tc) (hb : b ∉ Finset.univ.image (Pipeline.arrRef spec1)) : rd (X2 m) c b = rd (X1 m) c b :=
  Function.update_of_ne (StableHlo.devRef_ne_of_ne fun e => hb (Finset.mem_image.mpr ⟨2, Finset.mem_univ _, e.symm⟩)) _ _

set_option maxHeartbeats 4000000 in
theorem hF2 (c : Dev nD) (w : Fin cfg2.W) : (dat2 (rd (X5 m)) c).arrAt w cfg2.N = rd (X6 m) c (Pipeline.arrRef spec2 w) := by
  match w with
  | ⟨0, _⟩ => exact arrAt_kept (dat2 (rd (X5 m)) c) (X5 m) main_v17 _ 0 rfl (A_eq2 _ c 0) (by decide)
  | ⟨1, _⟩ => exact arrAt_kept (dat2 (rd (X5 m)) c) (X5 m) main_v17 _ 1 rfl (A_eq2 _ c 1) (by decide)
  | ⟨2, _⟩ => exact arrAt_kept (dat2 (rd (X5 m)) c) (X5 m) main_v17 _ 2 rfl (A_eq2 _ c 2) (by decide)
  | ⟨3, _⟩ => exact arrAt_kept (dat2 (rd (X5 m)) c) (X5 m) main_v17 _ 3 rfl (A_eq2 _ c 3) (by decide)
  | ⟨4, _⟩ => exact arrAt_kept (dat2 (rd (X5 m)) c) (X5 m) main_v17 _ 4 rfl (A_eq2 _ c 4) (by decide)
  | ⟨5, _⟩ => exact arrAt_kept (dat2 (rd (X5 m)) c) (X5 m) main_v17 _ 5 rfl (A_eq2 _ c 5) (by decide)
  | ⟨6, _⟩ => exact arrAt_kept (dat2 (rd (X5 m)) c) (X5 m) main_v17 _ 6 rfl (A_eq2 _ c 6) (by decide)
  | ⟨7, _⟩ => exact Eq.symm (Function.update_self _ _ _)

theorem hrest2 (c : Dev nD) (b : Ref sig .tc) (hb : b ∉ Finset.univ.image (Pipeline.arrRef spec2)) : rd (X6 m) c b = rd (X5 m) c b :=
  Function.update_of_ne (StableHlo.devRef_ne_of_ne fun e => hb (Finset.mem_image.mpr ⟨7, Finset.mem_univ _, e.symm⟩)) _ _

set_option maxHeartbeats 4000000 in
theorem hF3 (c : Dev nD) (w : Fin cfg3.W) : (dat3 (rd (X7 m)) c).arrAt w cfg3.N = rd (X8 m) c (Pipeline.arrRef spec3 w) := by
  match w with
  | ⟨0, _⟩ => exact arrAt_kept (dat3 (rd (X7 m)) c) (X7 m) main_v31 _ 0 rfl (A_eq3 _ c 0) (by decide)
  | ⟨1, _⟩ => exact arrAt_kept (dat3 (rd (X7 m)) c) (X7 m) main_v31 _ 1 rfl (A_eq3 _ c 1) (by decide)
  | ⟨2, _⟩ => exact arrAt_kept (dat3 (rd (X7 m)) c) (X7 m) main_v31 _ 2 rfl (A_eq3 _ c 2) (by decide)
  | ⟨3, _⟩ => exact arrAt_kept (dat3 (rd (X7 m)) c) (X7 m) main_v31 _ 3 rfl (A_eq3 _ c 3) (by decide)
  | ⟨4, _⟩ => exact arrAt_kept (dat3 (rd (X7 m)) c) (X7 m) main_v31 _ 4 rfl (A_eq3 _ c 4) (by decide)
  | ⟨5, _⟩ => exact arrAt_kept (dat3 (rd (X7 m)) c) (X7 m) main_v31 _ 5 rfl (A_eq3 _ c 5) (by decide)
  | ⟨6, _⟩ => exact Eq.symm (Function.update_self _ _ _)

theorem hrest3 (c : Dev nD) (b : Ref sig .tc) (hb : b ∉ Finset.univ.image (Pipeline.arrRef spec3)) : rd (X8 m) c b = rd (X7 m) c b :=
  Function.update_of_ne (StableHlo.devRef_ne_of_ne fun e => hb (Finset.mem_image.mpr ⟨6, Finset.mem_univ _, e.symm⟩)) _ _

set_option maxHeartbeats 4000000 in
theorem hF4 (c : Dev nD) (w : Fin cfg4.W) : (dat4 (rd (X11 m)) c).arrAt w cfg4.N = rd (X12 m) c (Pipeline.arrRef spec4 w) := by
  match w with
  | ⟨0, _⟩ => exact arrAt_kept (dat4 (rd (X11 m)) c) (X11 m) main_v47 _ 0 rfl (A_eq4 _ c 0) (by decide)
  | ⟨1, _⟩ => exact arrAt_kept (dat4 (rd (X11 m)) c) (X11 m) main_v47 _ 1 rfl (A_eq4 _ c 1) (by decide)
  | ⟨2, _⟩ => exact arrAt_kept (dat4 (rd (X11 m)) c) (X11 m) main_v47 _ 2 rfl (A_eq4 _ c 2) (by decide)
  | ⟨3, _⟩ => exact arrAt_kept (dat4 (rd (X11 m)) c) (X11 m) main_v47 _ 3 rfl (A_eq4 _ c 3) (by decide)
  | ⟨4, _⟩ => exact arrAt_kept (dat4 (rd (X11 m)) c) (X11 m) main_v47 _ 4 rfl (A_eq4 _ c 4) (by decide)
  | ⟨5, _⟩ => exact arrAt_kept (dat4 (rd (X11 m)) c) (X11 m) main_v47 _ 5 rfl (A_eq4 _ c 5) (by decide)
  | ⟨6, _⟩ => exact arrAt_kept (dat4 (rd (X11 m)) c) (X11 m) main_v47 _ 6 rfl (A_eq4 _ c 6) (by decide)
  | ⟨7, _⟩ => exact Eq.symm (Function.update_self _ _ _)

theorem hrest4 (c : Dev nD) (b : Ref sig .tc) (hb : b ∉ Finset.univ.image (Pipeline.arrRef spec4)) : rd (X12 m) c b = rd (X11 m) c b :=
  Function.update_of_ne (StableHlo.devRef_ne_of_ne fun e => hb (Finset.mem_image.mpr ⟨7, Finset.mem_univ _, e.symm⟩)) _ _

set_option maxHeartbeats 4000000 in
theorem hF5 (c : Dev nD) (w : Fin cfg5.W) : (dat5 (rd (X13 m)) c).arrAt w cfg5.N = rd (X14 m) c (Pipeline.arrRef spec5 w) := by
  match w with
  | ⟨0, _⟩ => exact arrAt_kept (dat5 (rd (X13 m)) c) (X13 m) main_v61 _ 0 rfl (A_eq5 _ c 0) (by decide)
  | ⟨1, _⟩ => exact arrAt_kept (dat5 (rd (X13 m)) c) (X13 m) main_v61 _ 1 rfl (A_eq5 _ c 1) (by decide)
  | ⟨2, _⟩ => exact arrAt_kept (dat5 (rd (X13 m)) c) (X13 m) main_v61 _ 2 rfl (A_eq5 _ c 2) (by decide)
  | ⟨3, _⟩ => exact arrAt_kept (dat5 (rd (X13 m)) c) (X13 m) main_v61 _ 3 rfl (A_eq5 _ c 3) (by decide)
  | ⟨4, _⟩ => exact arrAt_kept (dat5 (rd (X13 m)) c) (X13 m) main_v61 _ 4 rfl (A_eq5 _ c 4) (by decide)
  | ⟨5, _⟩ => exact arrAt_kept (dat5 (rd (X13 m)) c) (X13 m) main_v61 _ 5 rfl (A_eq5 _ c 5) (by decide)
  | ⟨6, _⟩ => exact Eq.symm (Function.update_self _ _ _)

theorem hrest5 (c : Dev nD) (b : Ref sig .tc) (hb : b ∉ Finset.univ.image (Pipeline.arrRef spec5)) : rd (X14 m) c b = rd (X13 m) c b :=
  Function.update_of_ne (StableHlo.devRef_ne_of_ne fun e => hb (Finset.mem_image.mpr ⟨6, Finset.mem_univ _, e.symm⟩)) _ _

set_option maxHeartbeats 4000000 in
theorem hF6 (c : Dev nD) (w : Fin cfg6.W) : (dat6 (rd (X17 m)) c).arrAt w cfg6.N = rd (X18 m) c (Pipeline.arrRef spec6 w) := by
  match w with
  | ⟨0, _⟩ => exact arrAt_kept (dat6 (rd (X17 m)) c) (X17 m) main_v77 _ 0 rfl (A_eq6 _ c 0) (by decide)
  | ⟨1, _⟩ => exact arrAt_kept (dat6 (rd (X17 m)) c) (X17 m) main_v77 _ 1 rfl (A_eq6 _ c 1) (by decide)
  | ⟨2, _⟩ => exact arrAt_kept (dat6 (rd (X17 m)) c) (X17 m) main_v77 _ 2 rfl (A_eq6 _ c 2) (by decide)
  | ⟨3, _⟩ => exact arrAt_kept (dat6 (rd (X17 m)) c) (X17 m) main_v77 _ 3 rfl (A_eq6 _ c 3) (by decide)
  | ⟨4, _⟩ => exact arrAt_kept (dat6 (rd (X17 m)) c) (X17 m) main_v77 _ 4 rfl (A_eq6 _ c 4) (by decide)
  | ⟨5, _⟩ => exact arrAt_kept (dat6 (rd (X17 m)) c) (X17 m) main_v77 _ 5 rfl (A_eq6 _ c 5) (by decide)
  | ⟨6, _⟩ => exact arrAt_kept (dat6 (rd (X17 m)) c) (X17 m) main_v77 _ 6 rfl (A_eq6 _ c 6) (by decide)
  | ⟨7, _⟩ => exact Eq.symm (Function.update_self _ _ _)

theorem hrest6 (c : Dev nD) (b : Ref sig .tc) (hb : b ∉ Finset.univ.image (Pipeline.arrRef spec6)) : rd (X18 m) c b = rd (X17 m) c b :=
  Function.update_of_ne (StableHlo.devRef_ne_of_ne fun e => hb (Finset.mem_image.mpr ⟨7, Finset.mem_univ _, e.symm⟩)) _ _

set_option maxHeartbeats 4000000 in
theorem hF7 (c : Dev nD) (w : Fin cfg7.W) : (dat7 (rd (X19 m)) c).arrAt w cfg7.N = rd (X20 m) c (Pipeline.arrRef spec7 w) := by
  match w with
  | ⟨0, _⟩ => exact arrAt_kept (dat7 (rd (X19 m)) c) (X19 m) main_v91 _ 0 rfl (A_eq7 _ c 0) (by decide)
  | ⟨1, _⟩ => exact arrAt_kept (dat7 (rd (X19 m)) c) (X19 m) main_v91 _ 1 rfl (A_eq7 _ c 1) (by decide)
  | ⟨2, _⟩ => exact arrAt_kept (dat7 (rd (X19 m)) c) (X19 m) main_v91 _ 2 rfl (A_eq7 _ c 2) (by decide)
  | ⟨3, _⟩ => exact arrAt_kept (dat7 (rd (X19 m)) c) (X19 m) main_v91 _ 3 rfl (A_eq7 _ c 3) (by decide)
  | ⟨4, _⟩ => exact arrAt_kept (dat7 (rd (X19 m)) c) (X19 m) main_v91 _ 4 rfl (A_eq7 _ c 4) (by decide)
  | ⟨5, _⟩ => exact arrAt_kept (dat7 (rd (X19 m)) c) (X19 m) main_v91 _ 5 rfl (A_eq7 _ c 5) (by decide)
  | ⟨6, _⟩ => exact Eq.symm (Function.update_self _ _ _)

theorem hrest7 (c : Dev nD) (b : Ref sig .tc) (hb : b ∉ Finset.univ.image (Pipeline.arrRef spec7)) : rd (X20 m) c b = rd (X19 m) c b :=
  Function.update_of_ne (StableHlo.devRef_ne_of_ne fun e => hb (Finset.mem_image.mpr ⟨6, Finset.mem_univ _, e.symm⟩)) _ _

set_option maxHeartbeats 4000000 in
theorem hF8 (c : Dev nD) (w : Fin cfg8.W) : (dat8 (rd (X21 m)) c).arrAt w cfg8.N = rd (X22 m) c (Pipeline.arrRef spec8 w) := by
  match w with
  | ⟨0, _⟩ => exact arrAt_kept (dat8 (rd (X21 m)) c) (X21 m) main_v94 _ 0 rfl (A_eq8 _ c 0) (by decide)
  | ⟨1, _⟩ => exact arrAt_kept (dat8 (rd (X21 m)) c) (X21 m) main_v94 _ 1 rfl (A_eq8 _ c 1) (by decide)
  | ⟨2, _⟩ => exact arrAt_kept (dat8 (rd (X21 m)) c) (X21 m) main_v94 _ 2 rfl (A_eq8 _ c 2) (by decide)
  | ⟨3, _⟩ => exact arrAt_kept (dat8 (rd (X21 m)) c) (X21 m) main_v94 _ 3 rfl (A_eq8 _ c 3) (by decide)
  | ⟨4, _⟩ => exact arrAt_kept (dat8 (rd (X21 m)) c) (X21 m) main_v94 _ 4 rfl (A_eq8 _ c 4) (by decide)
  | ⟨5, _⟩ => exact Eq.symm (Function.update_self _ _ _)

theorem hrest8 (c : Dev nD) (b : Ref sig .tc) (hb : b ∉ Finset.univ.image (Pipeline.arrRef spec8)) : rd (X22 m) c b = rd (X21 m) c b :=
  Function.update_of_ne (StableHlo.devRef_ne_of_ne fun e => hb (Finset.mem_image.mpr ⟨5, Finset.mem_univ _, e.symm⟩)) _ _

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

def pdats : (p : Fin 9) → (c : Dev nD) → Dat τ (Elt F) Unit ℕ (UR sig nD τ) ℕ (cfgs p) c
  | ⟨0, _⟩ => fun c => dat0 (rd (X0 m)) c
  | ⟨1, _⟩ => fun c => dat1 (rd (X1 m)) c
  | ⟨2, _⟩ => fun c => dat2 (rd (X5 m)) c
  | ⟨3, _⟩ => fun c => dat3 (rd (X7 m)) c
  | ⟨4, _⟩ => fun c => dat4 (rd (X11 m)) c
  | ⟨5, _⟩ => fun c => dat5 (rd (X13 m)) c
  | ⟨6, _⟩ => fun c => dat6 (rd (X17 m)) c
  | ⟨7, _⟩ => fun c => dat7 (rd (X19 m)) c
  | ⟨8, _⟩ => fun c => dat8 (rd (X21 m)) c

end Cert.Kernel.Hand

end
-- ==== Proof.K.Seg.lean ====
import proofs.«406877_j20933670601167_1_alg».proof.Proof.K.Fold
import proofs.«406877_j20933670601167_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- A kernel region as a segment: the core's unscoped buffers go from `Xa` to `Xb`, its arrays split out on entry and put back on exit. -/
def regSeg (p : Fin 9) (lf : Pipeline.LaunchFacts (nD := nD) (τ := τ) cfgs p) (Xa Xb : Dev nD → Valuation τ sig (Elt F))
    (hbody : ∀ c, BodyObligation (pdats m p c) (defs₀ (F := F)) Variants.none () Set.univ)
    (howed : ∀ c t, (pdats m p c).owed t = 0 := by exact fun _ _ => rfl) (hq : ∀ c w, (pdats m p c).q w = fullShare := by exact fun _ _ => rfl)
    (hrec : ∀ c, (pdats m p c).recorded 0 = Set.univ := by exact fun _ => rfl)
    (hA : ∀ c w, (pdats m p c).A w = rd Xa c (Pipeline.arrRef (cfgs p).spec w) := by exact fun _ _ => rfl)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl)
    (hF : ∀ c w, (pdats m p c).arrAt w (cfgs p).N = rd Xb c (Pipeline.arrRef (cfgs p).spec w))
    (hrest : ∀ c b, b ∉ Finset.univ.image (Pipeline.arrRef (cfgs p).spec) → rd Xb c b = rd Xa c b) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xa c) ∗ R c)
  post c := iprop(StableHlo.held (c : Thread nD τ) (Pipeline.ucRefs τ sig) (Xb c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xa c)
  hentry c := by
    rw [Pipeline.ownSems0_none]
    have hsplit := Pipeline.arrays_of_unscopedBufs (p := p) (pcfgs (F := F)) adm (pdats m) lf.win lf.arr_whole c
      ((pdats m p c).share_full (hq c)) (rd Xa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Xa c) (rd Xb c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Hand

end
-- ==== Proof.K.Run.lean ====
import proofs.«406877_j20933670601167_1_alg».proof.Proof.K.Seg
import proofs.«406877_j20933670601167_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E : Fin 10 → Dev nD → sProp 𝕄 := fun _ c => R c

theorem heldR_congr (c : Dev nD) {A B : Valuation τ sig (Elt F)} (h : A = B) :
    iprop(StableHlo.held (c : Thread nD τ) (Pipeline.ucRefs τ sig) A ∗ R (F := F) c)
      ⊢ iprop(StableHlo.held (c : Thread nD τ) (Pipeline.ucRefs τ sig) B ∗ R (F := F) c) := by rw [h]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (V23 m (outs m) c) ∗ ∃ r, prngReg c r)

theorem lastStep (c : Dev nD) : iprop(StableHlo.held (c : Thread nD τ) (Pipeline.ucRefs τ sig) (V23 m (outs m) c) ∗ R (F := F) c)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg0 := regSeg m 0 launch0 (X0 m) (X1 m) (body_obligation0 (rd (X0 m))) (hF := hF0 m) (hrest := hrest0 m)
set_option backward.isDefEq.respectTransparency.types false in
def reg1 := regSeg m 1 launch1 (X1 m) (X2 m) (body_obligation1 (rd (X1 m))) (hF := hF1 m) (hrest := hrest1 m)
set_option backward.isDefEq.respectTransparency.types false in
def reg2 := regSeg m 2 launch2 (X5 m) (X6 m) (body_obligation2 (rd (X5 m))) (hF := hF2 m) (hrest := hrest2 m)
set_option backward.isDefEq.respectTransparency.types false in
def reg3 := regSeg m 3 launch3 (X7 m) (X8 m) (body_obligation3 (rd (X7 m))) (hF := hF3 m) (hrest := hrest3 m)
set_option backward.isDefEq.respectTransparency.types false in
def reg4 := regSeg m 4 launch4 (X11 m) (X12 m) (body_obligation4 (rd (X11 m))) (hF := hF4 m) (hrest := hrest4 m)
set_option backward.isDefEq.respectTransparency.types false in
def reg5 := regSeg m 5 launch5 (X13 m) (X14 m) (body_obligation5 (rd (X13 m))) (hF := hF5 m) (hrest := hrest5 m)
set_option backward.isDefEq.respectTransparency.types false in
def reg6 := regSeg m 6 launch6 (X17 m) (X18 m) (body_obligation6 (rd (X17 m))) (hF := hF6 m) (hrest := hrest6 m)
set_option backward.isDefEq.respectTransparency.types false in
def reg7 := regSeg m 7 launch7 (X19 m) (X20 m) (body_obligation7 (rd (X19 m))) (hF := hF7 m) (hrest := hrest7 m)
set_option backward.isDefEq.respectTransparency.types false in
def reg8 := regSeg m 8 launch8 (X21 m) (X22 m) (body_obligation8 (rd (X21 m))) (hF := hF8 m) (hrest := hrest8 m) (hin := hin8 (rd (X21 m))) (hout := hout8 (rd (X21 m)))

/-- @main as its list of segments, each region taken from the chain's contents before it to those after it. -/
abbrev theSegs := segs m (outs m) 𝒱₀ L lv (E (F := F)) () (pdats m)
  (reg0 m) (reg1 m) (reg2 m) (reg3 m) (reg4 m) (reg5 m) (reg6 m) (reg7 m) (reg8 m)

set_option backward.isDefEq.respectTransparency.types false in
/-- Every weakly fair execution of @main terminates without fault with each unscoped buffer at the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V23 m (outs m) c b) := by
  refine Pipeline.θ_run_regions_kit_dev (pcfgs (F := F)) adm (pdats m) () cellOf_inj emb₁ defs₀ 𝒱₀ L lv m ρ main (theSegs m)
    (fun c Q => by
      rewrite [main_chain c, Seg.run_eq_chain,
        show (theSegs m c).map Seg.prog = [
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := fun c => ⟨.rfl, .rfl, heldR_congr c (V2_eq m c).symm, .rfl, .rfl, heldR_congr c (V5_eq m c), heldR_congr c (V6_eq m c).symm, heldR_congr c (V7_eq m c), heldR_congr c (V8_eq m c).symm, .rfl, .rfl, heldR_congr c (V11_eq m c), heldR_congr c (V12_eq m c).symm, heldR_congr c (V13_eq m c), heldR_congr c (V14_eq m c).symm, .rfl, .rfl, heldR_congr c (V17_eq m c), heldR_congr c (V18_eq m c).symm, heldR_congr c (V19_eq m c), heldR_congr c (V20_eq m c).symm, heldR_congr c (V21_eq m c), heldR_congr c (V22_eq m c).symm, lastStep m c⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V23 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V23 m (outs m) c) s')
      isplitl [Hh] <;> iassumption)
    (hQ := fun _ h => h)

end Cert.Kernel.Hand

end
-- ==== Proof.K.Frame.lean ====
import proofs.«406877_j20933670601167_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The run with the result buffer named: it ends at the chain's value, and no item of @main writes an argument. -/
theorem run_named : θ_run defs (onTc (τ := τ) (main (F := F))) ⟨m, fun _ => 0, ρ⟩ (fun r => ∀ c : Dev nD,
      r.2.mem ((c.tc : Thread nD τ).loc main_v106) = X23 m c main_v106
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v106 (by decide))).trans (congrFun (V23_eq m c) _),
      (h c _ (mem_uc main_arg0 (by decide))).trans (V23_main_arg0 m (outs m) c),
      (h c _ (mem_uc main_arg1 (by decide))).trans (V23_main_arg1 m (outs m) c),
      (h c _ (mem_uc main_arg2 (by decide))).trans (V23_main_arg2 m (outs m) c),
      (h c _ (mem_uc main_arg3 (by decide))).trans (V23_main_arg3 m (outs m) c),
      (h c _ (mem_uc main_arg4 (by decide))).trans (V23_main_arg4 m (outs m) c),
      (h c _ (mem_uc main_arg5 (by decide))).trans (V23_main_arg5 m (outs m) c),
      (h c _ (mem_uc main_arg6 (by decide))).trans (V23_main_arg6 m (outs m) c),
      (h c _ (mem_uc main_arg7 (by decide))).trans (V23_main_arg7 m (outs m) c),
      (h c _ (mem_uc main_arg8 (by decide))).trans (V23_main_arg8 m (outs m) c),
      (h c _ (mem_uc main_arg9 (by decide))).trans (V23_main_arg9 m (outs m) c),
      (h c _ (mem_uc main_arg10 (by decide))).trans (V23_main_arg10 m (outs m) c),
      (h c _ (mem_uc main_arg11 (by decide))).trans (V23_main_arg11 m (outs m) c),
      (h c _ (mem_uc main_arg12 (by decide))).trans (V23_main_arg12 m (outs m) c),
      (h c _ (mem_uc main_arg13 (by decide))).trans (V23_main_arg13 m (outs m) c),
      (h c _ (mem_uc main_arg14 (by decide))).trans (V23_main_arg14 m (outs m) c),
      (h c _ (mem_uc main_arg15 (by decide))).trans (V23_main_arg15 m (outs m) c),
      (h c _ (mem_uc main_arg16 (by decide))).trans (V23_main_arg16 m (outs m) c),
      (h c _ (mem_uc main_arg17 (by decide))).trans (V23_main_arg17 m (outs m) c),
      (h c _ (mem_uc main_arg18 (by decide))).trans (V23_main_arg18 m (outs m) c),
      (h c _ (mem_uc main_arg19 (by decide))).trans (V23_main_arg19 m (outs m) c),
      (h c _ (mem_uc main_arg20 (by decide))).trans (V23_main_arg20 m (outs m) c),
      (h c _ (mem_uc main_arg21 (by decide))).trans (V23_main_arg21 m (outs m) c)⟩) (run_all m ρ)

end Cert.Kernel.Hand

end
-- ==== Proof.KI.Reg0.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x14 := Rect.unit (s := S10000x14) ![0, 0] S10000x14.size inb_S10000x14_S10000x14_0_0
abbrev r0_w : Rect S14x128 := Rect.unit (s := S14x128) ![0, 0] S14x128.size inb_S14x128_S14x128_0_0
abbrev r0_o : Rect S10000x128 := Rect.unit (s := S10000x128) ![0, 0] S10000x128.size inb_S10000x128_S10000x128_0_0

def out0_2 (x0 : Vec F S10000x14 .f32) (x1 : Vec F S14x128 .f32) : Vec F S10000x128 .f32 :=
  View.canon [⟨r0_o, k0_pay1 (View.ld x0 r0_x) (View.ld x1 r0_w)⟩]

set_option maxHeartbeats 1000000 in
theorem sound_kernel0 (c : Dev nD) (E : Set ℕ) (i : grid0.Coords)
    (arg1 : Memref sig .tc .vmem S10000x14 .f32) (harg1 : arg1.IsWhole) (arg2 : Memref sig .tc .vmem S14x128 .f32) (harg2 : arg2.IsWhole)
    (arg3 : Memref sig .tc .vmem S10000x128 .f32) (harg3 : arg3.IsWhole)
    (x0 : Vec F S10000x14 .f32) (x1 : Vec F S14x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ (∀ d, (dat0 V c).before 1 t d = iblk0 V c 1 t) := by
  refine ⟨fun d => ?_, fun d => ?_⟩ <;>
    exact ((dat0 V c).before_in_eq_fetched _ rfl (fun _ => rfl) (fun _ _ _ => rfl)
      (fun t => by
        first | rw [show (dat0 V c).after 0 t = iblk0 V c 0 t from rfl] | rw [show (dat0 V c).after 1 t = iblk0 V c 1 t from rfl]
        unfold Dat.blockOf iblk0; rw [A_eq0]; try rfl) t d).trans
      (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1⟩ := before0 V c t
  simp only [b0, b1]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S25000x11 := Rect.unit (s := S25000x11) ![0, 0] S25000x11.size inb_S25000x11_S25000x11_0_0
abbrev r1_w : Rect S11x128 := Rect.unit (s := S11x128) ![0, 0] S11x128.size inb_S11x128_S11x128_0_0
abbrev r1_o : Rect S25000x128 := Rect.unit (s := S25000x128) ![0, 0] S25000x128.size inb_S25000x128_S25000x128_0_0

def out1_2 (x0 : Vec F S25000x11 .f32) (x1 : Vec F S11x128 .f32) : Vec F S25000x128 .f32 :=
  View.canon [⟨r1_o, k1_pay1 (View.ld x0 r1_x) (View.ld x1 r1_w)⟩]

set_option maxHeartbeats 1000000 in
theorem sound_kernel1 (c : Dev nD) (E : Set ℕ) (i : grid1.Coords)
    (arg1 : Memref sig .tc .vmem S25000x11 .f32) (harg1 : arg1.IsWhole) (arg2 : Memref sig .tc .vmem S11x128 .f32) (harg2 : arg2.IsWhole)
    (arg3 : Memref sig .tc .vmem S25000x128 .f32) (harg3 : arg3.IsWhole)
    (x0 : Vec F S25000x11 .f32) (x1 : Vec F S11x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S25000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨fun d => ?_, fun d => ?_⟩ <;>
    exact ((dat1 V c).before_in_eq_fetched _ rfl (fun _ => rfl) (fun _ _ _ => rfl)
      (fun t => by
        first | rw [show (dat1 V c).after 0 t = iblk1 V c 0 t from rfl] | rw [show (dat1 V c).after 1 t = iblk1 V c 1 t from rfl]
        unfold Dat.blockOf iblk1; rw [A_eq1]; try rfl) t d).trans
      (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1⟩ := before1 V c t
  simp only [b0, b1]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S10000x128 := Rect.unit (s := S10000x128) ![0, 0] S10000x128.size inb_S10000x128_S10000x128_0_0

def out2_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r2_o, k2_pay1 (View.ld x0 r2_x) (View.ld x3 r2_w) (View.ld x1 r2_x) (View.ld x4 r2_w) (View.ld x2 r2_x) (View.ld x5 r2_w) (View.ld x6 r2_b)⟩]

/-- The body keeps its seven inputs and leaves `out2_7` of them in the output. -/
theorem sound_kernel2 (c : Dev nD) (E : Set ℕ) (i : grid2.Coords) (a1 a2 a3 a8 : Memref sig .tc .vmem S10000x128 .f32)
    (a4 a5 a6 : Memref sig .tc .vmem S128x128 .f32) (a7 : Memref sig .tc .vmem S1x128 .f32)
    (h1 : a1.IsWhole) (h2 : a2.IsWhole) (h3 : a3.IsWhole) (h4 : a4.IsWhole) (h5 : a5.IsWhole) (h6 : a6.IsWhole) (h7 : a7.IsWhole) (h8 : a8.IsWhole)
    (x0 x1 x2 : Vec F S10000x128 .f32) (x3 x4 x5 : Vec F S128x128 .f32) (x6 : Vec F S1x128 .f32) (K : PUnit → sProp 𝕄) :
    iprop(owns c a1 fullShare x0 ∗ owns c a2 fullShare x1 ∗ owns c a3 fullShare x2 ∗ owns c a4 fullShare x3 ∗ owns c a5 fullShare x4
        ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4
            ∗ owns c a6 fullShare x5 ∗ owns c a7 fullShare x6 ∗ owns c a8 fullShare (out2_7 x0 x1 x2 x3 x4 x5 x6)) -∗ K ⟨⟩))
      ⊢ wp frame (wpE (defs₀ (F := F)) Variants.none c none) E (cc2__msg_kernel i a1 h1 a2 h2 a3 h3 a4 h4 a5 h5 a6 h6 a7 h7 a8 h8) K := by
  rw [cc2__msg_kernel_eq_skeleton]; unfold cc2__msg_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%_, %f7, -, H7⟩, Hk⟩
  subst e0 e1 e2 e3 e4 e5 e6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  iexists _; iframe H7; ipureintro
  exact View.read_writes_eq_canon _ _ _ (View.cover_of_tiled _ S10000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- The body keeps its inputs. -/
theorem before2 (c : Dev nD) (t : Fin cfg2.N) (w : Fin cfg2.W) (hw : w ≠ 7) (d) : (dat2 V c).before w t d = (dat2 V c).after w t := by
  fin_cases w <;> first | exact absurd rfl hw | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp (disch := decide) only [before2 V c]
  dsimp only [dat2]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  iintro H
  iframe HΦ H
  iexact Ho

/-- The three message kernels are one function. -/
theorem cc4_eq : cc4__msg_kernel (F := F) = cc2__msg_kernel := rfl
theorem cc6_eq : cc6__msg_kernel (F := F) = cc2__msg_kernel := rfl

end Cert.KernelIdeal.Hand

end
-- ==== Proof.KI.GruBody.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev gruA : Rect S10000x128 := Rect.unit (s := S10000x128) ![0, 0] S10000x128.size inb_S10000x128_S10000x128_0_0
abbrev gruW : Rect S128x384 := Rect.unit (s := S128x384) ![0, 0] S128x384.size inb_S128x384_S128x384_0_0
abbrev gruB : Rect S1x384 := Rect.unit (s := S1x384) ![0, 0] S1x384.size inb_S1x384_S1x384_0_0

-- The body keeps its six inputs and leaves their cell update in the output block; P and Q are carried along.
theorem gru_body (c : Dev nD) {E : Set ℕ} (i : grid3.Coords)
    {a1 a2 a7 : Memref sig .tc .vmem S10000x128 .f32} {a3 a4 : Memref sig .tc .vmem S128x384 .f32} {a5 a6 : Memref sig .tc .vmem S1x384 .f32}
    (h1 : a1.IsWhole) (h2 : a2.IsWhole) (h3 : a3.IsWhole) (h4 : a4.IsWhole) (h5 : a5.IsWhole) (h6 : a6.IsWhole) (h7 : a7.IsWhole)
    {x0 x1 : Vec F S10000x128 .f32} {x2 x3 : Vec F S128x384 .f32} {x4 x5 : Vec F S1x384 .f32}
    {b : Vec F S10000x128 .f32 → Vec F S10000x128 .f32} {P Q : sProp 𝕄} :
    iprop(P ∗ Q ∗ (∃ _ : Vec F S10000x128 .f32, owns c.tc a1 fullShare x0)
        ∗ (∃ _ : Vec F S10000x128 .f32, owns c.tc a2 fullShare x1)
        ∗ (∃ _ : Vec F S128x384 .f32, owns c.tc a3 fullShare x2)
        ∗ (∃ _ : Vec F S128x384 .f32, owns c.tc a4 fullShare x3)
        ∗ (∃ _ : Vec F S1x384 .f32, owns c.tc a5 fullShare x4)
        ∗ (∃ _ : Vec F S1x384 .f32, owns c.tc a6 fullShare x5)
        ∗ (∃ d, owns c.tc a7 fullShare (b d)))
      ⊢ wp frame (wpE (defs₀ (F := F)) Variants.none c none) E (cc3__gru_kernel i a1 h1 a2 h2 a3 h3 a4 h4 a5 h5 a6 h6 a7 h7)
          fun _ => iprop(P ∗ Q ∗ owns c.tc a1 fullShare x0 ∗ owns c.tc a2 fullShare x1
            ∗ owns c.tc a3 fullShare x2 ∗ owns c.tc a4 fullShare x3 ∗ owns c.tc a5 fullShare x4
            ∗ owns c.tc a6 fullShare x5 ∗ owns c.tc a7 fullShare (View.canon [⟨gruA, k3_pay1 (View.ld x0 gruA) (View.ld x2 gruW) (View.ld x4 gruB) (View.ld x1 gruA) (View.ld x3 gruW) (View.ld x5 gruB) (View.ld x1 gruA)⟩])) := by
  simp only [cc3__gru_kernel_eq_skeleton]; unfold cc3__gru_kernel_skel
  simp only [k3_part1_eq_skeleton]; unfold k3_part1_skel
  unfold owns
  iintro ⟨HP, HQ, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%d6, %f6, -, H6⟩⟩
  subst hf0; subst hf1; subst hf2; subst hf3; subst hf4; subst hf5
  sl_exec
  sl_step
  iframe HP HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x128.size (by rfl))

end Cert.KernelIdeal.Hand

end
-- ==== Proof.KI.Reg3.lean ====
import proofs.«406877_j20933670601167_1_alg».proof.Proof.KI.GruBody

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F] [Named F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x128 := Rect.unit (s := S10000x128) ![0, 0] S10000x128.size inb_S10000x128_S10000x128_0_0
abbrev r3_w : Rect S128x384 := Rect.unit (s := S128x384) ![0, 0] S128x384.size inb_S128x384_S128x384_0_0
abbrev r3_b : Rect S1x384 := Rect.unit (s := S1x384) ![0, 0] S1x384.size inb_S1x384_S1x384_0_0

def out3_6 (x0 x1 : Vec F S10000x128 .f32) (x2 x3 : Vec F S128x384 .f32) (x4 x5 : Vec F S1x384 .f32) : Vec F S10000x128 .f32 :=
  View.canon [⟨r3_a, k3_pay1 (View.ld x0 r3_a) (View.ld x2 r3_w) (View.ld x4 r3_b) (View.ld x1 r3_a) (View.ld x3 r3_w) (View.ld x5 r3_b) (View.ld x1 r3_a)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

-- Each input window holds before the body what it holds after it: its array's block at the point.
theorem before3 (c : Dev nD) (t : Fin cfg3.N) (w : Fin cfg3.W) (hw : w ≠ 6) (d) : (dat3 V c).before w t d = (dat3 V c).after w t := by
  fin_cases w <;> first | exact absurd rfl hw | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c t]
  dsimp only [dat3]
  exact gru_body (F := F) c (grid3.coords t) (hstage3_0 _) (hstage3_1 _) (hstage3_2 _) (hstage3_3 _) (hstage3_4 _) (hstage3_5 _) (hstage3_6 _)

end Cert.KernelIdeal.Hand

end
-- ==== Proof.KI.Reg4.lean ====
import proofs.«406877_j20933670601167_1_alg».proof.Proof.KI.Reg2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S10000x128 := Rect.unit (s := S10000x128) ![0, 0] S10000x128.size inb_S10000x128_S10000x128_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0
abbrev r4_o : Rect S10000x128 := Rect.unit (s := S10000x128) ![0, 0] S10000x128.size inb_S10000x128_S10000x128_0_0

def out4_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r4_o, k4_pay1 (View.ld x0 r4_x) (View.ld x3 r4_w) (View.ld x1 r4_x) (View.ld x4 r4_w) (View.ld x2 r4_x) (View.ld x5 r4_w) (View.ld x6 r4_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- The body keeps its inputs. -/
theorem before4 (c : Dev nD) (t : Fin cfg4.N) (w : Fin cfg4.W) (hw : w ≠ 7) (d) : (dat4 V c).before w t d = (dat4 V c).after w t := by
  fin_cases w <;> first | exact absurd rfl hw | exact (dat4 V c).before_in_eq_fetched _ rfl (fun _ => rfl) (fun _ _ _ => rfl) (fun _ => rfl) t d

theorem out4_eq : out4_7 (F := F) = out2_7 := rfl

theorem body_obligation4 (c : Dev nD) : BodyObligation (dat4 (F := F) V c) (defs₀ (F := F)) Variants.none () Set.univ := fun t => by
  rw [bigSep_W4, bigSep_W4]
  simp (disch := decide) only [before4 V c]
  dsimp only [dat4]
  sl_whnfR [defs₀, Defs.onTc]
  rw [cc4_eq, out4_eq]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  iframe H0 H1 H2 H3 H4 H5 H6
  isplitl [H7]; · iexists _; iexact H7
  iintro H
  iframe HΦ H
  iexact Ho

end Cert.KernelIdeal.Hand

end
-- ==== Proof.KI.Reg5.lean ====
import proofs.«406877_j20933670601167_1_alg».proof.Proof.KI.GruBody

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F] [Named F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S10000x128 := Rect.unit (s := S10000x128) ![0, 0] S10000x128.size inb_S10000x128_S10000x128_0_0
abbrev r5_w : Rect S128x384 := Rect.unit (s := S128x384) ![0, 0] S128x384.size inb_S128x384_S128x384_0_0
abbrev r5_b : Rect S1x384 := Rect.unit (s := S1x384) ![0, 0] S1x384.size inb_S1x384_S1x384_0_0

def out5_6 (x0 x1 : Vec F S10000x128 .f32) (x2 x3 : Vec F S128x384 .f32) (x4 x5 : Vec F S1x384 .f32) : Vec F S10000x128 .f32 :=
  View.canon [⟨r5_a, k5_pay1 (View.ld x0 r5_a) (View.ld x2 r5_w) (View.ld x4 r5_b) (View.ld x1 r5_a) (View.ld x3 r5_w) (View.ld x5 r5_b) (View.ld x1 r5_a)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

-- Each input window holds before the body what it holds after it: its array's block at the point.
theorem before5 (c : Dev nD) (t : Fin cfg5.N) (w : Fin cfg5.W) (hw : w ≠ 6) (d) : (dat5 V c).before w t d = (dat5 V c).after w t := by
  fin_cases w <;> first | exact absurd rfl hw | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp +decide only [before5 V c t]
  dsimp only [dat5]
  exact gru_body (F := F) c (grid5.coords t) (hstage5_0 _) (hstage5_1 _) (hstage5_2 _) (hstage5_3 _) (hstage5_4 _) (hstage5_5 _) (hstage5_6 _)

end Cert.KernelIdeal.Hand

end
-- ==== Proof.KI.Reg6.lean ====
import proofs.«406877_j20933670601167_1_alg».proof.Proof.KI.Reg2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S10000x128 := Rect.unit (s := S10000x128) ![0, 0] S10000x128.size inb_S10000x128_S10000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0
abbrev r6_o : Rect S10000x128 := Rect.unit (s := S10000x128) ![0, 0] S10000x128.size inb_S10000x128_S10000x128_0_0

def out6_7 (x0 : Vec F S10000x128 .f32) (x1 : Vec F S10000x128 .f32) (x2 : Vec F S10000x128 .f32)
    (x3 : Vec F S128x128 .f32) (x4 : Vec F S128x128 .f32) (x5 : Vec F S128x128 .f32) (x6 : Vec F S1x128 .f32) : Vec F S10000x128 .f32 :=
  View.canon [⟨r6_o, k6_pay1 (View.ld x0 r6_x) (View.ld x3 r6_w) (View.ld x1 r6_x) (View.ld x4 r6_w) (View.ld x2 r6_x) (View.ld x5 r6_w) (View.ld x6 r6_b)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by dsimp only [dat6]

theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- The body keeps its inputs. -/
theorem before6 (c : Dev nD) (t : Fin cfg6.N) (w : Fin cfg6.W) (hw : w ≠ 7) (d) : (dat6 V c).before w t d = (dat6 V c).after w t := by
  fin_cases w <;> first | exact absurd rfl hw | exact (dat6 V c).before_in_eq_fetched _ rfl (fun _ => rfl) (fun _ _ _ => rfl) (fun _ => rfl) t d

theorem out6_eq : out6_7 (F := F) = out2_7 := rfl

theorem body_obligation6 (c : Dev nD) : BodyObligation (dat6 (F := F) V c) (defs₀ (F := F)) Variants.none () Set.univ := fun t => by
  rw [bigSep_W6, bigSep_W6]
  simp (disch := decide) only [before6 V c]
  dsimp only [dat6]
  sl_whnfR [defs₀, Defs.onTc]
  rw [cc6_eq, out6_eq]
  iintro ⟨HΦ, Ho, ⟨%_, H0⟩, ⟨%_, H1⟩, ⟨%_, H2⟩, ⟨%_, H3⟩, ⟨%_, H4⟩, ⟨%_, H5⟩, ⟨%_, H6⟩, %_, H7⟩
  iapply (sound_kernel2 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro H
  iframe HΦ H
  iexact Ho

end Cert.KernelIdeal.Hand

end
-- ==== Proof.KI.Reg7.lean ====
import proofs.«406877_j20933670601167_1_alg».proof.Proof.KI.GruBody

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F] [Named F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S10000x128 := Rect.unit (s := S10000x128) ![0, 0] S10000x128.size inb_S10000x128_S10000x128_0_0
abbrev r7_w : Rect S128x384 := Rect.unit (s := S128x384) ![0, 0] S128x384.size inb_S128x384_S128x384_0_0
abbrev r7_b : Rect S1x384 := Rect.unit (s := S1x384) ![0, 0] S1x384.size inb_S1x384_S1x384_0_0

def out7_6 (x0 x1 : Vec F S10000x128 .f32) (x2 x3 : Vec F S128x384 .f32) (x4 x5 : Vec F S1x384 .f32) : Vec F S10000x128 .f32 :=
  View.canon [⟨r7_a, k7_pay1 (View.ld x0 r7_a) (View.ld x2 r7_w) (View.ld x4 r7_b) (View.ld x1 r7_a) (View.ld x3 r7_w) (View.ld x5 r7_b) (View.ld x1 r7_a)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem after7_6 (c : Dev nD) (t : Fin cfg7.N) :
    (dat7 V c).after 6 t = out7_6 (iblk7 V c 0 t) (iblk7 V c 1 t) (iblk7 V c 2 t) (iblk7 V c 3 t) (iblk7 V c 4 t) (iblk7 V c 5 t) := by dsimp only [dat7]

-- Each input window holds before the body what it holds after it: its array's block at the point.
theorem before7 (c : Dev nD) (t : Fin cfg7.N) (w : Fin cfg7.W) (hw : w ≠ 6) (d) : (dat7 V c).before w t d = (dat7 V c).after w t := by
  fin_cases w <;> first | exact absurd rfl hw | exact (dat7 V c).before_in_eq_fetched _ rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  simp +decide only [before7 V c t]
  dsimp only [dat7]
  exact gru_body (F := F) c (grid7.coords t) (hstage7_0 _) (hstage7_1 _) (hstage7_2 _) (hstage7_3 _) (hstage7_4 _) (hstage7_5 _) (hstage7_6 _)

end Cert.KernelIdeal.Hand

end
-- ==== Proof.KI.Reg8.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev r8_v : Rect S1x128 := Rect.unit (s := S1x128) ![0, 0] S1x128.size inb_S1x128_S1x128_0_0

theorem hz8 : (![0, 0] : Fin 2 → Nat) = fun _ => 0 := funext fun a => by fin_cases a <;> rfl

abbrev cond8_0 (i : grid8.Coords) : Prop := (Scalar.cmpi .ne (Scalar.extui (Scalar.cmpi .eq (BitVec.ofNat 32 (i 0).val) 0#32)) 0#32) = 1#1
abbrev cond8_1 (i : grid8.Coords) : Prop := k8_cond2 i = 1#1

-- the two conditions of the body single out the first and the last point
theorem hcond8 : ∀ t : Fin cfg8.N, (cond8_0 (grid8.coords t) ↔ t.val = 0) ∧ (cond8_1 (grid8.coords t) ↔ t.val = 4) :=
  (by decide +kernel : ∀ t : Fin grid8.N, (cond8_0 (grid8.coords t) ↔ t.val = 0) ∧ (cond8_1 (grid8.coords t) ↔ t.val = 4))

theorem out8_5 : ∀ t : Fin cfg8.N, (t.val ≠ 4 → cfg8.idle 5 (grid8.coords t) = true ∧ (cfg8.win 5).flush t = false)
    ∧ (t.val = 4 → cfg8.idle 5 (grid8.coords t) = false) := by decide +kernel

theorem cover8 (w : Vec F S1x128 .f32) (L : List (View.Piece (Elt F) S1x128 .f32)) (y : S1x128.Idx) :
    ∃ pc ∈ ((⟨r8_v, w⟩ : View.Piece (Elt F) S1x128 .f32) :: L), y ∈ pc.1.set :=
  ⟨_, List.mem_cons_self, View.mem_set_unit_zero hz8 inb_S1x128_S1x128_0_0 y⟩

section
variable (c : Dev nD) (E : Set ℕ) (i : grid8.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S10000x128 .f32) (x1 : Vec F S128x128 .f32) (x2 : Vec F S1x128 .f32) (x3 : Vec F S128x128 .f32) (x4 : Vec F S1x128 .f32)
    (xi xs : Vec F S1x128 .f32)

-- the body's seven operands at their contents: five inputs, the output block xi, the accumulator xs
def own8 : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare xi
    ∗ owns (c : Thread nD τ) arg7 fullShare xs)

set_option maxHeartbeats 4000000 in
-- first point: the accumulator is reset, then receives the block's column sum
theorem sound_kernel8_A (hc0 : cond8_0 i) (hc1 : ¬cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 xi (k8_pay2 x0 x1 x2 x0 x3 x4 (k8_pay1 (F := F))) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover8 _ _)).trans ?_
  rw [View.canon_cons_unit_zero hz8]
  have h21 : sound_kernel8_A.sl.v21 c arg7 = k8_pay1 (F := F) := by
    unfold sound_kernel8_A.sl.v21 sound_kernel8_A.sl.H6_1
    exact View.readCov_unit_zero _ hz8 _ _
  rw [h21]
  simp only [View.readAt_eq_ld, View.ld_unit_zero (S := S10000x128) hz8, View.ld_unit_zero (S := S128x128) hz8, View.ld_unit_zero (S := S1x128) hz8]

set_option maxHeartbeats 4000000 in
-- middle point: the block's column sum is added to the accumulator
theorem sound_kernel8_B (hc0 : ¬cond8_0 i) (hc1 : ¬cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 xi (k8_pay2 x0 x1 x2 x0 x3 x4 xs) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover8 _ _)).trans ?_
  rw [View.canon_cons_unit_zero hz8]
  simp only [View.readAt_eq_ld, View.ld_unit_zero (S := S10000x128) hz8, View.ld_unit_zero (S := S128x128) hz8, View.ld_unit_zero (S := S1x128) hz8]

set_option maxHeartbeats 4000000 in
-- last point: as in the middle, and the accumulator times the constant goes to the output block
theorem sound_kernel8_C (hc0 : ¬cond8_0 i) (hc1 : cond8_1 i) (K : PUnit → sProp 𝕄) :
    iprop(own8 c arg1 arg2 arg3 arg4 arg5 arg6 arg7 x0 x1 x2 x3 x4 xi xs ∗ (own8 c arg1 arg2 arg3 arg4 arg5 arg6 arg7 x0 x1 x2 x3 x4 (k8_pay3 (k8_pay2 x0 x1 x2 x0 x3 x4 xs)) (k8_pay2 x0 x1 x2 x0 x3 x4 xs) -∗ K ⟨⟩))
      ⊢ wp frame (wpE (defs₀ (F := F)) Variants.none c none) E (cc8__kernel i arg1 harg1 arg2 harg2 arg3 harg3 arg4 harg4 arg5 harg5 arg6 harg6 arg7 harg7) K := by
  simp only [cc8__kernel_eq_skeleton]; unfold cc8__kernel_skel own8 owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩⟩, Hk⟩
  subst_vars
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have h31 : sound_kernel8_C.sl.v31 c arg1 arg2 arg3 arg4 arg5 arg7 f0 f1 f2 f3 f4 f6 = k8_pay2 (View.read (Elt F) arg1.view f0) (View.read (Elt F) arg2.view f1) (View.read (Elt F) arg3.view f2) (View.read (Elt F) arg1.view f0) (View.read (Elt F) arg4.view f3) (View.read (Elt F) arg5.view f4) (View.read (Elt F) arg7.view f6) := by
    unfold sound_kernel8_C.sl.v31 sound_kernel8_C.sl.H6_1
    rw [View.readCov_unit_zero _ hz8]
    simp only [View.readAt_eq_ld, View.ld_unit_zero (S := S10000x128) hz8, View.ld_unit_zero (S := S128x128) hz8, View.ld_unit_zero (S := S1x128) hz8]
  isplitl [H5]
  · iexists _; isplitr
    swap; · iexact H5
    ipureintro
    refine (View.read_writes_eq_canon _ _ _ (cover8 _ _)).trans ?_
    rw [View.canon_cons_unit_zero hz8, h31]
  iexists _; isplitr
  swap; · iexact H6
  ipureintro
  refine (View.read_writes_eq_canon _ _ _ (cover8 _ _)).trans ?_
  rw [View.canon_cons_unit_zero hz8]
  simp only [View.readAt_eq_ld, View.ld_unit_zero (S := S10000x128) hz8, View.ld_unit_zero (S := S128x128) hz8, View.ld_unit_zero (S := S1x128) hz8]

-- the three control cases as one triple at a grid point
theorem sound_kernel8 (t : Fin cfg8.N) (K : PUnit → sProp 𝕄) :
    iprop(own8 c arg1 arg2 arg3 arg4 arg5 arg6 arg7 x0 x1 x2 x3 x4 xi xs
        ∗ (own8 c arg1 arg2 arg3 arg4 arg5 arg6 arg7 x0 x1 x2 x3 x4 (if t.val = 4 then k8_pay3 (k8_pay2 x0 x1 x2 x0 x3 x4 (if t.val = 0 then k8_pay1 (F := F) else xs)) else xi)
            (k8_pay2 x0 x1 x2 x0 x3 x4 (if t.val = 0 then k8_pay1 (F := F) else xs)) -∗ K ⟨⟩))
      ⊢ wp frame (wpE (defs₀ (F := F)) Variants.none c none) E (cc8__kernel (grid8.coords t) arg1 harg1 arg2 harg2 arg3 harg3 arg4 harg4 arg5 harg5 arg6 harg6 arg7 harg7) K := by
  have hN : t.val < 5 := lt_of_lt_of_eq t.isLt N_8
  obtain ⟨e0, e1⟩ := hcond8 t
  by_cases h0 : t.val = 0
  · rw [if_pos h0, if_neg (by omega : ¬t.val = 4)]
    exact sound_kernel8_A _ _ _ _ _ _ _ _ _ _ _ _ _ _ _ _ _ _ _ _ _ _ _ _ (e0.mpr h0) (fun h => by have := e1.mp h; omega) _
  · rw [if_neg h0]
    by_cases h4 : t.val = 4
    · rw [if_pos h4]; exact sound_kernel8_C _ _ _ _ _ _ _ _ _ _ _ _ _ _ _ _ _ _ _ _ _ _ _ _ (fun h => h0 (e0.mp h)) (e1.mpr h4) _
    · rw [if_neg h4]; exact sound_kernel8_B _ _ _ _ _ _ _ _ _ _ _ _ _ _ _ _ _ _ _ _ _ _ _ _ (fun h => h0 (e0.mp h)) (fun h => h4 (e1.mp h)) _

end

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S1x128 .f32
  | 0, hn => k8_pay2 (iblk8 V c 0 ⟨0, hn⟩) (iblk8 V c 1 ⟨0, hn⟩) (iblk8 V c 2 ⟨0, hn⟩) (iblk8 V c 0 ⟨0, hn⟩) (iblk8 V c 3 ⟨0, hn⟩) (iblk8 V c 4 ⟨0, hn⟩) (k8_pay1 (F := F))
  | n + 1, hn => k8_pay2 (iblk8 V c 0 ⟨n + 1, hn⟩) (iblk8 V c 1 ⟨n + 1, hn⟩) (iblk8 V c 2 ⟨n + 1, hn⟩) (iblk8 V c 0 ⟨n + 1, hn⟩) (iblk8 V c 3 ⟨n + 1, hn⟩) (iblk8 V c 4 ⟨n + 1, hn⟩) (acc8 c n (Nat.lt_of_succ_lt hn))

theorem acc8_zero (c : Dev nD) (h : 0 < cfg8.N) :
    acc8 V c 0 h = k8_pay2 (iblk8 V c 0 ⟨0, h⟩) (iblk8 V c 1 ⟨0, h⟩) (iblk8 V c 2 ⟨0, h⟩) (iblk8 V c 0 ⟨0, h⟩) (iblk8 V c 3 ⟨0, h⟩) (iblk8 V c 4 ⟨0, h⟩) (k8_pay1 (F := F)) := rfl

theorem acc8_succ (c : Dev nD) (n : ℕ) (h : n + 1 < cfg8.N) :
    acc8 V c (n + 1) h = k8_pay2 (iblk8 V c 0 ⟨n + 1, h⟩) (iblk8 V c 1 ⟨n + 1, h⟩) (iblk8 V c 2 ⟨n + 1, h⟩) (iblk8 V c 0 ⟨n + 1, h⟩) (iblk8 V c 3 ⟨n + 1, h⟩) (iblk8 V c 4 ⟨n + 1, h⟩) (acc8 V c n (Nat.lt_of_succ_lt h)) := rfl

-- the accumulator after point t, over whatever d the point found, when d is what the point before left
theorem acc8_eq (c : Dev nD) (t : Fin cfg8.N) (d : Vec F S1x128 .f32)
    (hd : ∀ hz : t.val ≠ 0, d = acc8 V c (t.val - 1) (Nat.lt_of_le_of_lt (Nat.sub_le _ _) t.isLt)) :
    acc8 V c t.val t.isLt = k8_pay2 (iblk8 V c 0 t) (iblk8 V c 1 t) (iblk8 V c 2 t) (iblk8 V c 0 t) (iblk8 V c 3 t) (iblk8 V c 4 t) (if t.val = 0 then k8_pay1 (F := F) else d) := by
  obtain ⟨n, hn⟩ := t
  cases n with
  | zero => rw [if_pos rfl]; rfl
  | succ n => rw [if_neg (Nat.succ_ne_zero n), hd (Nat.succ_ne_zero n)]; rfl

abbrev scM8 : Memref sig .tc .vmem S1x128 .f32 := Memref.whole cc8_scratch0

abbrev rest8 (c : Dev nD) : sProp 𝕄 :=
  Pipeline.scopedRestBut (Ix := Unit) (Name := ℕ) (U := UR sig nD τ) (Lvl := ℕ) (Val := Elt F) spec8 c [cc8_scratch0]

theorem PhiA8_eq (c : Dev nD) :
    (Pipeline.ΦA spec8 c : sProp 𝕄)
      = iprop(iprop(iprop(∃ d, owns (c : Thread nD τ) scM8 fullShare d) ∗ rest8 (F := F) c) ∗ (∃ r, prngReg c r)) := by
  unfold Pipeline.ΦA; rw [scopedRest8_split]; simp only [scM8, owns_whole]; rfl

def PhiS8 (c : Dev nD) : (n : ℕ) → n ≤ cfg8.N → sProp 𝕄
  | 0, _ => Pipeline.ΦA spec8 c
  | n + 1, hn => iprop(iprop(owns (c : Thread nD τ) scM8 fullShare (acc8 V c n hn) ∗ rest8 (F := F) c) ∗ (∃ r, prngReg c r))

-- before any point the accumulator is owned at some d, which past the first point is what the point before left
theorem PhiS8_open (c : Dev nD) (n : ℕ) (h : n ≤ cfg8.N) :
    PhiS8 V c n h ⊢ iprop(iprop(iprop(∃ d, ⌜∀ hz : n ≠ 0, d = acc8 V c (n - 1) (by omega)⌝ ∗ owns (c : Thread nD τ) scM8 fullShare d) ∗ rest8 (F := F) c) ∗ (∃ r, prngReg c r)) := by
  cases n with
  | zero =>
    rw [PhiS8, PhiA8_eq]
    iintro ⟨⟨⟨%d, HS⟩, Hr⟩, Hg⟩
    iframe Hr Hg
    iexists d; isplitr; · ipureintro; exact fun hz => absurd rfl hz
    iexact HS
  | succ n =>
    rw [PhiS8]
    iintro ⟨⟨HS, Hr⟩, Hg⟩
    iframe Hr Hg
    iexists acc8 V c n h; isplitr; · ipureintro; exact fun _ => rfl
    iexact HS

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay3 (acc8 V c t.val t.isLt)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_5_last (c : Dev nD) : (dat8 V c).after 5 t8_4 = k8_pay3 (acc8 V c 4 t8_4.isLt) := rfl

theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t)
      ∧ (∀ d, (dat8 V c).before 3 t d = iblk8 V c 3 t) ∧ (∀ d, (dat8 V c).before 4 t d = iblk8 V c 4 t) := by
  refine ⟨?_, ?_, ?_, ?_, ?_⟩ <;> intro d <;>
    exact (Dat.before_in_eq_fetched (dat8 V c) _ rfl (fun _ => rfl) (fun _ _ _ => rfl) (fun _ => rfl) t d).trans rfl

def bodyPre8 (c : Dev nD) (t : Fin cfg8.N) : sProp 𝕄 :=
  iprop(PhiS8 V c t.val (Nat.le_of_lt t.isLt) ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop(iprop(iprop(owns (c : Thread nD τ) scM8 fullShare (acc8 V c t.val t.isLt) ∗ rest8 (F := F) c) ∗ (∃ r, prngReg c r)) ∗ (dat8 V c).owesAt () t.castSucc
    ∗ owns (c : Thread nD τ) (st8_0 t) fullShare (iblk8 V c 0 t) ∗ owns (c : Thread nD τ) (st8_1 t) fullShare (iblk8 V c 1 t)
    ∗ owns (c : Thread nD τ) (st8_2 t) fullShare (iblk8 V c 2 t) ∗ owns (c : Thread nD τ) (st8_3 t) fullShare (iblk8 V c 3 t)
    ∗ owns (c : Thread nD τ) (st8_4 t) fullShare (iblk8 V c 4 t) ∗ (dat8 V c).leavesExact 5 t)

-- at the last point the output block is the scaled accumulator; elsewhere it is as found
theorem leaves8_5 (c : Dev nD) (t : Fin cfg8.N) (d) :
    owns (c : Thread nD τ) (st8_5 t) fullShare (if t.val = 4 then k8_pay3 (acc8 V c t.val t.isLt) else (dat8 V c).before 5 t d) ⊢ (dat8 V c).leavesExact 5 t := by
  obtain ⟨hi, hl⟩ := out8_5 t
  by_cases h4 : t.val = 4
  · rw [if_pos h4, show (dat8 V c).leavesExact 5 t = owns (c : Thread nD τ) (st8_5 t) fullShare ((dat8 V c).after 5 t) from by
      unfold Dat.leavesExact; rw [hl h4]]
    iintro H; iexact H
  · rw [if_neg h4, Dat.leavesExact_idle (dat8 V c) 5 t (hi h4).1 (hi h4).2]
    iintro H; iexists _; iexact H

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  obtain ⟨b0, b1, b2, b3, b4⟩ := before8 V c t
  simp only [b0, b1, b2, b3, b4]
  refine (sep_mono_left (PhiS8_open V c _ _)).trans ?_
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ _ (iblk8 V c 0 t) (iblk8 V c 1 t) (iblk8 V c 2 t) (iblk8 V c 3 t) (iblk8 V c 4 t) ((dat8 V c).before 5 t d5) d t _)
  unfold own8
  rw [← acc8_eq V c t d hd]
  isplitl [H0 H1 H2 H3 H4 H5 HS]; · iframe
  iintro ⟨H0, H1, H2, H3, H4, H5, HS⟩
  iframe HS Hr Hg Ho H0 H1 H2 H3 H4
  iapply (leaves8_5 V c t d5); iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Pipeline.ΦA spec8 c from rfl]

theorem hout8 (c : Dev nD) : (dat8 V c).Φ (Fin.last cfg8.N) ⊢ Pipeline.ΦA spec8 c := by
  rw [PhiA8_eq]
  refine (PhiS8_open V c cfg8.N (Nat.le_refl _)).trans ?_
  iintro ⟨⟨⟨%d, -, HS⟩, Hr⟩, Hg⟩
  iframe Hr Hg; iexists d; iexact HS

end Cert.KernelIdeal.Hand

end
-- ==== Proof.KI.Fold.lean ====
import proofs.«406877_j20933670601167_1_alg».proof.Proof.KI.Reg0
import proofs.«406877_j20933670601167_1_alg».proof.Proof.KI.Reg1
import proofs.«406877_j20933670601167_1_alg».proof.Proof.KI.Reg2
import proofs.«406877_j20933670601167_1_alg».proof.Proof.KI.Reg3
import proofs.«406877_j20933670601167_1_alg».proof.Proof.KI.Reg4
import proofs.«406877_j20933670601167_1_alg».proof.Proof.KI.Reg5
import proofs.«406877_j20933670601167_1_alg».proof.Proof.KI.Reg6
import proofs.«406877_j20933670601167_1_alg».proof.Proof.KI.Reg7
import proofs.«406877_j20933670601167_1_alg».proof.Proof.KI.Reg8
import proofs.«406877_j20933670601167_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

def X0 (c : Dev nD) : Valuation τ sig (Elt F) := fun b => m (c, b)
def a1 (c : Dev nD) : Buf (Elt F) ((c : Thread nD τ).loc main_v0) := (dat0 (rd (X0 m)) c).arrAt 2 cfg0.N
def X1 (c : Dev nD) : Valuation τ sig (Elt F) := Function.update (X0 m c) main_v0 (a1 m c)
def a2 (c : Dev nD) : Buf (Elt F) ((c : Thread nD τ).loc main_v1) := (dat1 (rd (X1 m)) c).arrAt 2 cfg1.N
def X2 (c : Dev nD) : Valuation τ sig (Elt F) := Function.update (X1 m c) main_v1 (a2 m c)
def X3 (c : Dev nD) : Valuation τ sig (Elt F) := StableHlo.after hostOps2 (X2 m c)
def X4 (c : Dev nD) : Valuation τ sig (Elt F) := StableHlo.after hostOps2_1 (X3 m c)
def X5 (c : Dev nD) : Valuation τ sig (Elt F) := StableHlo.after hostOps2_2 (X4 m c)
def a6 (c : Dev nD) : Buf (Elt F) ((c : Thread nD τ).loc main_v17) := (dat2 (rd (X5 m)) c).arrAt 7 cfg2.N
def X6 (c : Dev nD) : Valuation τ sig (Elt F) := Function.update (X5 m c) main_v17 (a6 m c)
def X7 (c : Dev nD) : Valuation τ sig (Elt F) := StableHlo.after hostOps3 (X6 m c)
def a8 (c : Dev nD) : Buf (Elt F) ((c : Thread nD τ).loc main_v31) := (dat3 (rd (X7 m)) c).arrAt 6 cfg3.N
def X8 (c : Dev nD) : Valuation τ sig (Elt F) := Function.update (X7 m c) main_v31 (a8 m c)
def X9 (c : Dev nD) : Valuation τ sig (Elt F) := StableHlo.after hostOps4 (X8 m c)
def X10 (c : Dev nD) : Valuation τ sig (Elt F) := StableHlo.after hostOps4_1 (X9 m c)
def X11 (c : Dev nD) : Valuation τ sig (Elt F) := StableHlo.after hostOps4_2 (X10 m c)
def a12 (c : Dev nD) : Buf (Elt F) ((c : Thread nD τ).loc main_v47) := (dat4 (rd (X11 m)) c).arrAt 7 cfg4.N
def X12 (c : Dev nD) : Valuation τ sig (Elt F) := Function.update (X11 m c) main_v47 (a12 m c)
def X13 (c : Dev nD) : Valuation τ sig (Elt F) := StableHlo.after hostOps5 (X12 m c)
def a14 (c : Dev nD) : Buf (Elt F) ((c : Thread nD τ).loc main_v61) := (dat5 (rd (X13 m)) c).arrAt 6 cfg5.N
def X14 (c : Dev nD) : Valuation τ sig (Elt F) := Function.update (X13 m c) main_v61 (a14 m c)
def X15 (c : Dev nD) : Valuation τ sig (Elt F) := StableHlo.after hostOps6 (X14 m c)
def X16 (c : Dev nD) : Valuation τ sig (Elt F) := StableHlo.after hostOps6_1 (X15 m c)
def X17 (c : Dev nD) : Valuation τ sig (Elt F) := StableHlo.after hostOps6_2 (X16 m c)
def a18 (c : Dev nD) : Buf (Elt F) ((c : Thread nD τ).loc main_v77) := (dat6 (rd (X17 m)) c).arrAt 7 cfg6.N
def X18 (c : Dev nD) : Valuation τ sig (Elt F) := Function.update (X17 m c) main_v77 (a18 m c)
def X19 (c : Dev nD) : Valuation τ sig (Elt F) := StableHlo.after hostOps7 (X18 m c)
def a20 (c : Dev nD) : Buf (Elt F) ((c : Thread nD τ).loc main_v91) := (dat7 (rd (X19 m)) c).arrAt 6 cfg7.N
def X20 (c : Dev nD) : Valuation τ sig (Elt F) := Function.update (X19 m c) main_v91 (a20 m c)
def X21 (c : Dev nD) : Valuation τ sig (Elt F) := StableHlo.after hostOps8 (X20 m c)
def a22 (c : Dev nD) : Buf (Elt F) ((c : Thread nD τ).loc main_v94) := (dat8 (rd (X21 m)) c).arrAt 5 cfg8.N
def X22 (c : Dev nD) : Valuation τ sig (Elt F) := Function.update (X21 m c) main_v94 (a22 m c)
def X23 (c : Dev nD) : Valuation τ sig (Elt F) := StableHlo.after hostOps9 (X22 m c)

def outs : Outs (F := F) := fun J r c => match J with
  | 1 => X1 m c r
  | 2 => X2 m c r
  | 6 => X6 m c r
  | 8 => X8 m c r
  | 12 => X12 m c r
  | 14 => X14 m c r
  | 18 => X18 m c r
  | 20 => X20 m c r
  | 22 => X22 m c r
  | _ => X0 m c r

/-- Updating at a reference with the value an updated valuation already has there gives that valuation. -/
theorem update_read {A B : Valuation τ sig (Elt F)} (h : A = B) (r : DevRef τ sig) (v) :
    Function.update A r (Function.update B r v r) = Function.update B r v := by rw [h, Function.update_self]

theorem V0_eq (c : Dev nD) : V0 m c = X0 m c := rfl
theorem V1_eq (c : Dev nD) : V1 m (outs m) c = X1 m c := update_read (V0_eq m c) main_v0 (a1 m c)
theorem V2_eq (c : Dev nD) : V2 m (outs m) c = X2 m c := update_read (V1_eq m c) main_v1 (a2 m c)
theorem V3_eq (c : Dev nD) : V3 m (outs m) c = X3 m c := congrArg (StableHlo.after hostOps2) (V2_eq m c)
theorem V4_eq (c : Dev nD) : V4 m (outs m) c = X4 m c := congrArg (StableHlo.after hostOps2_1) (V3_eq m c)
theorem V5_eq (c : Dev nD) : V5 m (outs m) c = X5 m c := congrArg (StableHlo.after hostOps2_2) (V4_eq m c)
theorem V6_eq (c : Dev nD) : V6 m (outs m) c = X6 m c := update_read (V5_eq m c) main_v17 (a6 m c)
theorem V7_eq (c : Dev nD) : V7 m (outs m) c = X7 m c := congrArg (StableHlo.after hostOps3) (V6_eq m c)
theorem V8_eq (c : Dev nD) : V8 m (outs m) c = X8 m c := update_read (V7_eq m c) main_v31 (a8 m c)
theorem V9_eq (c : Dev nD) : V9 m (outs m) c = X9 m c := congrArg (StableHlo.after hostOps4) (V8_eq m c)
theorem V10_eq (c : Dev nD) : V10 m (outs m) c = X10 m c := congrArg (StableHlo.after hostOps4_1) (V9_eq m c)
theorem V11_eq (c : Dev nD) : V11 m (outs m) c = X11 m c := congrArg (StableHlo.after hostOps4_2) (V10_eq m c)
theorem V12_eq (c : Dev nD) : V12 m (outs m) c = X12 m c := update_read (V11_eq m c) main_v47 (a12 m c)
theorem V13_eq (c : Dev nD) : V13 m (outs m) c = X13 m c := congrArg (StableHlo.after hostOps5) (V12_eq m c)
theorem V14_eq (c : Dev nD) : V14 m (outs m) c = X14 m c := update_read (V13_eq m c) main_v61 (a14 m c)
theorem V15_eq (c : Dev nD) : V15 m (outs m) c = X15 m c := congrArg (StableHlo.after hostOps6) (V14_eq m c)
theorem V16_eq (c : Dev nD) : V16 m (outs m) c = X16 m c := congrArg (StableHlo.after hostOps6_1) (V15_eq m c)
theorem V17_eq (c : Dev nD) : V17 m (outs m) c = X17 m c := congrArg (StableHlo.after hostOps6_2) (V16_eq m c)
theorem V18_eq (c : Dev nD) : V18 m (outs m) c = X18 m c := update_read (V17_eq m c) main_v77 (a18 m c)
theorem V19_eq (c : Dev nD) : V19 m (outs m) c = X19 m c := congrArg (StableHlo.after hostOps7) (V18_eq m c)
theorem V20_eq (c : Dev nD) : V20 m (outs m) c = X20 m c := update_read (V19_eq m c) main_v91 (a20 m c)
theorem V21_eq (c : Dev nD) : V21 m (outs m) c = X21 m c := congrArg (StableHlo.after hostOps8) (V20_eq m c)
theorem V22_eq (c : Dev nD) : V22 m (outs m) c = X22 m c := update_read (V21_eq m c) main_v94 (a22 m c)
theorem V23_eq (c : Dev nD) : V23 m (outs m) c = X23 m c := congrArg (StableHlo.after hostOps9) (V22_eq m c)

/-- An input window's array at the end of a region is what the region found, also in the valuation updated at another reference. -/
theorem arrAt_kept {cfg : Pipeline.Cfg sig Λ₀} {c : Dev nD} (d : Dat τ (Elt F) Unit ℕ (UR sig nD τ) ℕ cfg c) (Xa : Dev nD → Valuation τ sig (Elt F))
    (r : Ref sig .tc) (v : Buf (Elt F) ((c : Thread nD τ).loc r)) (w : Fin cfg.W) (hw : (cfg.win w).isOut = false)
    (hA : d.A w = rd Xa c (Pipeline.arrRef cfg.spec w)) (hne : Pipeline.arrRef cfg.spec w ≠ r) :
    d.arrAt w cfg.N = rd (fun c' => Function.update (Xa c') r v) c (Pipeline.arrRef cfg.spec w) :=
  ((d.arrAt_in w hw _).trans hA).trans (Function.update_of_ne (StableHlo.devRef_ne_of_ne hne) _ _).symm

set_option maxHeartbeats 4000000 in
theorem hF0 (c : Dev nD) (w : Fin cfg0.W) : (dat0 (rd (X0 m)) c).arrAt w cfg0.N = rd (X1 m) c (Pipeline.arrRef spec0 w) := by
  match w with
  | ⟨0, _⟩ => exact arrAt_kept (dat0 (rd (X0 m)) c) (X0 m) main_v0 _ 0 rfl (A_eq0 _ c 0) (by decide)
  | ⟨1, _⟩ => exact arrAt_kept (dat0 (rd (X0 m)) c) (X0 m) main_v0 _ 1 rfl (A_eq0 _ c 1) (by decide)
  | ⟨2, _⟩ => exact Eq.symm (Function.update_self _ _ _)

theorem hrest0 (c : Dev nD) (b : Ref sig .tc) (hb : b ∉ Finset.univ.image (Pipeline.arrRef spec0)) : rd (X1 m) c b = rd (X0 m) c b :=
  Function.update_of_ne (StableHlo.devRef_ne_of_ne fun e => hb (Finset.mem_image.mpr ⟨2, Finset.mem_univ _, e.symm⟩)) _ _

set_option maxHeartbeats 4000000 in
theorem hF1 (c : Dev nD) (w : Fin cfg1.W) : (dat1 (rd (X1 m)) c).arrAt w cfg1.N = rd (X2 m) c (Pipeline.arrRef spec1 w) := by
  match w with
  | ⟨0, _⟩ => exact arrAt_kept (dat1 (rd (X1 m)) c) (X1 m) main_v1 _ 0 rfl (A_eq1 _ c 0) (by decide)
  | ⟨1, _⟩ => exact arrAt_kept (dat1 (rd (X1 m)) c) (X1 m) main_v1 _ 1 rfl (A_eq1 _ c 1) (by decide)
  | ⟨2, _⟩ => exact Eq.symm (Function.update_self _ _ _)

theorem hrest1 (c : Dev nD) (b : Ref sig .tc) (hb : b ∉ Finset.univ.image (Pipeline.arrRef spec1)) : rd (X2 m) c b = rd (X1 m) c b :=
  Function.update_of_ne (StableHlo.devRef_ne_of_ne fun e => hb (Finset.mem_image.mpr ⟨2, Finset.mem_univ _, e.symm⟩)) _ _

set_option maxHeartbeats 4000000 in
theorem hF2 (c : Dev nD) (w : Fin cfg2.W) : (dat2 (rd (X5 m)) c).arrAt w cfg2.N = rd (X6 m) c (Pipeline.arrRef spec2 w) := by
  match w with
  | ⟨0, _⟩ => exact arrAt_kept (dat2 (rd (X5 m)) c) (X5 m) main_v17 _ 0 rfl (A_eq2 _ c 0) (by decide)
  | ⟨1, _⟩ => exact arrAt_kept (dat2 (rd (X5 m)) c) (X5 m) main_v17 _ 1 rfl (A_eq2 _ c 1) (by decide)
  | ⟨2, _⟩ => exact arrAt_kept (dat2 (rd (X5 m)) c) (X5 m) main_v17 _ 2 rfl (A_eq2 _ c 2) (by decide)
  | ⟨3, _⟩ => exact arrAt_kept (dat2 (rd (X5 m)) c) (X5 m) main_v17 _ 3 rfl (A_eq2 _ c 3) (by decide)
  | ⟨4, _⟩ => exact arrAt_kept (dat2 (rd (X5 m)) c) (X5 m) main_v17 _ 4 rfl (A_eq2 _ c 4) (by decide)
  | ⟨5, _⟩ => exact arrAt_kept (dat2 (rd (X5 m)) c) (X5 m) main_v17 _ 5 rfl (A_eq2 _ c 5) (by decide)
  | ⟨6, _⟩ => exact arrAt_kept (dat2 (rd (X5 m)) c) (X5 m) main_v17 _ 6 rfl (A_eq2 _ c 6) (by decide)
  | ⟨7, _⟩ => exact Eq.symm (Function.update_self _ _ _)

theorem hrest2 (c : Dev nD) (b : Ref sig .tc) (hb : b ∉ Finset.univ.image (Pipeline.arrRef spec2)) : rd (X6 m) c b = rd (X5 m) c b :=
  Function.update_of_ne (StableHlo.devRef_ne_of_ne fun e => hb (Finset.mem_image.mpr ⟨7, Finset.mem_univ _, e.symm⟩)) _ _

set_option maxHeartbeats 4000000 in
theorem hF3 (c : Dev nD) (w : Fin cfg3.W) : (dat3 (rd (X7 m)) c).arrAt w cfg3.N = rd (X8 m) c (Pipeline.arrRef spec3 w) := by
  match w with
  | ⟨0, _⟩ => exact arrAt_kept (dat3 (rd (X7 m)) c) (X7 m) main_v31 _ 0 rfl (A_eq3 _ c 0) (by decide)
  | ⟨1, _⟩ => exact arrAt_kept (dat3 (rd (X7 m)) c) (X7 m) main_v31 _ 1 rfl (A_eq3 _ c 1) (by decide)
  | ⟨2, _⟩ => exact arrAt_kept (dat3 (rd (X7 m)) c) (X7 m) main_v31 _ 2 rfl (A_eq3 _ c 2) (by decide)
  | ⟨3, _⟩ => exact arrAt_kept (dat3 (rd (X7 m)) c) (X7 m) main_v31 _ 3 rfl (A_eq3 _ c 3) (by decide)
  | ⟨4, _⟩ => exact arrAt_kept (dat3 (rd (X7 m)) c) (X7 m) main_v31 _ 4 rfl (A_eq3 _ c 4) (by decide)
  | ⟨5, _⟩ => exact arrAt_kept (dat3 (rd (X7 m)) c) (X7 m) main_v31 _ 5 rfl (A_eq3 _ c 5) (by decide)
  | ⟨6, _⟩ => exact Eq.symm (Function.update_self _ _ _)

theorem hrest3 (c : Dev nD) (b : Ref sig .tc) (hb : b ∉ Finset.univ.image (Pipeline.arrRef spec3)) : rd (X8 m) c b = rd (X7 m) c b :=
  Function.update_of_ne (StableHlo.devRef_ne_of_ne fun e => hb (Finset.mem_image.mpr ⟨6, Finset.mem_univ _, e.symm⟩)) _ _

set_option maxHeartbeats 4000000 in
theorem hF4 (c : Dev nD) (w : Fin cfg4.W) : (dat4 (rd (X11 m)) c).arrAt w cfg4.N = rd (X12 m) c (Pipeline.arrRef spec4 w) := by
  match w with
  | ⟨0, _⟩ => exact arrAt_kept (dat4 (rd (X11 m)) c) (X11 m) main_v47 _ 0 rfl (A_eq4 _ c 0) (by decide)
  | ⟨1, _⟩ => exact arrAt_kept (dat4 (rd (X11 m)) c) (X11 m) main_v47 _ 1 rfl (A_eq4 _ c 1) (by decide)
  | ⟨2, _⟩ => exact arrAt_kept (dat4 (rd (X11 m)) c) (X11 m) main_v47 _ 2 rfl (A_eq4 _ c 2) (by decide)
  | ⟨3, _⟩ => exact arrAt_kept (dat4 (rd (X11 m)) c) (X11 m) main_v47 _ 3 rfl (A_eq4 _ c 3) (by decide)
  | ⟨4, _⟩ => exact arrAt_kept (dat4 (rd (X11 m)) c) (X11 m) main_v47 _ 4 rfl (A_eq4 _ c 4) (by decide)
  | ⟨5, _⟩ => exact arrAt_kept (dat4 (rd (X11 m)) c) (X11 m) main_v47 _ 5 rfl (A_eq4 _ c 5) (by decide)
  | ⟨6, _⟩ => exact arrAt_kept (dat4 (rd (X11 m)) c) (X11 m) main_v47 _ 6 rfl (A_eq4 _ c 6) (by decide)
  | ⟨7, _⟩ => exact Eq.symm (Function.update_self _ _ _)

theorem hrest4 (c : Dev nD) (b : Ref sig .tc) (hb : b ∉ Finset.univ.image (Pipeline.arrRef spec4)) : rd (X12 m) c b = rd (X11 m) c b :=
  Function.update_of_ne (StableHlo.devRef_ne_of_ne fun e => hb (Finset.mem_image.mpr ⟨7, Finset.mem_univ _, e.symm⟩)) _ _

set_option maxHeartbeats 4000000 in
theorem hF5 (c : Dev nD) (w : Fin cfg5.W) : (dat5 (rd (X13 m)) c).arrAt w cfg5.N = rd (X14 m) c (Pipeline.arrRef spec5 w) := by
  match w with
  | ⟨0, _⟩ => exact arrAt_kept (dat5 (rd (X13 m)) c) (X13 m) main_v61 _ 0 rfl (A_eq5 _ c 0) (by decide)
  | ⟨1, _⟩ => exact arrAt_kept (dat5 (rd (X13 m)) c) (X13 m) main_v61 _ 1 rfl (A_eq5 _ c 1) (by decide)
  | ⟨2, _⟩ => exact arrAt_kept (dat5 (rd (X13 m)) c) (X13 m) main_v61 _ 2 rfl (A_eq5 _ c 2) (by decide)
  | ⟨3, _⟩ => exact arrAt_kept (dat5 (rd (X13 m)) c) (X13 m) main_v61 _ 3 rfl (A_eq5 _ c 3) (by decide)
  | ⟨4, _⟩ => exact arrAt_kept (dat5 (rd (X13 m)) c) (X13 m) main_v61 _ 4 rfl (A_eq5 _ c 4) (by decide)
  | ⟨5, _⟩ => exact arrAt_kept (dat5 (rd (X13 m)) c) (X13 m) main_v61 _ 5 rfl (A_eq5 _ c 5) (by decide)
  | ⟨6, _⟩ => exact Eq.symm (Function.update_self _ _ _)

theorem hrest5 (c : Dev nD) (b : Ref sig .tc) (hb : b ∉ Finset.univ.image (Pipeline.arrRef spec5)) : rd (X14 m) c b = rd (X13 m) c b :=
  Function.update_of_ne (StableHlo.devRef_ne_of_ne fun e => hb (Finset.mem_image.mpr ⟨6, Finset.mem_univ _, e.symm⟩)) _ _

set_option maxHeartbeats 4000000 in
theorem hF6 (c : Dev nD) (w : Fin cfg6.W) : (dat6 (rd (X17 m)) c).arrAt w cfg6.N = rd (X18 m) c (Pipeline.arrRef spec6 w) := by
  match w with
  | ⟨0, _⟩ => exact arrAt_kept (dat6 (rd (X17 m)) c) (X17 m) main_v77 _ 0 rfl (A_eq6 _ c 0) (by decide)
  | ⟨1, _⟩ => exact arrAt_kept (dat6 (rd (X17 m)) c) (X17 m) main_v77 _ 1 rfl (A_eq6 _ c 1) (by decide)
  | ⟨2, _⟩ => exact arrAt_kept (dat6 (rd (X17 m)) c) (X17 m) main_v77 _ 2 rfl (A_eq6 _ c 2) (by decide)
  | ⟨3, _⟩ => exact arrAt_kept (dat6 (rd (X17 m)) c) (X17 m) main_v77 _ 3 rfl (A_eq6 _ c 3) (by decide)
  | ⟨4, _⟩ => exact arrAt_kept (dat6 (rd (X17 m)) c) (X17 m) main_v77 _ 4 rfl (A_eq6 _ c 4) (by decide)
  | ⟨5, _⟩ => exact arrAt_kept (dat6 (rd (X17 m)) c) (X17 m) main_v77 _ 5 rfl (A_eq6 _ c 5) (by decide)
  | ⟨6, _⟩ => exact arrAt_kept (dat6 (rd (X17 m)) c) (X17 m) main_v77 _ 6 rfl (A_eq6 _ c 6) (by decide)
  | ⟨7, _⟩ => exact Eq.symm (Function.update_self _ _ _)

theorem hrest6 (c : Dev nD) (b : Ref sig .tc) (hb : b ∉ Finset.univ.image (Pipeline.arrRef spec6)) : rd (X18 m) c b = rd (X17 m) c b :=
  Function.update_of_ne (StableHlo.devRef_ne_of_ne fun e => hb (Finset.mem_image.mpr ⟨7, Finset.mem_univ _, e.symm⟩)) _ _

set_option maxHeartbeats 4000000 in
theorem hF7 (c : Dev nD) (w : Fin cfg7.W) : (dat7 (rd (X19 m)) c).arrAt w cfg7.N = rd (X20 m) c (Pipeline.arrRef spec7 w) := by
  match w with
  | ⟨0, _⟩ => exact arrAt_kept (dat7 (rd (X19 m)) c) (X19 m) main_v91 _ 0 rfl (A_eq7 _ c 0) (by decide)
  | ⟨1, _⟩ => exact arrAt_kept (dat7 (rd (X19 m)) c) (X19 m) main_v91 _ 1 rfl (A_eq7 _ c 1) (by decide)
  | ⟨2, _⟩ => exact arrAt_kept (dat7 (rd (X19 m)) c) (X19 m) main_v91 _ 2 rfl (A_eq7 _ c 2) (by decide)
  | ⟨3, _⟩ => exact arrAt_kept (dat7 (rd (X19 m)) c) (X19 m) main_v91 _ 3 rfl (A_eq7 _ c 3) (by decide)
  | ⟨4, _⟩ => exact arrAt_kept (dat7 (rd (X19 m)) c) (X19 m) main_v91 _ 4 rfl (A_eq7 _ c 4) (by decide)
  | ⟨5, _⟩ => exact arrAt_kept (dat7 (rd (X19 m)) c) (X19 m) main_v91 _ 5 rfl (A_eq7 _ c 5) (by decide)
  | ⟨6, _⟩ => exact Eq.symm (Function.update_self _ _ _)

theorem hrest7 (c : Dev nD) (b : Ref sig .tc) (hb : b ∉ Finset.univ.image (Pipeline.arrRef spec7)) : rd (X20 m) c b = rd (X19 m) c b :=
  Function.update_of_ne (StableHlo.devRef_ne_of_ne fun e => hb (Finset.mem_image.mpr ⟨6, Finset.mem_univ _, e.symm⟩)) _ _

set_option maxHeartbeats 4000000 in
theorem hF8 (c : Dev nD) (w : Fin cfg8.W) : (dat8 (rd (X21 m)) c).arrAt w cfg8.N = rd (X22 m) c (Pipeline.arrRef spec8 w) := by
  match w with
  | ⟨0, _⟩ => exact arrAt_kept (dat8 (rd (X21 m)) c) (X21 m) main_v94 _ 0 rfl (A_eq8 _ c 0) (by decide)
  | ⟨1, _⟩ => exact arrAt_kept (dat8 (rd (X21 m)) c) (X21 m) main_v94 _ 1 rfl (A_eq8 _ c 1) (by decide)
  | ⟨2, _⟩ => exact arrAt_kept (dat8 (rd (X21 m)) c) (X21 m) main_v94 _ 2 rfl (A_eq8 _ c 2) (by decide)
  | ⟨3, _⟩ => exact arrAt_kept (dat8 (rd (X21 m)) c) (X21 m) main_v94 _ 3 rfl (A_eq8 _ c 3) (by decide)
  | ⟨4, _⟩ => exact arrAt_kept (dat8 (rd (X21 m)) c) (X21 m) main_v94 _ 4 rfl (A_eq8 _ c 4) (by decide)
  | ⟨5, _⟩ => exact Eq.symm (Function.update_self _ _ _)

theorem hrest8 (c : Dev nD) (b : Ref sig .tc) (hb : b ∉ Finset.univ.image (Pipeline.arrRef spec8)) : rd (X22 m) c b = rd (X21 m) c b :=
  Function.update_of_ne (StableHlo.devRef_ne_of_ne fun e => hb (Finset.mem_image.mpr ⟨5, Finset.mem_univ _, e.symm⟩)) _ _

abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

def pdats : (p : Fin 9) → (c : Dev nD) → Dat τ (Elt F) Unit ℕ (UR sig nD τ) ℕ (cfgs p) c
  | ⟨0, _⟩ => fun c => dat0 (rd (X0 m)) c
  | ⟨1, _⟩ => fun c => dat1 (rd (X1 m)) c
  | ⟨2, _⟩ => fun c => dat2 (rd (X5 m)) c
  | ⟨3, _⟩ => fun c => dat3 (rd (X7 m)) c
  | ⟨4, _⟩ => fun c => dat4 (rd (X11 m)) c
  | ⟨5, _⟩ => fun c => dat5 (rd (X13 m)) c
  | ⟨6, _⟩ => fun c => dat6 (rd (X17 m)) c
  | ⟨7, _⟩ => fun c => dat7 (rd (X19 m)) c
  | ⟨8, _⟩ => fun c => dat8 (rd (X21 m)) c

end Cert.KernelIdeal.Hand

end
-- ==== Proof.KI.Seg.lean ====
import proofs.«406877_j20933670601167_1_alg».proof.Proof.KI.Fold
import proofs.«406877_j20933670601167_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

set_option backward.isDefEq.respectTransparency.types false in
/-- A kernel region as a segment: the core's unscoped buffers go from `Xa` to `Xb`, its arrays split out on entry and put back on exit. -/
def regSeg (p : Fin 9) (lf : Pipeline.LaunchFacts (nD := nD) (τ := τ) cfgs p) (Xa Xb : Dev nD → Valuation τ sig (Elt F))
    (hbody : ∀ c, BodyObligation (pdats m p c) (defs₀ (F := F)) Variants.none () Set.univ)
    (howed : ∀ c t, (pdats m p c).owed t = 0 := by exact fun _ _ => rfl) (hq : ∀ c w, (pdats m p c).q w = fullShare := by exact fun _ _ => rfl)
    (hrec : ∀ c, (pdats m p c).recorded 0 = Set.univ := by exact fun _ => rfl)
    (hA : ∀ c w, (pdats m p c).A w = rd Xa c (Pipeline.arrRef (cfgs p).spec w) := by exact fun _ _ => rfl)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl)
    (hF : ∀ c w, (pdats m p c).arrAt w (cfgs p).N = rd Xb c (Pipeline.arrRef (cfgs p).spec w))
    (hrest : ∀ c b, b ∉ Finset.univ.image (Pipeline.arrRef (cfgs p).spec) → rd Xb c b = rd Xa c b) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xa c) ∗ R c)
  post c := iprop(StableHlo.held (c : Thread nD τ) (Pipeline.ucRefs τ sig) (Xb c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Xa c)
  hentry c := by
    rw [Pipeline.ownSems0_none]
    have hsplit := Pipeline.arrays_of_unscopedBufs (p := p) (pcfgs (F := F)) adm (pdats m) lf.win lf.arr_whole c
      ((pdats m p c).share_full (hq c)) (rd Xa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Xa c) (rd Xb c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Hand

end
-- ==== Proof.KI.Run.lean ====
import proofs.«406877_j20933670601167_1_alg».proof.Proof.KI.Seg
import proofs.«406877_j20933670601167_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev E : Fin 10 → Dev nD → sProp 𝕄 := fun _ c => R c

theorem heldR_congr (c : Dev nD) {A B : Valuation τ sig (Elt F)} (h : A = B) :
    iprop(StableHlo.held (c : Thread nD τ) (Pipeline.ucRefs τ sig) A ∗ R (F := F) c)
      ⊢ iprop(StableHlo.held (c : Thread nD τ) (Pipeline.ucRefs τ sig) B ∗ R (F := F) c) := by rw [h]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (V23 m (outs m) c) ∗ ∃ r, prngReg c r)

theorem lastStep (c : Dev nD) : iprop(StableHlo.held (c : Thread nD τ) (Pipeline.ucRefs τ sig) (V23 m (outs m) c) ∗ R (F := F) c)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg0 := regSeg m 0 launch0 (X0 m) (X1 m) (body_obligation0 (rd (X0 m))) (hF := hF0 m) (hrest := hrest0 m)
set_option backward.isDefEq.respectTransparency.types false in
def reg1 := regSeg m 1 launch1 (X1 m) (X2 m) (body_obligation1 (rd (X1 m))) (hF := hF1 m) (hrest := hrest1 m)
set_option backward.isDefEq.respectTransparency.types false in
def reg2 := regSeg m 2 launch2 (X5 m) (X6 m) (body_obligation2 (rd (X5 m))) (hF := hF2 m) (hrest := hrest2 m)
set_option backward.isDefEq.respectTransparency.types false in
def reg3 := regSeg m 3 launch3 (X7 m) (X8 m) (body_obligation3 (rd (X7 m))) (hF := hF3 m) (hrest := hrest3 m)
set_option backward.isDefEq.respectTransparency.types false in
def reg4 := regSeg m 4 launch4 (X11 m) (X12 m) (body_obligation4 (rd (X11 m))) (hF := hF4 m) (hrest := hrest4 m)
set_option backward.isDefEq.respectTransparency.types false in
def reg5 := regSeg m 5 launch5 (X13 m) (X14 m) (body_obligation5 (rd (X13 m))) (hF := hF5 m) (hrest := hrest5 m)
set_option backward.isDefEq.respectTransparency.types false in
def reg6 := regSeg m 6 launch6 (X17 m) (X18 m) (body_obligation6 (rd (X17 m))) (hF := hF6 m) (hrest := hrest6 m)
set_option backward.isDefEq.respectTransparency.types false in
def reg7 := regSeg m 7 launch7 (X19 m) (X20 m) (body_obligation7 (rd (X19 m))) (hF := hF7 m) (hrest := hrest7 m)
set_option backward.isDefEq.respectTransparency.types false in
def reg8 := regSeg m 8 launch8 (X21 m) (X22 m) (body_obligation8 (rd (X21 m))) (hF := hF8 m) (hrest := hrest8 m) (hin := hin8 (rd (X21 m))) (hout := hout8 (rd (X21 m)))

/-- @main as its list of segments, each region taken from the chain's contents before it to those after it. -/
abbrev theSegs := segs m (outs m) 𝒱₀ L lv (E (F := F)) () (pdats m)
  (reg0 m) (reg1 m) (reg2 m) (reg3 m) (reg4 m) (reg5 m) (reg6 m) (reg7 m) (reg8 m)

set_option backward.isDefEq.respectTransparency.types false in
/-- Every weakly fair execution of @main terminates without fault with each unscoped buffer at the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V23 m (outs m) c b) := by
  refine Pipeline.θ_run_regions_kit_dev (pcfgs (F := F)) adm (pdats m) () cellOf_inj emb₁ defs₀ 𝒱₀ L lv m ρ main (theSegs m)
    (fun c Q => by
      rewrite [main_chain c, Seg.run_eq_chain,
        show (theSegs m c).map Seg.prog = [
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := fun c => ⟨.rfl, .rfl, heldR_congr c (V2_eq m c).symm, .rfl, .rfl, heldR_congr c (V5_eq m c), heldR_congr c (V6_eq m c).symm, heldR_congr c (V7_eq m c), heldR_congr c (V8_eq m c).symm, .rfl, .rfl, heldR_congr c (V11_eq m c), heldR_congr c (V12_eq m c).symm, heldR_congr c (V13_eq m c), heldR_congr c (V14_eq m c).symm, .rfl, .rfl, heldR_congr c (V17_eq m c), heldR_congr c (V18_eq m c).symm, heldR_congr c (V19_eq m c), heldR_congr c (V20_eq m c).symm, heldR_congr c (V21_eq m c), heldR_congr c (V22_eq m c).symm, lastStep m c⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V23 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V23 m (outs m) c) s')
      isplitl [Hh] <;> iassumption)
    (hQ := fun _ h => h)

end Cert.KernelIdeal.Hand

end
-- ==== Proof.KI.Frame.lean ====
import proofs.«406877_j20933670601167_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ) (ρ : Dev nD → PrngReg)

/-- The run with the result buffer named: it ends at the chain's value, and no item of @main writes an argument. -/
theorem run_named : θ_run defs (onTc (τ := τ) (main (F := F))) ⟨m, fun _ => 0, ρ⟩ (fun r => ∀ c : Dev nD,
      r.2.mem ((c.tc : Thread nD τ).loc main_v106) = X23 m c main_v106
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v106 (by decide))).trans (congrFun (V23_eq m c) _),
      (h c _ (mem_uc main_arg0 (by decide))).trans (V23_main_arg0 m (outs m) c),
      (h c _ (mem_uc main_arg1 (by decide))).trans (V23_main_arg1 m (outs m) c),
      (h c _ (mem_uc main_arg2 (by decide))).trans (V23_main_arg2 m (outs m) c),
      (h c _ (mem_uc main_arg3 (by decide))).trans (V23_main_arg3 m (outs m) c),
      (h c _ (mem_uc main_arg4 (by decide))).trans (V23_main_arg4 m (outs m) c),
      (h c _ (mem_uc main_arg5 (by decide))).trans (V23_main_arg5 m (outs m) c),
      (h c _ (mem_uc main_arg6 (by decide))).trans (V23_main_arg6 m (outs m) c),
      (h c _ (mem_uc main_arg7 (by decide))).trans (V23_main_arg7 m (outs m) c),
      (h c _ (mem_uc main_arg8 (by decide))).trans (V23_main_arg8 m (outs m) c),
      (h c _ (mem_uc main_arg9 (by decide))).trans (V23_main_arg9 m (outs m) c),
      (h c _ (mem_uc main_arg10 (by decide))).trans (V23_main_arg10 m (outs m) c),
      (h c _ (mem_uc main_arg11 (by decide))).trans (V23_main_arg11 m (outs m) c),
      (h c _ (mem_uc main_arg12 (by decide))).trans (V23_main_arg12 m (outs m) c),
      (h c _ (mem_uc main_arg13 (by decide))).trans (V23_main_arg13 m (outs m) c),
      (h c _ (mem_uc main_arg14 (by decide))).trans (V23_main_arg14 m (outs m) c),
      (h c _ (mem_uc main_arg15 (by decide))).trans (V23_main_arg15 m (outs m) c),
      (h c _ (mem_uc main_arg16 (by decide))).trans (V23_main_arg16 m (outs m) c),
      (h c _ (mem_uc main_arg17 (by decide))).trans (V23_main_arg17 m (outs m) c),
      (h c _ (mem_uc main_arg18 (by decide))).trans (V23_main_arg18 m (outs m) c),
      (h c _ (mem_uc main_arg19 (by decide))).trans (V23_main_arg19 m (outs m) c),
      (h c _ (mem_uc main_arg20 (by decide))).trans (V23_main_arg20 m (outs m) c),
      (h c _ (mem_uc main_arg21 (by decide))).trans (V23_main_arg21 m (outs m) c)⟩) (run_all m ρ)

end Cert.KernelIdeal.Hand

end
-- ==== Proof.KI.Keep.lean ====
import proofs.«406877_j20933670601167_1_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ) (c : Dev nD) (r : Ref sig .tc)

-- each item of the program leaves unchanged every array it does not write
theorem keep1 (h : r ∉ ([main_v0] : List (Ref sig .tc))) : X1 m c r = X0 m c r := by
  rw [← V1_eq, ← V0_eq]; exact V1_of m (outs m) c r h
theorem keep2 (h : r ∉ ([main_v1] : List (Ref sig .tc))) : X2 m c r = X1 m c r := by
  rw [← V2_eq, ← V1_eq]; exact V2_of m (outs m) c r h
theorem keep3 (h : r ∉ hostOps2_W) : X3 m c r = X2 m c r := by
  rw [← V3_eq, ← V2_eq]; exact V3_of m (outs m) c r h
theorem keep4 (h : r ∉ hostOps2_1_W) : X4 m c r = X3 m c r := by
  rw [← V4_eq, ← V3_eq]; exact V4_of m (outs m) c r h
theorem keep5 (h : r ∉ hostOps2_2_W) : X5 m c r = X4 m c r := by
  rw [← V5_eq, ← V4_eq]; exact V5_of m (outs m) c r h
theorem keep6 (h : r ∉ ([main_v17] : List (Ref sig .tc))) : X6 m c r = X5 m c r := by
  rw [← V6_eq, ← V5_eq]; exact V6_of m (outs m) c r h
theorem keep7 (h : r ∉ hostOps3_W) : X7 m c r = X6 m c r := by
  rw [← V7_eq, ← V6_eq]; exact V7_of m (outs m) c r h
theorem keep8 (h : r ∉ ([main_v31] : List (Ref sig .tc))) : X8 m c r = X7 m c r := by
  rw [← V8_eq, ← V7_eq]; exact V8_of m (outs m) c r h
theorem keep9 (h : r ∉ hostOps4_W) : X9 m c r = X8 m c r := by
  rw [← V9_eq, ← V8_eq]; exact V9_of m (outs m) c r h
theorem keep10 (h : r ∉ hostOps4_1_W) : X10 m c r = X9 m c r := by
  rw [← V10_eq, ← V9_eq]; exact V10_of m (outs m) c r h
theorem keep11 (h : r ∉ hostOps4_2_W) : X11 m c r = X10 m c r := by
  rw [← V11_eq, ← V10_eq]; exact V11_of m (outs m) c r h
theorem keep12 (h : r ∉ ([main_v47] : List (Ref sig .tc))) : X12 m c r = X11 m c r := by
  rw [← V12_eq, ← V11_eq]; exact V12_of m (outs m) c r h
theorem keep13 (h : r ∉ hostOps5_W) : X13 m c r = X12 m c r := by
  rw [← V13_eq, ← V12_eq]; exact V13_of m (outs m) c r h
theorem keep14 (h : r ∉ ([main_v61] : List (Ref sig .tc))) : X14 m c r = X13 m c r := by
  rw [← V14_eq, ← V13_eq]; exact V14_of m (outs m) c r h
theorem keep15 (h : r ∉ hostOps6_W) : X15 m c r = X14 m c r := by
  rw [← V15_eq, ← V14_eq]; exact V15_of m (outs m) c r h
theorem keep16 (h : r ∉ hostOps6_1_W) : X16 m c r = X15 m c r := by
  rw [← V16_eq, ← V15_eq]; exact V16_of m (outs m) c r h
theorem keep17 (h : r ∉ hostOps6_2_W) : X17 m c r = X16 m c r := by
  rw [← V17_eq, ← V16_eq]; exact V17_of m (outs m) c r h
theorem keep18 (h : r ∉ ([main_v77] : List (Ref sig .tc))) : X18 m c r = X17 m c r := by
  rw [← V18_eq, ← V17_eq]; exact V18_of m (outs m) c r h
theorem keep19 (h : r ∉ hostOps7_W) : X19 m c r = X18 m c r := by
  rw [← V19_eq, ← V18_eq]; exact V19_of m (outs m) c r h
theorem keep20 (h : r ∉ ([main_v91] : List (Ref sig .tc))) : X20 m c r = X19 m c r := by
  rw [← V20_eq, ← V19_eq]; exact V20_of m (outs m) c r h
theorem keep21 (h : r ∉ hostOps8_W) : X21 m c r = X20 m c r := by
  rw [← V21_eq, ← V20_eq]; exact V21_of m (outs m) c r h
theorem keep22 (h : r ∉ ([main_v94] : List (Ref sig .tc))) : X22 m c r = X21 m c r := by
  rw [← V22_eq, ← V21_eq]; exact V22_of m (outs m) c r h
theorem keep23 (h : r ∉ hostOps9_W) : X23 m c r = X22 m c r := by
  rw [← V23_eq, ← V22_eq]; exact V23_of m (outs m) c r h

end Cert.KernelIdeal.Hand

end
-- ==== Proof.RefStages.lean ====
import proofs.«406877_j20933670601167_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

def rTake (h : FVec F S50000x128 .f32) (idx : IVec S500000 32) : FVec F S500000x128 .f32 :=
  Host.gather gather_S50000x128_S500000x1_S500000x128_1_0_n_n_0_1_1128 h (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx))

def rMsg (hd hs e : FVec F S500000x128 .f32) (Wv Ww We : FVec F S128x128 .f32) (ct : FVec F S1x128 .f32) : FVec F S500000x128 .f32 :=
  addf (addf (addf (Host.dotGeneral dot_S500000x128_S128x128_S500000x128_1_0_0_1_n_n none hd Wv) (Host.dotGeneral dot_S500000x128_S128x128_S500000x128_1_0_0_1_n_n none hs Ww)) (Host.dotGeneral dot_S500000x128_S128x128_S500000x128_1_0_0_1_n_n none e We)) (broadcastInDim S500000x128 ![0, 1] bcast_S1x128_S500000x128_0_1 ct)

def rScatter (idx21 : IVec S500000 32) (u : FVec F S500000x128 .f32) : FVec F S50000x128 .f32 :=
  Host.scatterAdd scatter_S50000x128_S500000x1_S500000x128_1_0_0_1 (broadcastInDim S50000x128 ![] bcast_S_S50000x128 (constant S_ .f32 0x00000000#32)) (broadcastInDim S500000x1 ![0] bcast_S500000_S500000x1_0 idx21) u

def rOne : FVec F S50000x128 .f32 :=
  broadcastInDim S50000x128 ![] bcast_S_S50000x128 (constant S_ .f32 0x3F800000#32)

def rSigm (a b : FVec F S50000x128 .f32) : FVec F S50000x128 .f32 :=
  Host.divf rOne (addf rOne (Host.exp (Host.negf (addf a b))))

def rGruOf (gi gh : FVec F S50000x384 .f32) (h : FVec F S50000x128 .f32) : FVec F S50000x128 .f32 :=
  addf (mulf (subf rOne (rSigm (extractStridedSlice S50000x128 ![0, 128] gi slices_S50000x384_S50000x128_0_128) (extractStridedSlice S50000x128 ![0, 128] gh slices_S50000x384_S50000x128_0_128))) (Host.tanh (addf (extractStridedSlice S50000x128 ![0, 256] gi slices_S50000x384_S50000x128_0_256) (mulf (rSigm (extractStridedSlice S50000x128 ![0, 0] gi slices_S50000x384_S50000x128_0_0) (extractStridedSlice S50000x128 ![0, 0] gh slices_S50000x384_S50000x128_0_0)) (extractStridedSlice S50000x128 ![0, 256] gh slices_S50000x384_S50000x128_0_256))))) (mulf (rSigm (extractStridedSlice S50000x128 ![0, 128] gi slices_S50000x384_S50000x128_0_128) (extractStridedSlice S50000x128 ![0, 128] gh slices_S50000x384_S50000x128_0_128)) h)

def rGi (m : FVec F S50000x128 .f32) (Wih : FVec F S128x384 .f32) (bihB : FVec F S50000x384 .f32) : FVec F S50000x384 .f32 :=
  addf (Host.dotGeneral dot_S50000x128_S128x384_S50000x384_1_0_0_1_n_n none m Wih) bihB

def rGru (m h : FVec F S50000x128 .f32) (Wih Whh : FVec F S128x384 .f32) (bihB bhhB : FVec F S50000x384 .f32) : FVec F S50000x128 .f32 :=
  rGruOf (rGi m Wih bihB) (rGi h Whh bhhB) h

def rReadout (h : FVec F S50000x128 .f32) (W1 W2 : FVec F S128x128 .f32) (b1B b2B : FVec F S50000x128 .f32) : FVec F S1x128 .f32 :=
  Host.divf (broadcastInDim S1x128 ![1] bcast_S128_S1x128_1 (Host.reduceAdd (mulf (addf (Host.dotGeneral dot_S50000x128_S128x128_S50000x128_1_0_0_1_n_n none h W1) b1B) (rSigm (Host.dotGeneral dot_S50000x128_S128x128_S50000x128_1_0_0_1_n_n none h W2) b2B)) (constant S_ .f32 0x00000000#32) reducesTo_S50000x128_S128_d0 h_S_)) (broadcastInDim S1x128 ![] bcast_S_S1x128 (constant S_ .f32 0x47435000#32))

def rBlock (W : FVec F S3x388x128 .f32) (k r : Nat) (hs : S3x388x128.Slices ![k, r, 0] S1x128x128) : FVec F S128x128 .f32 :=
  shapeCast _ (extractStridedSlice S1x128x128 ![k, r, 0] W hs) shapeCasts_S1x128x128_S128x128

def rCond (c : FVec F S1x4 .f32) (W : FVec F S3x388x128 .f32) (b : FVec F S3x128 .f32) (k : Nat)
    (hs1 : S3x388x128.Slices ![k, 384, 0] S1x4x128) (hs2 : S3x128.Slices ![k, 0] S1x128) : FVec F S1x128 .f32 :=
  addf (Host.dotGeneral dot_S1x4_S4x128_S1x128_1_0_0_1_n_n none c (shapeCast _ (extractStridedSlice S1x4x128 ![k, 384, 0] W hs1) shapeCasts_S1x4x128_S4x128)) (broadcastInDim S1x128 ![1] bcast_S128_S1x128_1 (shapeCast _ (extractStridedSlice S1x128 ![k, 0] b hs2) shapeCasts_S1x128_S128))

def rGateW (W : FVec F S3x128x384 .f32) (k : Nat) (hs : S3x128x384.Slices ![k, 0, 0] S1x128x384) : FVec F S128x384 .f32 :=
  shapeCast _ (extractStridedSlice S1x128x384 ![k, 0, 0] W hs) shapeCasts_S1x128x384_S128x384

def rGateB (b : FVec F S3x384 .f32) (k : Nat) (hs : S3x384.Slices ![k, 0] S1x384) : FVec F S50000x384 .f32 :=
  broadcastInDim S50000x384 ![0, 1] bcast_S1x384_S50000x384_0_1 (broadcastInDim S1x384 ![1] bcast_S384_S1x384_1 (shapeCast _ (extractStridedSlice S1x384 ![k, 0] b hs) shapeCasts_S1x384_S384))

def rRowB (b : FVec F S128 .f32) : FVec F S50000x128 .f32 :=
  broadcastInDim S50000x128 ![0, 1] bcast_S1x128_S50000x128_0_1 (broadcastInDim S1x128 ![1] bcast_S128_S1x128_1 b)

def rWv0 (V0 : Valuation τ sig (Elt F)) : FVec F S128x128 .f32 :=
  rBlock (V0 (Proc.devRef .tc main_arg6)) 0 0 slices_S3x388x128_S1x128x128_0_0_0
def rWw0 (V0 : Valuation τ sig (Elt F)) : FVec F S128x128 .f32 :=
  rBlock (V0 (Proc.devRef .tc main_arg6)) 0 128 slices_S3x388x128_S1x128x128_0_128_0
def rWe0 (V0 : Valuation τ sig (Elt F)) : FVec F S128x128 .f32 :=
  rBlock (V0 (Proc.devRef .tc main_arg6)) 0 256 slices_S3x388x128_S1x128x128_0_256_0
def rCt0 (V0 : Valuation τ sig (Elt F)) : FVec F S1x128 .f32 :=
  rCond (V0 (Proc.devRef .tc main_arg2)) (V0 (Proc.devRef .tc main_arg6)) (V0 (Proc.devRef .tc main_arg7)) 0 slices_S3x388x128_S1x4x128_0_384_0 slices_S3x128_S1x128_0_0
def rWih0 (V0 : Valuation τ sig (Elt F)) : FVec F S128x384 .f32 :=
  rGateW (V0 (Proc.devRef .tc main_arg8)) 0 slices_S3x128x384_S1x128x384_0_0_0
def rWhh0 (V0 : Valuation τ sig (Elt F)) : FVec F S128x384 .f32 :=
  rGateW (V0 (Proc.devRef .tc main_arg9)) 0 slices_S3x128x384_S1x128x384_0_0_0
def rBih0 (V0 : Valuation τ sig (Elt F)) : FVec F S50000x384 .f32 :=
  rGateB (V0 (Proc.devRef .tc main_arg10)) 0 slices_S3x384_S1x384_0_0
def rBhh0 (V0 : Valuation τ sig (Elt F)) : FVec F S50000x384 .f32 :=
  rGateB (V0 (Proc.devRef .tc main_arg11)) 0 slices_S3x384_S1x384_0_0

def rWv1 (V0 : Valuation τ sig (Elt F)) : FVec F S128x128 .f32 :=
  rBlock (V0 (Proc.devRef .tc main_arg6)) 1 0 slices_S3x388x128_S1x128x128_1_0_0
def rWw1 (V0 : Valuation τ sig (Elt F)) : FVec F S128x128 .f32 :=
  rBlock (V0 (Proc.devRef .tc main_arg6)) 1 128 slices_S3x388x128_S1x128x128_1_128_0
def rWe1 (V0 : Valuation τ sig (Elt F)) : FVec F S128x128 .f32 :=
  rBlock (V0 (Proc.devRef .tc main_arg6)) 1 256 slices_S3x388x128_S1x128x128_1_256_0
def rCt1 (V0 : Valuation τ sig (Elt F)) : FVec F S1x128 .f32 :=
  rCond (V0 (Proc.devRef .tc main_arg2)) (V0 (Proc.devRef .tc main_arg6)) (V0 (Proc.devRef .tc main_arg7)) 1 slices_S3x388x128_S1x4x128_1_384_0 slices_S3x128_S1x128_1_0
def rWih1 (V0 : Valuation τ sig (Elt F)) : FVec F S128x384 .f32 :=
  rGateW (V0 (Proc.devRef .tc main_arg8)) 1 slices_S3x128x384_S1x128x384_1_0_0
def rWhh1 (V0 : Valuation τ sig (Elt F)) : FVec F S128x384 .f32 :=
  rGateW (V0 (Proc.devRef .tc main_arg9)) 1 slices_S3x128x384_S1x128x384_1_0_0
def rBih1 (V0 : Valuation τ sig (Elt F)) : FVec F S50000x384 .f32 :=
  rGateB (V0 (Proc.devRef .tc main_arg10)) 1 slices_S3x384_S1x384_1_0
def rBhh1 (V0 : Valuation τ sig (Elt F)) : FVec F S50000x384 .f32 :=
  rGateB (V0 (Proc.devRef .tc main_arg11)) 1 slices_S3x384_S1x384_1_0

def rWv2 (V0 : Valuation τ sig (Elt F)) : FVec F S128x128 .f32 :=
  rBlock (V0 (Proc.devRef .tc main_arg6)) 2 0 slices_S3x388x128_S1x128x128_2_0_0
def rWw2 (V0 : Valuation τ sig (Elt F)) : FVec F S128x128 .f32 :=
  rBlock (V0 (Proc.devRef .tc main_arg6)) 2 128 slices_S3x388x128_S1x128x128_2_128_0
def rWe2 (V0 : Valuation τ sig (Elt F)) : FVec F S128x128 .f32 :=
  rBlock (V0 (Proc.devRef .tc main_arg6)) 2 256 slices_S3x388x128_S1x128x128_2_256_0
def rCt2 (V0 : Valuation τ sig (Elt F)) : FVec F S1x128 .f32 :=
  rCond (V0 (Proc.devRef .tc main_arg2)) (V0 (Proc.devRef .tc main_arg6)) (V0 (Proc.devRef .tc main_arg7)) 2 slices_S3x388x128_S1x4x128_2_384_0 slices_S3x128_S1x128_2_0
def rWih2 (V0 : Valuation τ sig (Elt F)) : FVec F S128x384 .f32 :=
  rGateW (V0 (Proc.devRef .tc main_arg8)) 2 slices_S3x128x384_S1x128x384_2_0_0
def rWhh2 (V0 : Valuation τ sig (Elt F)) : FVec F S128x384 .f32 :=
  rGateW (V0 (Proc.devRef .tc main_arg9)) 2 slices_S3x128x384_S1x128x384_2_0_0
def rBih2 (V0 : Valuation τ sig (Elt F)) : FVec F S50000x384 .f32 :=
  rGateB (V0 (Proc.devRef .tc main_arg10)) 2 slices_S3x384_S1x384_2_0
def rBhh2 (V0 : Valuation τ sig (Elt F)) : FVec F S50000x384 .f32 :=
  rGateB (V0 (Proc.devRef .tc main_arg11)) 2 slices_S3x384_S1x384_2_0

def rB1 (V0 : Valuation τ sig (Elt F)) : FVec F S50000x128 .f32 := rRowB (V0 (Proc.devRef .tc main_arg13))
def rB2 (V0 : Valuation τ sig (Elt F)) : FVec F S50000x128 .f32 := rRowB (V0 (Proc.devRef .tc main_arg15))

set_option maxRecDepth 8192 in
theorem res_v82_eq (V0 : Valuation τ sig (Elt F)) :
    res_main_v82 V0 = rGru (rScatter (V0 (Proc.devRef .tc main_arg21)) (rMsg (rTake (res_main_v0 V0) (V0 (Proc.devRef .tc main_arg21))) (rTake (res_main_v0 V0) (V0 (Proc.devRef .tc main_arg20))) (res_main_v1 V0) (rWv0 V0) (rWw0 V0) (rWe0 V0) (rCt0 V0))) (res_main_v0 V0) (rWih0 V0) (rWhh0 V0) (rBih0 V0) (rBhh0 V0) := by
  rfl

set_option maxRecDepth 8192 in
theorem res_v163_eq (V0 : Valuation τ sig (Elt F)) :
    res_main_v163 V0 = rGru (rScatter (V0 (Proc.devRef .tc main_arg21)) (rMsg (rTake (res_main_v82 V0) (V0 (Proc.devRef .tc main_arg21))) (rTake (res_main_v82 V0) (V0 (Proc.devRef .tc main_arg20))) (res_main_v1 V0) (rWv1 V0) (rWw1 V0) (rWe1 V0) (rCt1 V0))) (res_main_v82 V0) (rWih1 V0) (rWhh1 V0) (rBih1 V0) (rBhh1 V0) := by
  rfl

set_option maxRecDepth 8192 in
theorem res_v244_eq (V0 : Valuation τ sig (Elt F)) :
    res_main_v244 V0 = rGru (rScatter (V0 (Proc.devRef .tc main_arg21)) (rMsg (rTake (res_main_v163 V0) (V0 (Proc.devRef .tc main_arg21))) (rTake (res_main_v163 V0) (V0 (Proc.devRef .tc main_arg20))) (res_main_v1 V0) (rWv2 V0) (rWw2 V0) (rWe2 V0) (rCt2 V0))) (res_main_v163 V0) (rWih2 V0) (rWhh2 V0) (rBih2 V0) (rBhh2 V0) := by
  rfl

set_option maxRecDepth 8192 in
theorem res_v263_eq (V0 : Valuation τ sig (Elt F)) :
    res_main_v263 V0 = rReadout (res_main_v244 V0) (V0 (Proc.devRef .tc main_arg12)) (V0 (Proc.devRef .tc main_arg14)) (rB1 V0) (rB2 V0) := by
  rfl

end Cert.ReferenceIdeal.RefValue

end
-- ==== Proof.Bridge.Ctx.lean ====
import proofs.«406877_j20933670601167_1_alg».proof.Proof.KI.Keep
import proofs.«406877_j20933670601167_1_alg».proof.Proof.RefStages

noncomputable section

namespace Cert.Proof.Bridge

open Idealize.ShloMosaic Idealize.ShloMosaic.TcCoe Idealize.SL.Sem

abbrev KMem := (ℓ : Loc Cert.KernelIdeal.nD Cert.KernelIdeal.τ Cert.KernelIdeal.sig) → Buf (Elt Ideal) ℓ
abbrev RVal := Valuation Cert.ReferenceIdeal.τ Cert.ReferenceIdeal.sig (Elt Ideal)

/-- The reference's launch contents agree with the kernel program's memory on every argument, and both index arrays hold node numbers. -/
structure Agree (m : KMem) (c : Dev Cert.KernelIdeal.nD) (V0 : RVal) : Prop where
  a0 : @Eq (Cert.KernelIdeal.S50000x14.Idx → EReal) (V0 (Proc.devRef .tc Cert.ReferenceIdeal.main_arg0)) (Cert.KernelIdeal.Hand.X0 m c (Proc.devRef .tc Cert.KernelIdeal.main_arg0))
  a1 : @Eq (Cert.KernelIdeal.S500000x11.Idx → EReal) (V0 (Proc.devRef .tc Cert.ReferenceIdeal.main_arg1)) (Cert.KernelIdeal.Hand.X0 m c (Proc.devRef .tc Cert.KernelIdeal.main_arg1))
  a2 : @Eq (Cert.KernelIdeal.S1x4.Idx → EReal) (V0 (Proc.devRef .tc Cert.ReferenceIdeal.main_arg2)) (Cert.KernelIdeal.Hand.X0 m c (Proc.devRef .tc Cert.KernelIdeal.main_arg2))
  a3 : @Eq (Cert.KernelIdeal.S1x128.Idx → EReal) (V0 (Proc.devRef .tc Cert.ReferenceIdeal.main_arg3)) (Cert.KernelIdeal.Hand.X0 m c (Proc.devRef .tc Cert.KernelIdeal.main_arg3))
  a4 : @Eq (Cert.KernelIdeal.S14x128.Idx → EReal) (V0 (Proc.devRef .tc Cert.ReferenceIdeal.main_arg4)) (Cert.KernelIdeal.Hand.X0 m c (Proc.devRef .tc Cert.KernelIdeal.main_arg4))
  a5 : @Eq (Cert.KernelIdeal.S11x128.Idx → EReal) (V0 (Proc.devRef .tc Cert.ReferenceIdeal.main_arg5)) (Cert.KernelIdeal.Hand.X0 m c (Proc.devRef .tc Cert.KernelIdeal.main_arg5))
  a6 : @Eq (Cert.KernelIdeal.S3x388x128.Idx → EReal) (V0 (Proc.devRef .tc Cert.ReferenceIdeal.main_arg6)) (Cert.KernelIdeal.Hand.X0 m c (Proc.devRef .tc Cert.KernelIdeal.main_arg6))
  a7 : @Eq (Cert.KernelIdeal.S3x128.Idx → EReal) (V0 (Proc.devRef .tc Cert.ReferenceIdeal.main_arg7)) (Cert.KernelIdeal.Hand.X0 m c (Proc.devRef .tc Cert.KernelIdeal.main_arg7))
  a8 : @Eq (Cert.KernelIdeal.S3x128x384.Idx → EReal) (V0 (Proc.devRef .tc Cert.ReferenceIdeal.main_arg8)) (Cert.KernelIdeal.Hand.X0 m c (Proc.devRef .tc Cert.KernelIdeal.main_arg8))
  a9 : @Eq (Cert.KernelIdeal.S3x128x384.Idx → EReal) (V0 (Proc.devRef .tc Cert.ReferenceIdeal.main_arg9)) (Cert.KernelIdeal.Hand.X0 m c (Proc.devRef .tc Cert.KernelIdeal.main_arg9))
  a10 : @Eq (Cert.KernelIdeal.S3x384.Idx → EReal) (V0 (Proc.devRef .tc Cert.ReferenceIdeal.main_arg10)) (Cert.KernelIdeal.Hand.X0 m c (Proc.devRef .tc Cert.KernelIdeal.main_arg10))
  a11 : @Eq (Cert.KernelIdeal.S3x384.Idx → EReal) (V0 (Proc.devRef .tc Cert.ReferenceIdeal.main_arg11)) (Cert.KernelIdeal.Hand.X0 m c (Proc.devRef .tc Cert.KernelIdeal.main_arg11))
  a12 : @Eq (Cert.KernelIdeal.S128x128.Idx → EReal) (V0 (Proc.devRef .tc Cert.ReferenceIdeal.main_arg12)) (Cert.KernelIdeal.Hand.X0 m c (Proc.devRef .tc Cert.KernelIdeal.main_arg12))
  a13 : @Eq (Cert.KernelIdeal.S128.Idx → EReal) (V0 (Proc.devRef .tc Cert.ReferenceIdeal.main_arg13)) (Cert.KernelIdeal.Hand.X0 m c (Proc.devRef .tc Cert.KernelIdeal.main_arg13))
  a14 : @Eq (Cert.KernelIdeal.S128x128.Idx → EReal) (V0 (Proc.devRef .tc Cert.ReferenceIdeal.main_arg14)) (Cert.KernelIdeal.Hand.X0 m c (Proc.devRef .tc Cert.KernelIdeal.main_arg14))
  a15 : @Eq (Cert.KernelIdeal.S128.Idx → EReal) (V0 (Proc.devRef .tc Cert.ReferenceIdeal.main_arg15)) (Cert.KernelIdeal.Hand.X0 m c (Proc.devRef .tc Cert.KernelIdeal.main_arg15))
  a16 : @Eq (Cert.KernelIdeal.S128x128.Idx → EReal) (V0 (Proc.devRef .tc Cert.ReferenceIdeal.main_arg16)) (Cert.KernelIdeal.Hand.X0 m c (Proc.devRef .tc Cert.KernelIdeal.main_arg16))
  a17 : @Eq (Cert.KernelIdeal.S128.Idx → EReal) (V0 (Proc.devRef .tc Cert.ReferenceIdeal.main_arg17)) (Cert.KernelIdeal.Hand.X0 m c (Proc.devRef .tc Cert.KernelIdeal.main_arg17))
  a18 : @Eq (Cert.KernelIdeal.S128x128.Idx → EReal) (V0 (Proc.devRef .tc Cert.ReferenceIdeal.main_arg18)) (Cert.KernelIdeal.Hand.X0 m c (Proc.devRef .tc Cert.KernelIdeal.main_arg18))
  a19 : @Eq (Cert.KernelIdeal.S128.Idx → EReal) (V0 (Proc.devRef .tc Cert.ReferenceIdeal.main_arg19)) (Cert.KernelIdeal.Hand.X0 m c (Proc.devRef .tc Cert.KernelIdeal.main_arg19))
  a20 : @Eq (IVec Cert.KernelIdeal.S500000 32) (V0 (Proc.devRef .tc Cert.ReferenceIdeal.main_arg20)) (Cert.KernelIdeal.Hand.X0 m c (Proc.devRef .tc Cert.KernelIdeal.main_arg20))
  a21 : @Eq (IVec Cert.KernelIdeal.S500000 32) (V0 (Proc.devRef .tc Cert.ReferenceIdeal.main_arg21)) (Cert.KernelIdeal.Hand.X0 m c (Proc.devRef .tc Cert.KernelIdeal.main_arg21))
  r20 : ∀ e : Cert.KernelIdeal.S500000.Idx, 0 ≤ ((Cert.KernelIdeal.Hand.X0 m c (Proc.devRef .tc Cert.KernelIdeal.main_arg20) : IVec Cert.KernelIdeal.S500000 32) e).toInt
      ∧ ((Cert.KernelIdeal.Hand.X0 m c (Proc.devRef .tc Cert.KernelIdeal.main_arg20) : IVec Cert.KernelIdeal.S500000 32) e).toInt < 50000
  r21 : ∀ e : Cert.KernelIdeal.S500000.Idx, 0 ≤ ((Cert.KernelIdeal.Hand.X0 m c (Proc.devRef .tc Cert.KernelIdeal.main_arg21) : IVec Cert.KernelIdeal.S500000 32) e).toInt
      ∧ ((Cert.KernelIdeal.Hand.X0 m c (Proc.devRef .tc Cert.KernelIdeal.main_arg21) : IVec Cert.KernelIdeal.S500000 32) e).toInt < 50000

end Cert.Proof.Bridge

end
-- ==== Proof.LibPlainDot.lean ====
import Idealize.ShloMosaic.PureOps.Dims
import Idealize.ShloMosaic.Lib.ValueIdx

namespace PlainDot

open Idealize.ShloMosaic Idealize.ShloMosaic.ValueIdx

variable {R K C : Nat}

private theorem coord_val_congr {s : Shape} (j : s.Idx) (a b : Nat) (ha : a < s.rank) (hb : b < s.rank) (h : a = b) :
    (j ⟨a, ha⟩).val = (j ⟨b, hb⟩).val := by
  subst h; rfl

theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (d.lhsIdx_val_of_single hlc _ _).trans (contrEquiv1_symm_val d K hr hs k)

theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (d.rhsIdx_val_of_single hrc _ _).trans (contrEquiv1_symm_val d K hr hs k)
  | ⟨1, _⟩ => exact rhs_val_1 d hrb hrn hlb hln (ix2 p q) _

theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KI.Val0.lean ====
import proofs.«406877_j20933670601167_1_alg».proof.Proof.KI.Reg0
import Idealize.ShloMosaic.Lib.Pipeline.Value
import Idealize.ShloMosaic.Lib.ValueIdx
import Idealize.ShloMosaic.PureOps.Ideal.Laws
import proofs.«406877_j20933670601167_1_alg».proof.Proof.LibPlainDot

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem pay0_apply (x : Vec Ideal S10000x14 .f32) (w : Vec Ideal S14x128 .f32) (r : Fin 10000) (q : Fin 128) :
    (k0_pay1 x w : S10000x128.Idx → EReal) (ix2 r q)
      = ∑ k : Fin 14, (x : S10000x14.Idx → EReal) (ix2 r k) * (w : S14x128.Idx → EReal) (ix2 k q) := by
  unfold k0_pay1
  simp only [matmul]
  rw [Ideal.matmul_constant_zero_apply]
  exact PlainDot.sum_eq dot_S10000x14_S14x128_S10000x128_1_0_0_1_n_n rfl rfl rfl rfl rfl rfl x w r q

abbrev prod0 (A : S50000x14.Idx → EReal) (B : S14x128.Idx → EReal) : S50000x128.Idx → EReal :=
  fun i => ∑ k : Fin 14, A (ix2 (i 0) k) * B (ix2 k (i 1))

theorem zeros0 : (![0, 0] : Fin 2 → Nat) = fun _ => 0 :=
  funext fun a => by match a with | ⟨0, _⟩ => rfl | ⟨1, _⟩ => rfl

theorem idxmaps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

theorem xblk0_apply (c : Dev nD) (t : Fin cfg0.N) (y : S10000x14.Idx) (i : S50000x14.Idx)
    (h0 : (i 0).val = win0_2.index t (0 : Fin 2) * 10000 + (y 0).val) (h1 : (i 1).val = (y 1).val) :
    (iblk0 V c 0 t : Vec Ideal S10000x14 .f32) y = (V c main_arg0 : S50000x14.Idx → EReal) i := by
  obtain ⟨e0, e1, e2, e3, e4, e5⟩ := idxmaps0 t
  refine congrArg (V c main_arg0) (funext fun a => Fin.ext ?_)
  match a with
  | ⟨0, _⟩ => show win0_0.index t (0 : Fin 2) * 10000 + 1 * (y 0).val = (i 0).val; omega
  | ⟨1, _⟩ => show win0_0.index t (1 : Fin 2) * 14 + 1 * (y 1).val = (i 1).val; omega

theorem wblk0_apply (c : Dev nD) (t : Fin cfg0.N) (y : S14x128.Idx) :
    (iblk0 V c 1 t : Vec Ideal S14x128 .f32) y = (V c main_arg4 : S14x128.Idx → EReal) y := by
  obtain ⟨e0, e1, e2, e3, e4, e5⟩ := idxmaps0 t
  refine congrArg (V c main_arg4) (funext fun a => Fin.ext ?_)
  match a with
  | ⟨0, _⟩ => show win0_1.index t (0 : Fin 2) * 14 + 1 * (y 0).val = (y 0).val; omega
  | ⟨1, _⟩ => show win0_1.index t (1 : Fin 2) * 128 + 1 * (y 1).val = (y 1).val; omega

theorem pay0_eq_prod0 (c : Dev nD) (t : Fin cfg0.N) (j : S10000x128.Idx) (i : S50000x128.Idx)
    (h0 : (i 0).val = win0_2.index t (0 : Fin 2) * 10000 + (j 0).val) (h1 : (i 1).val = (j 1).val) :
    (k0_pay1 (iblk0 V c 0 t) (iblk0 V c 1 t) : S10000x128.Idx → EReal) j = prod0 (V c main_arg0) (V c main_arg4) i := by
  obtain ⟨r, q, rfl⟩ : ∃ (r : Fin 10000) (q : Fin 128), j = ix2 r q := ⟨j 0, j 1, eq_ix2 j⟩
  rw [pay0_apply]
  refine Finset.sum_congr rfl fun k _ => ?_
  rw [xblk0_apply V c t (ix2 r k) (ix2 (i 0) k) h0 rfl, wblk0_apply V c t (ix2 k q)]
  have e : q = (i 1) := Fin.ext h1.symm
  rw [e]

theorem flushed0_eq (c : Dev nD) (t : Fin cfg0.N) :
    (dat0 (F := Ideal) V c).flushed 2 t
      = ((cfg0.win 2).blk t).view.read (Elt Ideal) (prod0 (V c main_arg0) (V c main_arg4)) := by
  show (cfg0.win 2).cut (grid0.coords t) ((dat0 (F := Ideal) V c).after 2 t) = _
  rw [after0_2]
  unfold out0_2
  rw [View.canon_unit_zero zeros0]
  simp only [View.ld_unit_zero (S := S10000x14) zeros0, View.ld_unit_zero (S := S14x128) zeros0]
  funext j
  refine pay0_eq_prod0 V c t j (((cfg0.win 2).blk t).view.emb j) ?_ ?_
  · show win0_2.index t (0 : Fin 2) * 10000 + 1 * (j 0).val = _; omega
  · show win0_2.index t (1 : Fin 2) * 128 + 1 * (j 1).val = _
    have e5 := (idxmaps0 t).2.2.2.2.2
    omega

theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idxmaps0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

theorem arr0_apply (c : Dev nD) (p : Fin 50000) (q : Fin 128) :
    ((dat0 (F := Ideal) V c).arrAt 2 cfg0.N : S50000x128.Idx → EReal) (ix2 p q)
      = ∑ k : Fin 14, @HMul.hMul EReal EReal EReal _ (V c main_arg0 (ix2 p k)) (V c main_arg4 (ix2 k q)) := by
  rw [(dat0 (F := Ideal) V c).arrAt_eq_of_cover 2 (prod0 (V c main_arg0) (V c main_arg4)) (fun t _ => flushed0_eq V c t) covered0]

end Cert.KernelIdeal.Hand

end
-- ==== Proof.KI.Val1.lean ====
import proofs.«406877_j20933670601167_1_alg».proof.Proof.KI.Reg1
import Idealize.ShloMosaic.Lib.Pipeline.Value
import Idealize.ShloMosaic.Lib.ValueIdx
import Idealize.ShloMosaic.PureOps.Ideal.Laws
import proofs.«406877_j20933670601167_1_alg».proof.Proof.LibPlainDot

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem pay1_apply (x : Vec Ideal S25000x11 .f32) (w : Vec Ideal S11x128 .f32) (r : Fin 25000) (q : Fin 128) :
    (k1_pay1 x w : S25000x128.Idx → EReal) (ix2 r q)
      = ∑ k : Fin 11, (x : S25000x11.Idx → EReal) (ix2 r k) * (w : S11x128.Idx → EReal) (ix2 k q) := by
  unfold k1_pay1
  simp only [matmul]
  rw [Ideal.matmul_constant_zero_apply]
  exact PlainDot.sum_eq dot_S25000x11_S11x128_S25000x128_1_0_0_1_n_n rfl rfl rfl rfl rfl rfl x w r q

abbrev prod1 (A : S500000x11.Idx → EReal) (B : S11x128.Idx → EReal) : S500000x128.Idx → EReal :=
  fun i => ∑ k : Fin 11, A (ix2 (i 0) k) * B (ix2 k (i 1))

theorem zeros1 : (![0, 0] : Fin 2 → Nat) = fun _ => 0 :=
  funext fun a => by match a with | ⟨0, _⟩ => rfl | ⟨1, _⟩ => rfl

theorem idxmaps1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

theorem xblk1_apply (c : Dev nD) (t : Fin cfg1.N) (y : S25000x11.Idx) (i : S500000x11.Idx)
    (h0 : (i 0).val = win1_2.index t (0 : Fin 2) * 25000 + (y 0).val) (h1 : (i 1).val = (y 1).val) :
    (iblk1 V c 0 t : Vec Ideal S25000x11 .f32) y = (V c main_arg1 : S500000x11.Idx → EReal) i := by
  obtain ⟨e0, e1, e2, e3, e4, e5⟩ := idxmaps1 t
  refine congrArg (V c main_arg1) (funext fun a => Fin.ext ?_)
  match a with
  | ⟨0, _⟩ => show win1_0.index t (0 : Fin 2) * 25000 + 1 * (y 0).val = (i 0).val; omega
  | ⟨1, _⟩ => show win1_0.index t (1 : Fin 2) * 11 + 1 * (y 1).val = (i 1).val; omega

theorem wblk1_apply (c : Dev nD) (t : Fin cfg1.N) (y : S11x128.Idx) :
    (iblk1 V c 1 t : Vec Ideal S11x128 .f32) y = (V c main_arg5 : S11x128.Idx → EReal) y := by
  obtain ⟨e0, e1, e2, e3, e4, e5⟩ := idxmaps1 t
  refine congrArg (V c main_arg5) (funext fun a => Fin.ext ?_)
  match a with
  | ⟨0, _⟩ => show win1_1.index t (0 : Fin 2) * 11 + 1 * (y 0).val = (y 0).val; omega
  | ⟨1, _⟩ => show win1_1.index t (1 : Fin 2) * 128 + 1 * (y 1).val = (y 1).val; omega

theorem pay1_eq_prod1 (c : Dev nD) (t : Fin cfg1.N) (j : S25000x128.Idx) (i : S500000x128.Idx)
    (h0 : (i 0).val = win1_2.index t (0 : Fin 2) * 25000 + (j 0).val) (h1 : (i 1).val = (j 1).val) :
    (k1_pay1 (iblk1 V c 0 t) (iblk1 V c 1 t) : S25000x128.Idx → EReal) j = prod1 (V c main_arg1) (V c main_arg5) i := by
  obtain ⟨r, q, rfl⟩ : ∃ (r : Fin 25000) (q : Fin 128), j = ix2 r q := ⟨j 0, j 1, eq_ix2 j⟩
  rw [pay1_apply]
  refine Finset.sum_congr rfl fun k _ => ?_
  rw [xblk1_apply V c t (ix2 r k) (ix2 (i 0) k) h0 rfl, wblk1_apply V c t (ix2 k q)]
  have e : q = (i 1) := Fin.ext h1.symm
  rw [e]

theorem flushed1_eq (c : Dev nD) (t : Fin cfg1.N) :
    (dat1 (F := Ideal) V c).flushed 2 t
      = ((cfg1.win 2).blk t).view.read (Elt Ideal) (prod1 (V c main_arg1) (V c main_arg5)) := by
  show (cfg1.win 2).cut (grid1.coords t) ((dat1 (F := Ideal) V c).after 2 t) = _
  rw [after1_2]
  unfold out1_2
  rw [View.canon_unit_zero zeros1]
  simp only [View.ld_unit_zero (S := S25000x11) zeros1, View.ld_unit_zero (S := S11x128) zeros1]
  funext j
  refine pay1_eq_prod1 V c t j (((cfg1.win 2).blk t).view.emb j) ?_ ?_
  · show win1_2.index t (0 : Fin 2) * 25000 + 1 * (j 0).val = _; omega
  · show win1_2.index t (1 : Fin 2) * 128 + 1 * (j 1).val = _
    have e5 := (idxmaps1 t).2.2.2.2.2
    omega

theorem mem_blk1 (t : Fin cfg1.N) (i : S500000x128.Idx) :
    i ∈ ((cfg1.win 2).blk t).view.set ↔ ∀ a : Fin 2, win1_2.index t a * S25000x128.size a ≤ (i a).val
      ∧ (i a).val < win1_2.index t a * S25000x128.size a + S25000x128.size a := by
  show i ∈ ((View.whole main_v1).slice (win1_2.rect t)).set ↔ _
  rw [View.set_slice_whole, Rect.mem_set_unit]
  exact Iff.rfl

theorem covered1 (i : S500000x128.Idx) :
    ∃ t : Fin cfg1.N, (cfg1.win 2).flush t = true ∧ i ∈ ((cfg1.win 2).blk t).view.set := by
  have hi0 : (i 0).val < 500000 := (i 0).isLt
  have hi1 : (i 1).val < 128 := (i 1).isLt
  have hN : cfg1.N = 20 := N_1
  obtain ⟨t, ht⟩ : ∃ t : Fin cfg1.N, t.val = (i 0).val / 25000 := ⟨⟨(i 0).val / 25000, by rw [hN]; omega⟩, rfl⟩
  obtain ⟨e0, e1, e2, e3, e4, e5⟩ := idxmaps1 t
  refine ⟨t, flush1_2 t, ?_⟩
  rw [mem_blk1]
  intro a
  match a with
  | ⟨0, _⟩ =>
    show win1_2.index t (0 : Fin 2) * 25000 ≤ (i 0).val ∧ (i 0).val < win1_2.index t (0 : Fin 2) * 25000 + 25000
    omega
  | ⟨1, _⟩ =>
    show win1_2.index t (1 : Fin 2) * 128 ≤ (i 1).val ∧ (i 1).val < win1_2.index t (1 : Fin 2) * 128 + 128
    omega

theorem arr1_apply (c : Dev nD) (p : Fin 500000) (q : Fin 128) :
    ((dat1 (F := Ideal) V c).arrAt 2 cfg1.N : S500000x128.Idx → EReal) (ix2 p q)
      = ∑ k : Fin 11, @HMul.hMul EReal EReal EReal _ (V c main_arg1 (ix2 p k)) (V c main_arg5 (ix2 k q)) := by
  rw [(dat1 (F := Ideal) V c).arrAt_eq_of_cover 2 (prod1 (V c main_arg1) (V c main_arg5)) (fun t _ => flushed1_eq V c t) covered1]

end Cert.KernelIdeal.Hand

end
-- ==== Proof.RefDots.lean ====
import proofs.«406877_j20933670601167_1_alg».proof.ReferenceIdeal
import Idealize.ShloMosaic.PureOps.Ideal.Laws
import proofs.«406877_j20933670601167_1_alg».proof.Proof.LibPlainDot

noncomputable section

namespace Cert.ReferenceIdeal.RefValue

open Idealize.ShloMosaic Idealize.ShloMosaic.ValueIdx

variable [Facts₀]

theorem dot_S50000x14_S14x128_S50000x128_1_0_0_1_n_n_apply (l : FVec Ideal S50000x14 .f32) (r : FVec Ideal S14x128 .f32)
    (p : Fin 50000) (q : Fin 128) :
    Host.dotGeneral (F := Ideal) dot_S50000x14_S14x128_S50000x128_1_0_0_1_n_n none l r (ix2 p q)
      = ∑ k : Fin 14, l (ix2 p k) * r (ix2 k q) :=
  (Ideal.dotGeneral_apply ..).trans (PlainDot.sum_eq dot_S50000x14_S14x128_S50000x128_1_0_0_1_n_n rfl rfl rfl rfl rfl rfl l r p q)

theorem dot_S500000x11_S11x128_S500000x128_1_0_0_1_n_n_apply (l : FVec Ideal S500000x11 .f32) (r : FVec Ideal S11x128 .f32)
    (p : Fin 500000) (q : Fin 128) :
    Host.dotGeneral (F := Ideal) dot_S500000x11_S11x128_S500000x128_1_0_0_1_n_n none l r (ix2 p q)
      = ∑ k : Fin 11, l (ix2 p k) * r (ix2 k q) :=
  (Ideal.dotGeneral_apply ..).trans (PlainDot.sum_eq dot_S500000x11_S11x128_S500000x128_1_0_0_1_n_n rfl rfl rfl rfl rfl rfl l r p q)

theorem dot_S500000x128_S128x128_S500000x128_1_0_0_1_n_n_apply (l : FVec Ideal S500000x128 .f32) (r : FVec Ideal S128x128 .f32)
    (p : Fin 500000) (q : Fin 128) :
    Host.dotGeneral (F := Ideal) dot_S500000x128_S128x128_S500000x128_1_0_0_1_n_n none l r (ix2 p q)
      = ∑ k : Fin 128, l (ix2 p k) * r (ix2 k q) :=
  (Ideal.dotGeneral_apply ..).trans (PlainDot.sum_eq dot_S500000x128_S128x128_S500000x128_1_0_0_1_n_n rfl rfl rfl rfl rfl rfl l r p q)

theorem dot_S50000x128_S128x384_S50000x384_1_0_0_1_n_n_apply (l : FVec Ideal S50000x128 .f32) (r : FVec Ideal S128x384 .f32)
    (p : Fin 50000) (q : Fin 384) :
    Host.dotGeneral (F := Ideal) dot_S50000x128_S128x384_S50000x384_1_0_0_1_n_n none l r (ix2 p q)
      = ∑ k : Fin 128, l (ix2 p k) * r (ix2 k q) :=
  (Ideal.dotGeneral_apply ..).trans (PlainDot.sum_eq dot_S50000x128_S128x384_S50000x384_1_0_0_1_n_n rfl rfl rfl rfl rfl rfl l r p q)

theorem dot_S50000x128_S128x128_S50000x128_1_0_0_1_n_n_apply (l : FVec Ideal S50000x128 .f32) (r : FVec Ideal S128x128 .f32)
    (p : Fin 50000) (q : Fin 128) :
    Host.dotGeneral (F := Ideal) dot_S50000x128_S128x128_S50000x128_1_0_0_1_n_n none l r (ix2 p q)
      = ∑ k : Fin 128, l (ix2 p k) * r (ix2 k q) :=
  (Ideal.dotGeneral_apply ..).trans (PlainDot.sum_eq dot_S50000x128_S128x128_S50000x128_1_0_0_1_n_n rfl rfl rfl rfl rfl rfl l r p q)

end Cert.ReferenceIdeal.RefValue

end
-- ==== Proof.Bridge.Embed.lean ====
import proofs.«406877_j20933670601167_1_alg».proof.Proof.Bridge.Ctx
import proofs.«406877_j20933670601167_1_alg».proof.Proof.KI.Val0
import proofs.«406877_j20933670601167_1_alg».proof.Proof.KI.Val1
import proofs.«406877_j20933670601167_1_alg».proof.Proof.RefDots

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand

theorem embed0_of (V : (c : Dev nD) → (b : Ref sig .tc) → Buf (Elt Ideal) ((c : Thread nD τ).loc b)) (c : Dev nD)
    (l : FVec Ideal Cert.ReferenceIdeal.S50000x14 .f32) (r : FVec Ideal Cert.ReferenceIdeal.S14x128 .f32)
    (hl : l = V c main_arg0) (hr : r = V c main_arg4) :
    ((dat0 (F := Ideal) V c).arrAt 2 cfg0.N : S50000x128.Idx → EReal)
      = Host.dotGeneral (F := Ideal) Cert.ReferenceIdeal.dot_S50000x14_S14x128_S50000x128_1_0_0_1_n_n none l r := by
  subst hl hr
  funext i
  obtain ⟨p, q, rfl⟩ : ∃ (p : Fin 50000) (q : Fin 128), i = ix2 p q := ⟨i 0, i 1, eq_ix2 i⟩
  rw [arr0_apply, Cert.ReferenceIdeal.RefValue.dot_S50000x14_S14x128_S50000x128_1_0_0_1_n_n_apply]

theorem embed1_of (V : (c : Dev nD) → (b : Ref sig .tc) → Buf (Elt Ideal) ((c : Thread nD τ).loc b)) (c : Dev nD)
    (l : FVec Ideal Cert.ReferenceIdeal.S500000x11 .f32) (r : FVec Ideal Cert.ReferenceIdeal.S11x128 .f32)
    (hl : l = V c main_arg1) (hr : r = V c main_arg5) :
    ((dat1 (F := Ideal) V c).arrAt 2 cfg1.N : S500000x128.Idx → EReal)
      = Host.dotGeneral (F := Ideal) Cert.ReferenceIdeal.dot_S500000x11_S11x128_S500000x128_1_0_0_1_n_n none l r := by
  subst hl hr
  funext i
  obtain ⟨p, q, rfl⟩ : ∃ (p : Fin 500000) (q : Fin 128), i = ix2 p q := ⟨i 0, i 1, eq_ix2 i⟩
  rw [arr1_apply, Cert.ReferenceIdeal.RefValue.dot_S500000x11_S11x128_S500000x128_1_0_0_1_n_n_apply]

variable (m : KMem) (c : Dev Cert.KernelIdeal.nD) (V0 : RVal)

theorem h0_eq (ag : Agree m c V0) :
    (Cert.KernelIdeal.Hand.X1 m c Cert.KernelIdeal.main_v0 : Cert.KernelIdeal.S50000x128.Idx → EReal)
      = Cert.ReferenceIdeal.Value.res_main_v0 V0 := by
  have e : X1 m c main_v0 = a1 m c := by unfold X1; exact Function.update_self _ _ _
  rw [e]
  unfold a1 Cert.ReferenceIdeal.Value.res_main_v0
  exact embed0_of (rd (X0 m)) c _ _ ag.a0 ag.a4

theorem e_eq (ag : Agree m c V0) :
    (Cert.KernelIdeal.Hand.X2 m c Cert.KernelIdeal.main_v1 : Cert.KernelIdeal.S500000x128.Idx → EReal)
      = Cert.ReferenceIdeal.Value.res_main_v1 V0 := by
  have e : X2 m c main_v1 = a2 m c := by unfold X2; exact Function.update_self _ _ _
  rw [e]
  unfold a2 Cert.ReferenceIdeal.Value.res_main_v1
  exact embed1_of (rd (X1 m)) c _ _ (ag.a1.trans (keep1 m c main_arg1 (by decide)).symm)
    (ag.a5.trans (keep1 m c main_arg5 (by decide)).symm)

end Cert.Proof.Bridge

end
-- ==== Proof.Spec.lean ====
import Idealize.ShloMosaic.PureOps.Ideal
import Idealize.ShloMosaic.Lib.ValueIdx

noncomputable section

namespace Cert.Spec

open Idealize.ShloMosaic

abbrev one : EReal := Ideal.ofBits .f32 0x3F800000#32

def mm {R K C : ℕ} (l : Fin R → Fin K → EReal) (r : Fin K → Fin C → EReal) (p : Fin R) (q : Fin C) : EReal :=
  ∑ k : Fin K, l p k * r k q

def msg {E : ℕ} (hd hs e : Fin E → Fin 128 → EReal) (Wv Ww We : Fin 128 → Fin 128 → EReal) (ct : Fin 128 → EReal)
    (p : Fin E) (q : Fin 128) : EReal :=
  mm hd Wv p q + mm hs Ww p q + mm e We p q + ct q

def col0 (q : Fin 128) : Fin 384 := ⟨q.val, by omega⟩
def col1 (q : Fin 128) : Fin 384 := ⟨q.val + 128, by omega⟩
def col2 (q : Fin 128) : Fin 384 := ⟨q.val + 256, by omega⟩

def gru {N : ℕ} (a h : Fin N → Fin 128 → EReal) (Wih Whh : Fin 128 → Fin 384 → EReal) (bih bhh : Fin 384 → EReal)
    (p : Fin N) (q : Fin 128) : EReal :=
  let gi : Fin 384 → EReal := fun j => mm a Wih p j + bih j
  let gh : Fin 384 → EReal := fun j => mm h Whh p j + bhh j
  let r := Ideal.logistic (gi (col0 q) + gh (col0 q))
  let z := Ideal.logistic (gi (col1 q) + gh (col1 q))
  let n := Ideal.tanh (gi (col2 q) + r * gh (col2 q))
  (one - z) * n + z * h p q

def gated {N : ℕ} (h : Fin N → Fin 128 → EReal) (W1 W2 : Fin 128 → Fin 128 → EReal) (b1 b2 : Fin 128 → EReal)
    (p : Fin N) (q : Fin 128) : EReal :=
  (mm h W1 p q + b1 q) * Ideal.logistic (mm h W2 p q + b2 q)

def readout (h : Fin 50000 → Fin 128 → EReal) (W1 W2 : Fin 128 → Fin 128 → EReal) (b1 b2 : Fin 128 → EReal)
    (q : Fin 128) : EReal :=
  (∑ p : Fin 50000, gated h W1 W2 b1 b2 p q) * ((1 / 50000 : ℝ) : EReal)

end Cert.Spec

end
-- ==== Proof.KI.ValLib.lean ====
import proofs.«406877_j20933670601167_1_alg».proof.Proof.Gen.KernelIdeal.Skeleton
import proofs.«406877_j20933670601167_1_alg».proof.Proof.Spec
import proofs.«406877_j20933670601167_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.ValLib

open Cert.KernelIdeal Cert.KernelIdeal.Gen
open Idealize.ShloMosaic Idealize.ShloMosaic.TcCoe Idealize.ShloMosaic.ValueIdx

theorem hz : (![0, 0] : Fin 2 → ℕ) = fun _ => 0 := funext fun a => by fin_cases a <;> rfl

/-- A unit-stride rectangle at offsets `(T, 0)` places its index `y` at row `T + y 0`, column `y 1`. -/
theorem unit_val {n m off : Fin 2 → ℕ} {inb} {T : ℕ} (ho : off = ![T, 0]) (y : (⟨2, m⟩ : Shape).Idx) :
    ((Rect.unit (s := ⟨2, n⟩) off m inb).emb y 0 : ℕ) = T + y 0 ∧ ((Rect.unit (s := ⟨2, n⟩) off m inb).emb y 1 : ℕ) = y 1 := by
  subst ho
  exact ⟨by rw [Rect.emb_apply]; show T + 1 * _ = _; omega, by rw [Rect.emb_apply]; show 0 + 1 * _ = _; omega⟩

/-- An array read through such a rectangle, at an index of the rectangle. -/
theorem unit_get {α : Type} {n m off : Fin 2 → ℕ} {inb} {T : ℕ} (ho : off = ![T, 0]) (f : (⟨2, n⟩ : Shape).Idx → α)
    (y : (⟨2, m⟩ : Shape).Idx) (i : (⟨2, n⟩ : Shape).Idx) (e : (i 0 : ℕ) = T + y 0 ∧ (i 1 : ℕ) = y 1) :
    f ((Rect.unit (s := ⟨2, n⟩) off m inb).emb y) = f i :=
  congrArg f (Shape.idx_ext₂ ((unit_val ho y).1.trans e.1.symm) ((unit_val ho y).2.trans e.2.symm))

/-- Through the rectangle at offsets `(0, 0)` of the array's own sizes the array is read as it is. -/
theorem unit_read {α : Type} {n off : Fin 2 → ℕ} {inb} (ho : off = ![0, 0]) (f : (⟨2, n⟩ : Shape).Idx → α) :
    (fun y => f ((Rect.unit (s := ⟨2, n⟩) off n inb).emb y)) = f :=
  funext fun y => unit_get ho f y y ⟨(Nat.zero_add _).symm, rfl⟩

/-- An index whose row is among the rectangle's `R` rows from `T * R` is under the rectangle. -/
theorem unit_mem {R C : ℕ} {n off : Fin 2 → ℕ} {inb} {T : ℕ} (ho : off = ![T * R, 0]) (i : (⟨2, n⟩ : Shape).Idx)
    (h0 : T * R ≤ i 0) (h1 : (i 0 : ℕ) < T * R + R) (hC : (i 1 : ℕ) < C) :
    ∃ y : (⟨2, ![R, C]⟩ : Shape).Idx, (Rect.unit (s := ⟨2, n⟩) off ![R, C] inb).emb y = i :=
  ⟨ix2 ⟨(i 0 : ℕ) - T * R, by omega⟩ ⟨i 1, hC⟩,
    unit_get ho id _ i ⟨by show _ = T * R + ((i 0 : ℕ) - T * R); omega, rfl⟩⟩

theorem dot_apply (l : FVec Ideal S10000x128 .f32) (w : FVec Ideal S128x128 .f32) (r : Fin 10000) (q : Fin 128) :
    (matmul (F := Ideal) (φ₁ := .f32) (φ₂ := .f32) dot_S10000x128_S128x128_S10000x128_1_0_0_1_n_n none (shapeCast S10000x128 l shapeCasts_S10000x128_S10000x128)
        (shapeCast S128x128 w shapeCasts_S128x128_S128x128) (constant S10000x128 .f32 0x00000000#32) : S10000x128.Idx → EReal) (ix2 r q)
      = ∑ k : Fin 128, (l (ix2 r k) : EReal) * (w (ix2 k q) : EReal) := by
  rw [shapeCast_self, shapeCast_self]
  exact (Ideal.matmul_constant_zero_apply _ none l w (ix2 r q)).trans (PlainDot.sum_eq _ rfl rfl rfl rfl rfl rfl l w r q)

/-- The message of the specification on arrays indexed by shape. -/
def msgArr (A0 A1 A2 : S500000x128.Idx → EReal) (W0 W1 W2 : S128x128.Idx → EReal) (B : S1x128.Idx → EReal) :
    S500000x128.Idx → EReal := fun i =>
  Cert.Spec.msg (fun a b => A0 (ix2 a b)) (fun a b => A1 (ix2 a b)) (fun a b => A2 (ix2 a b)) (fun a b => W0 (ix2 a b))
    (fun a b => W1 (ix2 a b)) (fun a b => W2 (ix2 a b)) (fun b => B (ix2 0 b)) (i 0) (i 1)

/-- The message payload on row blocks that are rows `T +` of three arrays is the message at those rows. -/
theorem pay_msg {A0 A1 A2 : S500000x128.Idx → EReal} {W0 W1 W2 : S128x128.Idx → EReal} {B : S1x128.Idx → EReal}
    {x0 x1 x2 : Vec Ideal S10000x128 .f32} {w0 w1 w2 : Vec Ideal S128x128 .f32} {b : Vec Ideal S1x128 .f32} {T : ℕ}
    (h0 : ∀ (y : S10000x128.Idx) (i : S500000x128.Idx), (i 0 : ℕ) = T + y 0 ∧ (i 1 : ℕ) = y 1 → (x0 y : EReal) = A0 i)
    (h1 : ∀ (y : S10000x128.Idx) (i : S500000x128.Idx), (i 0 : ℕ) = T + y 0 ∧ (i 1 : ℕ) = y 1 → (x1 y : EReal) = A1 i)
    (h2 : ∀ (y : S10000x128.Idx) (i : S500000x128.Idx), (i 0 : ℕ) = T + y 0 ∧ (i 1 : ℕ) = y 1 → (x2 y : EReal) = A2 i)
    (g0 : (w0 : S128x128.Idx → EReal) = W0) (g1 : (w1 : S128x128.Idx → EReal) = W1) (g2 : (w2 : S128x128.Idx → EReal) = W2)
    (gb : (b : S1x128.Idx → EReal) = B)
    {j : S10000x128.Idx} {i : S500000x128.Idx} (e : (i 0 : ℕ) = T + j 0 ∧ (i 1 : ℕ) = j 1) :
    (k2_pay1 (F := Ideal) x0 w0 x1 w1 x2 w2 b : S10000x128.Idx → EReal) j = msgArr A0 A1 A2 W0 W1 W2 B i := by
  subst g0 g1 g2 gb
  obtain ⟨r, q, rfl⟩ : ∃ (r : Fin 10000) (q : Fin 128), j = ix2 r q := ⟨j 0, j 1, eq_ix2 j⟩
  obtain rfl : q = i 1 := Fin.ext e.2.symm
  unfold k2_pay1 msgArr
  refine (addf_apply _ _ _).trans (congrArg₂ (· + ·) ((addf_apply _ _ _).trans (congrArg₂ (· + ·) ((addf_apply _ _ _).trans
    (congrArg₂ (· + ·) ?_ ?_)) ?_)) ((broadcastTo_1b_ab_apply _ _ r (i 1)).trans (by rw [shapeCast_self]; rfl)))
  · exact (dot_apply x0 w0 r (i 1)).trans (Finset.sum_congr rfl fun k _ => congrArg (· * _) (h0 _ _ ⟨e.1, rfl⟩))
  · exact (dot_apply x1 w1 r (i 1)).trans (Finset.sum_congr rfl fun k _ => congrArg (· * _) (h1 _ _ ⟨e.1, rfl⟩))
  · exact (dot_apply x2 w2 r (i 1)).trans (Finset.sum_congr rfl fun k _ => congrArg (· * _) (h2 _ _ ⟨e.1, rfl⟩))

theorem gate_apply (o : ℕ) (hs : S10000x384.Slices ![0, o] S10000x128)
    (x : Vec Ideal S10000x128 .f32) (W : Vec Ideal S128x384 .f32) (b : Vec Ideal S1x384 .f32)
    (r : Fin 10000) (q : Fin 128) (j : Fin 384) (hj : j.val = o + q.val) :
    extractStridedSlice S10000x128 ![0, o]
        (addf (F := Ideal) (matmul (φ₁ := .f32) (φ₂ := .f32) dot_S10000x128_S128x384_S10000x384_1_0_0_1_n_n none
            (shapeCast S10000x128 x shapeCasts_S10000x128_S10000x128 : FVec Ideal S10000x128 .f32)
            (shapeCast S128x384 W shapeCasts_S128x384_S128x384 : FVec Ideal S128x384 .f32)
            (constant S10000x384 .f32 0x00000000#32))
        (broadcastTo S10000x384 (shapeCast S1x384 b shapeCasts_S1x384_S1x384 : FVec Ideal S1x384 .f32) broadcasts_S1x384_S10000x384)) hs (ix2 r q)
      = (∑ k : Fin 128, (x : S10000x128.Idx → EReal) (ix2 r k) * (W : S128x384.Idx → EReal) (ix2 k j))
          + (b : S1x384.Idx → EReal) (ix2 0 j) := by
  refine (slice2_axis1_apply o _ hs r q j hj).trans ?_
  rw [shapeCast_self, shapeCast_self, shapeCast_self]
  exact (addf_apply _ _ _).trans (congrArg₂ (· + ·)
    ((Ideal.matmul_constant_zero_apply _ none x W (ix2 r j)).trans (PlainDot.sum_eq _ rfl rfl rfl rfl rfl rfl x W r j))
    (broadcastTo_1b_ab_apply b broadcasts_S1x384_S10000x384 r j))

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

theorem pay_gru (x h : Vec Ideal S10000x128 .f32) (Wi Wh : Vec Ideal S128x384 .f32) (bi bh : Vec Ideal S1x384 .f32)
    (r : Fin 10000) (q : Fin 128) :
    (k3_pay1 x Wi bi h Wh bh h : S10000x128.Idx → EReal) (ix2 r q)
      = Cert.Spec.gru (fun a b => (x : S10000x128.Idx → EReal) (ix2 a b)) (fun a b => (h : S10000x128.Idx → EReal) (ix2 a b))
          (fun a b => (Wi : S128x384.Idx → EReal) (ix2 a b)) (fun a b => (Wh : S128x384.Idx → EReal) (ix2 a b))
          (fun j => (bi : S1x384.Idx → EReal) (ix2 0 j)) (fun j => (bh : S1x384.Idx → EReal) (ix2 0 j)) r q := by
  have i0 := gate_apply 0 slices_S10000x384_o0_0_S10000x128 x Wi bi r q (Cert.Spec.col0 q) (by show q.val = 0 + q.val; omega)
  have i1 := gate_apply 128 slices_S10000x384_o0_128_S10000x128 x Wi bi r q (Cert.Spec.col1 q) (by show q.val + 128 = 128 + q.val; omega)
  have i2 := gate_apply 256 slices_S10000x384_o0_256_S10000x128 x Wi bi r q (Cert.Spec.col2 q) (by show q.val + 256 = 256 + q.val; omega)
  have h0 := gate_apply 0 slices_S10000x384_o0_0_S10000x128 h Wh bh r q (Cert.Spec.col0 q) (by show q.val = 0 + q.val; omega)
  have h1 := gate_apply 128 slices_S10000x384_o0_128_S10000x128 h Wh bh r q (Cert.Spec.col1 q) (by show q.val + 128 = 128 + q.val; omega)
  have h2 := gate_apply 256 slices_S10000x384_o0_256_S10000x128 h Wh bh r q (Cert.Spec.col2 q) (by show q.val + 256 = 256 + q.val; omega)
  unfold k3_pay1
  simp only [addf_apply, mulf_apply, subf_apply, broadcast_apply, logistic_apply, tanh_apply]
  rw [i0, i1, i2, h0, h1, h2, shapeCast_self]
  rfl

/-- The cell reads its two row arguments at its own row only. -/
theorem gru_rows {N M : ℕ} (a h : Fin N → Fin 128 → EReal) (a' h' : Fin M → Fin 128 → EReal)
    (Wih Whh : Fin 128 → Fin 384 → EReal) (bih bhh : Fin 384 → EReal) (p : Fin N) (p' : Fin M)
    (ha : ∀ k, a p k = a' p' k) (hh : ∀ k, h p k = h' p' k) (q q' : Fin 128) (hq : q = q') :
    Cert.Spec.gru a h Wih Whh bih bhh p q = Cert.Spec.gru a' h' Wih Whh bih bhh p' q' := by
  subst hq
  unfold Cert.Spec.gru Cert.Spec.mm
  simp only [ha, hh]

/-- The cell of the specification on arrays indexed by shape. -/
def cell (A H : S50000x128.Idx → EReal) (Wi Wh : S128x384.Idx → EReal) (bi bh : S1x384.Idx → EReal) :
    S50000x128.Idx → EReal :=
  fun i => Cert.Spec.gru (fun a b => A (ix2 a b)) (fun a b => H (ix2 a b)) (fun a b => Wi (ix2 a b)) (fun a b => Wh (ix2 a b))
    (fun j => bi (ix2 0 j)) (fun j => bh (ix2 0 j)) (i 0) (i 1)

/-- The cell payload on row blocks that are rows `T +` of two arrays is the cell at those rows: the cell reads its row only. -/
theorem pay_cell {A H : S50000x128.Idx → EReal} {Wi Wh : S128x384.Idx → EReal} {bi bh : S1x384.Idx → EReal}
    {x h : Vec Ideal S10000x128 .f32} {wi wh : Vec Ideal S128x384 .f32} {ci ch : Vec Ideal S1x384 .f32} {T : ℕ}
    (hx : ∀ (y : S10000x128.Idx) (i : S50000x128.Idx), (i 0 : ℕ) = T + y 0 ∧ (i 1 : ℕ) = y 1 → (x y : EReal) = A i)
    (hh : ∀ (y : S10000x128.Idx) (i : S50000x128.Idx), (i 0 : ℕ) = T + y 0 ∧ (i 1 : ℕ) = y 1 → (h y : EReal) = H i)
    (gwi : (wi : S128x384.Idx → EReal) = Wi) (gwh : (wh : S128x384.Idx → EReal) = Wh)
    (gci : (ci : S1x384.Idx → EReal) = bi) (gch : (ch : S1x384.Idx → EReal) = bh)
    {j : S10000x128.Idx} {i : S50000x128.Idx} (e : (i 0 : ℕ) = T + j 0 ∧ (i 1 : ℕ) = j 1) :
    (k3_pay1 x wi ci h wh ch h : S10000x128.Idx → EReal) j = cell A H Wi Wh bi bh i := by
  subst gwi gwh gci gch
  obtain ⟨r, q, rfl⟩ : ∃ (r : Fin 10000) (q : Fin 128), j = ix2 r q := ⟨j 0, j 1, eq_ix2 j⟩
  rw [pay_gru]
  exact gru_rows _ _ _ _ _ _ _ _ r (i 0) (fun k => hx (ix2 r k) (ix2 (i 0) k) ⟨e.1, rfl⟩) (fun k => hh (ix2 r k) (ix2 (i 0) k) ⟨e.1, rfl⟩)
    q (i 1) (Fin.ext e.2.symm)

end Cert.KernelIdeal.Hand.ValLib

end
-- ==== Proof.KI.Val2.lean ====
import proofs.«406877_j20933670601167_1_alg».proof.Proof.KI.Reg2
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off2 : ∀ t : Fin cfg2.N,
    (fun a => win2_0.index t a * S10000x128.size a) = ![t.val * 10000, 0]
    ∧ (fun a => win2_1.index t a * S10000x128.size a) = ![t.val * 10000, 0]
    ∧ (fun a => win2_2.index t a * S10000x128.size a) = ![t.val * 10000, 0]
    ∧ (fun a => win2_3.index t a * S128x128.size a) = ![0, 0]
    ∧ (fun a => win2_4.index t a * S128x128.size a) = ![0, 0]
    ∧ (fun a => win2_5.index t a * S128x128.size a) = ![0, 0]
    ∧ (fun a => win2_6.index t a * S1x128.size a) = ![0, 0]
    ∧ (fun a => win2_7.index t a * S10000x128.size a) = ![t.val * 10000, 0] :=
  (by decide +kernel : ∀ t : Fin grid2.N, _)

variable (V : (c : Dev nD) → (b : Ref sig .tc) → Buf (Elt Ideal) ((c : Thread nD τ).loc b))

/-- The input blocks at point `t`: rows `t * 10000 +` of the three row arrays, and the weights and the added row whole. -/
private theorem in2 (c : Dev nD) (t : Fin cfg2.N) :
    (∀ (y : S10000x128.Idx) (i : S500000x128.Idx), (i 0 : ℕ) = t.val * 10000 + y 0 ∧ (i 1 : ℕ) = y 1 →
        (iblk2 (F := Ideal) V c 0 t : S10000x128.Idx → EReal) y = (V c main_v15 : S500000x128.Idx → EReal) i)
    ∧ (∀ (y : S10000x128.Idx) (i : S500000x128.Idx), (i 0 : ℕ) = t.val * 10000 + y 0 ∧ (i 1 : ℕ) = y 1 →
        (iblk2 (F := Ideal) V c 1 t : S10000x128.Idx → EReal) y = (V c main_v16 : S500000x128.Idx → EReal) i)
    ∧ (∀ (y : S10000x128.Idx) (i : S500000x128.Idx), (i 0 : ℕ) = t.val * 10000 + y 0 ∧ (i 1 : ℕ) = y 1 →
        (iblk2 (F := Ideal) V c 2 t : S10000x128.Idx → EReal) y = (V c main_v1 : S500000x128.Idx → EReal) i)
    ∧ (iblk2 (F := Ideal) V c 3 t : S128x128.Idx → EReal) = V c main_v3 ∧ (iblk2 (F := Ideal) V c 4 t : S128x128.Idx → EReal) = V c main_v5
    ∧ (iblk2 (F := Ideal) V c 5 t : S128x128.Idx → EReal) = V c main_v7 ∧ (iblk2 (F := Ideal) V c 6 t : S1x128.Idx → EReal) = V c main_v14 :=
  let ⟨o0, o1, o2, o3, o4, o5, o6, _⟩ := off2 t
  ⟨unit_get o0 _, unit_get o1 _, unit_get o2 _, unit_read o3 _, unit_read o4 _, unit_read o5 _, unit_read o6 _⟩

/-- Point `t`'s output block is block `t` of the message of the input arrays. -/
private theorem flushed2 (c : Dev nD) (t : Fin cfg2.N) :
    (dat2 (F := Ideal) V c).flushed 7 t = ((cfg2.win 7).blk t).view.read (Elt Ideal)
      (msgArr (V c main_v15) (V c main_v16) (V c main_v1) (V c main_v3) (V c main_v5) (V c main_v7) (V c main_v14)) := by
  obtain ⟨h0, h1, h2, g0, g1, g2, gb⟩ := in2 V c t
  show (cfg2.win 7).cut (grid2.coords t) ((dat2 (F := Ideal) V c).after 7 t) = _
  rw [after2_7]
  unfold out2_7
  rw [View.canon_unit_zero hz]
  simp only [View.ld_unit_zero (S := S10000x128) hz, View.ld_unit_zero (S := S128x128) hz, View.ld_unit_zero (S := S1x128) hz]
  funext j
  exact pay_msg h0 h1 h2 g0 g1 g2 gb (unit_val (off2 t).2.2.2.2.2.2.2 j)

/-- Row `p` lies in the block of point `p / 10000`. -/
private theorem covered2 (i : S500000x128.Idx) :
    ∃ t : Fin cfg2.N, (cfg2.win 7).flush t = true ∧ i ∈ ((cfg2.win 7).blk t).view.set := by
  have hi : (i 0).val < 500000 := (i 0).isLt
  obtain ⟨t, ht⟩ : ∃ t : Fin cfg2.N, t.val = (i 0).val / 10000 := ⟨⟨_, (by omega : (i 0).val / 10000 < 50)⟩, rfl⟩
  obtain ⟨y, hy⟩ := unit_mem (off2 t).2.2.2.2.2.2.2 i (by omega) (by omega) (i 1).isLt
  exact ⟨t, flush2_7 t, hy ▸ View.emb_mem_set _ y⟩

theorem arr2_apply (c : Dev nD) (p : Fin 500000) (q : Fin 128) :
    ((dat2 (F := Ideal) V c).arrAt 7 cfg2.N : S500000x128.Idx → EReal) (ix2 p q)
      = Cert.Spec.msg (fun a b => (V c main_v15 : S500000x128.Idx → EReal) (ix2 a b))
          (fun a b => (V c main_v16 : S500000x128.Idx → EReal) (ix2 a b))
          (fun a b => (V c main_v1 : S500000x128.Idx → EReal) (ix2 a b))
          (fun a b => (V c main_v3 : S128x128.Idx → EReal) (ix2 a b))
          (fun a b => (V c main_v5 : S128x128.Idx → EReal) (ix2 a b))
          (fun a b => (V c main_v7 : S128x128.Idx → EReal) (ix2 a b))
          (fun b => (V c main_v14 : S1x128.Idx → EReal) (ix2 (0 : Fin 1) b)) p q :=
  congrFun ((dat2 (F := Ideal) V c).arrAt_eq_of_cover 7 _ (fun t _ => flushed2 V c t) covered2) _

end Cert.KernelIdeal.Hand

end
-- ==== Proof.KI.HostA.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F] (W : Valuation τ sig (Elt F))

theorem ofBuf_toBuf {Val : EltTy → Type} {T : BufTy} (x : StableHlo.TRef sig T) (v : T.Contents Val) :
    x.ofBuf (x.toBuf v) = v := by
  obtain ⟨r, h, _, _⟩ := x
  subst h
  rfl

/-- The rows of `x` at the indices `idx` (a negative index counted from the end), a row whose index falls outside the table replaced by the fill value. -/
def takeOf (x : FVec F S50000x128 .f32) (idx : IVec S500000 32) : FVec F S500000x128 .f32 :=
  select (broadcastInDim S500000x128 ![0] bcast_S500000_S500000x128_0 (Host.reduce IntOp.andi (andi (cmpi .sge (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx)) (broadcastInDim S500000x1 ![] bcast_S_S500000x1 (constantI S_ 32 0#32))) (cmpi .sle (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx)) (broadcastInDim S500000x1 ![0, 1] bcast_S1x1_S500000x1_0_1 (broadcastInDim S1x1 ![1] bcast_S1_S1x1_1 (constantI S1 32 49999#32))))) (constantI S_ 1 1#1) reducesTo_S500000x1_S500000_d1 h_S_))
        (Host.gather gather_S50000x128_S500000x1_S500000x128_1_0_n_n_0_1_1128 x (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx)))
        (broadcastInDim S500000x128 ![] bcast_S_S500000x128 (constant (F := F) S_ .f32 0x7FC00000#32))

theorem hostOps2_main_v3 :
    StableHlo.after hostOps2 W (Proc.devRef .tc main_v3)
      = shapeCast _ (extractStridedSlice S1x128x128 ![0, 0, 0] (W (Proc.devRef .tc main_arg6)) slices_S3x388x128_S1x128x128_0_0_0) shapeCasts_S1x128x128_S128x128 := by
  after_results
  all_goals rfl

theorem hostOps2_main_v5 :
    StableHlo.after hostOps2 W (Proc.devRef .tc main_v5)
      = shapeCast _ (extractStridedSlice S1x128x128 ![0, 128, 0] (W (Proc.devRef .tc main_arg6)) slices_S3x388x128_S1x128x128_0_128_0) shapeCasts_S1x128x128_S128x128 := by
  after_results
  all_goals rfl

theorem hostOps2_main_v7 :
    StableHlo.after hostOps2 W (Proc.devRef .tc main_v7)
      = shapeCast _ (extractStridedSlice S1x128x128 ![0, 256, 0] (W (Proc.devRef .tc main_arg6)) slices_S3x388x128_S1x128x128_0_256_0) shapeCasts_S1x128x128_S128x128 := by
  after_results
  all_goals rfl

theorem hostOps2_main_v14 :
    StableHlo.after hostOps2 W (Proc.devRef .tc main_v14)
      = addf (Host.dotGeneral dot_S1x4_S4x128_S1x128_1_0_0_1_n_n none (W (Proc.devRef .tc main_arg2))
            (shapeCast _ (extractStridedSlice S1x4x128 ![0, 384, 0] (W (Proc.devRef .tc main_arg6)) slices_S3x388x128_S1x4x128_0_384_0) shapeCasts_S1x4x128_S4x128))
          (broadcastInDim S1x128 ![1] bcast_S128_S1x128_1
            (shapeCast _ (extractStridedSlice S1x128 ![0, 0] (W (Proc.devRef .tc main_arg7)) slices_S3x128_S1x128_0_0) shapeCasts_S1x128_S128)) := by
  after_results
  all_goals rfl

set_option maxHeartbeats 2000000 in
theorem hostOps2_1_main_v15 :
    StableHlo.after hostOps2_1 W (Proc.devRef .tc main_v15) = takeOf (W (Proc.devRef .tc main_v0)) (W (Proc.devRef .tc main_arg21)) := by
  unfold takeOf
  simp only [hostOps2_1]
  after_results_simp
  simp only [ofBuf_toBuf]
  simp only [StableHlo.TRef.toBuf, StableHlo.TRef.ofBuf, cast_eq] <;> rfl

set_option maxHeartbeats 2000000 in
theorem hostOps2_2_main_v16 :
    StableHlo.after hostOps2_2 W (Proc.devRef .tc main_v16) = takeOf (W (Proc.devRef .tc main_v0)) (W (Proc.devRef .tc main_arg20)) := by
  unfold takeOf
  simp only [hostOps2_2]
  after_results_simp
  simp only [ofBuf_toBuf]
  simp only [StableHlo.TRef.toBuf, StableHlo.TRef.ofBuf, cast_eq] <;> rfl

theorem hostOps3_main_v20 :
    StableHlo.after hostOps3 W (Proc.devRef .tc main_v20)
      = Host.scatterAdd scatter_S50000x128_S500000x1_S500000x128_1_0_0_1
          (broadcastInDim S50000x128 ![] bcast_S_S50000x128 (constant (F := F) S_ .f32 0x00000000#32))
          (broadcastInDim S500000x1 ![0] bcast_S500000_S500000x1_0 (W (Proc.devRef .tc main_arg21)))
          (W (Proc.devRef .tc main_v17)) := by
  after_results
  all_goals rfl

theorem hostOps3_main_v23 :
    StableHlo.after hostOps3 W (Proc.devRef .tc main_v23)
      = shapeCast _ (shapeCast _ (extractStridedSlice S1x384 ![0, 0] (W (Proc.devRef .tc main_arg10)) slices_S3x384_S1x384_0_0) shapeCasts_S1x384_S384) shapeCasts_S384_S1x384 := by
  after_results
  all_goals rfl

theorem hostOps3_main_v26 :
    StableHlo.after hostOps3 W (Proc.devRef .tc main_v26)
      = shapeCast _ (shapeCast _ (extractStridedSlice S1x384 ![0, 0] (W (Proc.devRef .tc main_arg11)) slices_S3x384_S1x384_0_0) shapeCasts_S1x384_S384) shapeCasts_S384_S1x384 := by
  after_results
  all_goals rfl

theorem hostOps3_main_v28 :
    StableHlo.after hostOps3 W (Proc.devRef .tc main_v28)
      = shapeCast _ (extractStridedSlice S1x128x384 ![0, 0, 0] (W (Proc.devRef .tc main_arg8)) slices_S3x128x384_S1x128x384_0_0_0) shapeCasts_S1x128x384_S128x384 := by
  after_results
  all_goals rfl

theorem hostOps3_main_v30 :
    StableHlo.after hostOps3 W (Proc.devRef .tc main_v30)
      = shapeCast _ (extractStridedSlice S1x128x384 ![0, 0, 0] (W (Proc.devRef .tc main_arg9)) slices_S3x128x384_S1x128x384_0_0_0) shapeCasts_S1x128x384_S128x384 := by
  after_results
  all_goals rfl

end Cert.KernelIdeal.Hand

end
-- ==== Proof.KI.TakeMask.lean ====
import proofs.«406877_j20933670601167_1_alg».proof.Proof.Gen.KernelIdeal.Launch
import Idealize.ShloMosaic.Lib.ReduceAll
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

variable {F : FTy → Type} [FloatOps F] [Named F]

theorem foldl_andi_one_of_forall {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one_of_forall f l fun n hn => h n (List.mem_cons_of_mem _ hn)

theorem broadcastInDim_of_forall {α : Type} {s t : Shape} (dims : Fin s.rank → Fin t.rank) (h : s.BroadcastsInDim t dims)
    (R : s.Idx → α) (c : α) (hR : ∀ k, R k = c) (j : t.Idx) : broadcastInDim t dims h R j = c := hR _

theorem wrap_eq_self (idx : IVec S500000 32) (hr : ∀ e, 0 ≤ (idx e).toInt ∧ (idx e).toInt < 50000) :
    select (cmpi .slt idx (broadcastInDim S500000 ![] bcast_S_S500000 (constantI S_ 32 0#32)))
      (addi idx (broadcastInDim S500000 ![] bcast_S_S500000 (constantI S_ 32 50000#32))) idx = idx := by
  funext e
  refine if_neg fun hc => ?_
  have h0 := (hr e).1
  have hlt : (idx e).toInt < (0#32 : BitVec 32).toInt := IntOp.cmpi_slt.1 hc
  rw [show (0#32 : BitVec 32).toInt = 0 from by decide] at hlt
  omega

theorem take_eq_gather (x : FVec F S50000x128 .f32) (idx : IVec S500000 32)
    (hr : ∀ e, 0 ≤ (idx e).toInt ∧ (idx e).toInt < 50000) :
    select
      (broadcastInDim S500000x128 ![0] bcast_S500000_S500000x128_0
        (Host.reduce IntOp.andi
          (andi
            (cmpi .sge
              (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx))
              (broadcastInDim S500000x1 ![] bcast_S_S500000x1 (constantI S_ 32 0#32)))
            (cmpi .sle
              (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx))
              (broadcastInDim S500000x1 ![0, 1] bcast_S1x1_S500000x1_0_1 (broadcastInDim S1x1 ![1] bcast_S1_S1x1_1 (constantI S1 32 49999#32)))))
          (constantI S_ 1 1#1) reducesTo_S500000x1_S500000_d1 h_S_))
      (Host.gather gather_S50000x128_S500000x1_S500000x128_1_0_n_n_0_1_1128 x
        (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx)))
      (broadcastInDim S500000x128 ![] bcast_S_S500000x128 (constant S_ .f32 0x7FC00000#32))
    = Host.gather gather_S50000x128_S500000x1_S500000x128_1_0_n_n_0_1_1128 x
        (broadcastInDim S500000x1 ![0] bcast_S500000_S500000x1_0 (select (cmpi .slt idx (broadcastInDim S500000 ![] bcast_S_S500000 (constantI S_ 32 0#32))) (addi idx (broadcastInDim S500000 ![] bcast_S_S500000 (constantI S_ 32 50000#32))) idx)) := by
  rw [wrap_eq_self idx hr]
  funext j
  rw [select_apply, broadcastInDim_of_forall _ _ _ 1#1 ?_ j, select_one]
  intro k
  rw [Host.reduce_eq_foldl]
  refine foldl_andi_one_of_forall _ _ fun i _ => ?_
  obtain ⟨h0, h1⟩ := hr (fun a => if h1 : S500000.size a = 1 then ⟨0, by omega⟩ else ⟨(i ((![0] : Fin 1 → Fin 2) a)).val, by
      rcases bcast_S500000_S500000x1_0.2 a with h2 | h2
      · exact absurd h2 h1
      · rw [h2]; exact (i _).isLt⟩)
  refine IntOp.andi_eq_one.2 ⟨IntOp.cmpi_sge.2 ?_, IntOp.cmpi_sle.2 ?_⟩
  · exact h0
  · show _ ≤ (49999#32 : BitVec 32).toInt
    rw [show (49999#32 : BitVec 32).toInt = 49999 from by decide]
    exact Int.le_of_lt_add_one h1

end Cert.KernelIdeal.Hand

end
-- ==== Proof.RefReads.lean ====
import proofs.«406877_j20933670601167_1_alg».proof.Proof.RefStages
import proofs.«406877_j20933670601167_1_alg».proof.Proof.RefDots
import proofs.«406877_j20933670601167_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.Spec (col0 col1 col2)

theorem one_eq : Cert.Spec.one = 1 := IdealRules.sign_bit.ideal_onePat .f32

theorem rOne_apply (i : S50000x128.Idx) : rOne (F := Ideal) i = Cert.Spec.one := rfl

theorem rSigm_apply (a b : FVec Ideal S50000x128 .f32) (i : S50000x128.Idx) :
    rSigm (F := Ideal) a b i = Ideal.logistic (a i + b i) := by
  show Ideal.div Cert.Spec.one (Cert.Spec.one + Ideal.exp (-(a i + b i))) = _
  rw [one_eq]
  rfl

theorem cols0_apply {α : Type} (X : S50000x384.Idx → α) (p : Fin 50000) (q : Fin 128) :
    extractStridedSlice S50000x128 ![0, 0] X slices_S50000x384_S50000x128_0_0 (ix2 p q) = X (ix2 p (col0 q)) :=
  slice2_axis1_apply 0 X _ p q _ (Nat.zero_add _).symm

theorem cols1_apply {α : Type} (X : S50000x384.Idx → α) (p : Fin 50000) (q : Fin 128) :
    extractStridedSlice S50000x128 ![0, 128] X slices_S50000x384_S50000x128_0_128 (ix2 p q) = X (ix2 p (col1 q)) :=
  slice2_axis1_apply 128 X _ p q _ (Nat.add_comm _ _)

theorem cols2_apply {α : Type} (X : S50000x384.Idx → α) (p : Fin 50000) (q : Fin 128) :
    extractStridedSlice S50000x128 ![0, 256] X slices_S50000x384_S50000x128_0_256 (ix2 p q) = X (ix2 p (col2 q)) :=
  slice2_axis1_apply 256 X _ p q _ (Nat.add_comm _ _)

theorem rMsg_apply (hd hs e : FVec Ideal S500000x128 .f32) (Wv Ww We : FVec Ideal S128x128 .f32) (ct : FVec Ideal S1x128 .f32)
    (p : Fin 500000) (q : Fin 128) :
    rMsg (F := Ideal) hd hs e Wv Ww We ct (ix2 p q)
      = Cert.Spec.msg (fun a b => hd (ix2 a b)) (fun a b => hs (ix2 a b)) (fun a b => e (ix2 a b))
          (fun a b => Wv (ix2 a b)) (fun a b => Ww (ix2 a b)) (fun a b => We (ix2 a b)) (fun b => ct (ix2 0 b)) p q := by
  unfold rMsg
  simp only [addf, Ideal.addf_def, dot_S500000x128_S128x128_S500000x128_1_0_0_1_n_n_apply]
  rw [broadcastInDim_apply ![0, 1] bcast_S1x128_S500000x128_0_1 ct (ix2 p q) (ix2 0 q)
      (fun a => match a with | ⟨0, _⟩ => rfl | ⟨1, _⟩ => rfl)]
  rfl

theorem rGruOf_apply (gi gh : FVec Ideal S50000x384 .f32) (h : FVec Ideal S50000x128 .f32) (p : Fin 50000) (q : Fin 128) :
    rGruOf (F := Ideal) gi gh h (ix2 p q)
      = (Cert.Spec.one - Ideal.logistic (gi (ix2 p (col1 q)) + gh (ix2 p (col1 q))))
          * Ideal.tanh (gi (ix2 p (col2 q)) + Ideal.logistic (gi (ix2 p (col0 q)) + gh (ix2 p (col0 q))) * gh (ix2 p (col2 q)))
        + Ideal.logistic (gi (ix2 p (col1 q)) + gh (ix2 p (col1 q))) * h (ix2 p q) := by
  unfold rGruOf
  simp only [addf, mulf, subf, Host.tanh, rSigm_apply, cols0_apply, cols1_apply, cols2_apply, rOne_apply,
    Ideal.addf_def, Ideal.subf_def, Ideal.mulf_def, Ideal.hostUnary_tanh_def]

theorem rGi_apply (m : FVec Ideal S50000x128 .f32) (W : FVec Ideal S128x384 .f32) (bB : FVec Ideal S50000x384 .f32)
    (b : Fin 384 → EReal) (hb : ∀ p j, bB (ix2 p j) = b j) (p : Fin 50000) (j : Fin 384) :
    rGi (F := Ideal) m W bB (ix2 p j) = Cert.Spec.mm (fun a c => m (ix2 a c)) (fun a c => W (ix2 a c)) p j + b j := by
  show Host.dotGeneral dot_S50000x128_S128x384_S50000x384_1_0_0_1_n_n none m W (ix2 p j) + bB (ix2 p j) = _
  rw [dot_S50000x128_S128x384_S50000x384_1_0_0_1_n_n_apply, hb]
  rfl

theorem rGru_apply (m h : FVec Ideal S50000x128 .f32) (Wih Whh : FVec Ideal S128x384 .f32) (bihB bhhB : FVec Ideal S50000x384 .f32)
    (bih bhh : Fin 384 → EReal) (hbi : ∀ p j, bihB (ix2 p j) = bih j) (hbh : ∀ p j, bhhB (ix2 p j) = bhh j)
    (p : Fin 50000) (q : Fin 128) :
    rGru (F := Ideal) m h Wih Whh bihB bhhB (ix2 p q)
      = Cert.Spec.gru (fun a b => m (ix2 a b)) (fun a b => h (ix2 a b)) (fun a b => Wih (ix2 a b)) (fun a b => Whh (ix2 a b)) bih bhh p q := by
  unfold rGru
  rw [rGruOf_apply]
  simp only [rGi_apply m Wih bihB bih hbi, rGi_apply h Whh bhhB bhh hbh]
  rfl

theorem nodes_word : Ideal.ofBits .f32 0x47435000#32 = ((50000 : ℝ) : EReal) := by
  simp [Ideal.ofBits, Ideal.ieee, -EReal.coe_mul]
  norm_num

theorem colSum_apply (X : FVec Ideal S50000x128 .f32) (q : Fin 128) :
    broadcastInDim S1x128 ![1] bcast_S128_S1x128_1
        (Host.reduceAdd X (constant S_ .f32 0x00000000#32) reducesTo_S50000x128_S128_d0 h_S_) (ix2 0 q)
      = ∑ p : Fin 50000, X (ix2 p q) := by
  rw [broadcastInDim_apply ![1] bcast_S128_S1x128_1 _ (ix2 0 q) (ix1 q) (fun a => match a with | ⟨0, _⟩ => rfl)]
  have hr : S50000x128.Reduces [0] S128 := by decide
  show Ideal.hostReduceAdd reducesTo_S50000x128_S128_d0 X (Ideal.ofBits .f32 0x00000000#32) (ix1 q) = _
  rw [Ideal.hostReduceAdd_single reducesTo_S50000x128_S128_d0 hr, Ideal.ofBits_zero_f32, zero_add]
  refine Finset.sum_congr rfl fun p _ => congrArg X ?_
  funext c
  apply Fin.ext
  match c with
  | ⟨0, _⟩ => rfl
  | ⟨1, _⟩ => rfl

theorem rReadout_apply (h : FVec Ideal S50000x128 .f32) (W1 W2 : FVec Ideal S128x128 .f32) (b1B b2B : FVec Ideal S50000x128 .f32)
    (b1 b2 : Fin 128 → EReal) (hb1 : ∀ p j, b1B (ix2 p j) = b1 j) (hb2 : ∀ p j, b2B (ix2 p j) = b2 j) (q : Fin 128) :
    rReadout (F := Ideal) h W1 W2 b1B b2B (ix2 0 q)
      = Cert.Spec.readout (fun a b => h (ix2 a b)) (fun a b => W1 (ix2 a b)) (fun a b => W2 (ix2 a b)) b1 b2 q := by
  unfold rReadout
  show Ideal.div _ (Ideal.ofBits .f32 0x47435000#32) = _
  rw [colSum_apply, nodes_word, Ideal.div_coe (by norm_num : (50000 : ℝ) ≠ 0)]
  simp only [mulf, addf, Ideal.mulf_def, Ideal.addf_def, rSigm_apply, dot_S50000x128_S128x128_S50000x128_1_0_0_1_n_n_apply, hb1, hb2]
  rfl

section Blocks
variable {F : FTy → Type} [FloatOps F]

theorem rGateB_apply (b : FVec F S3x384 .f32) (k : Nat) (hs : S3x384.Slices ![k, 0] S1x384)
    (p : Fin 50000) (j : Fin 384) (hk : k < 3 := by omega) :
    rGateB b k hs (ix2 p j) = b (ix2 ⟨k, hk⟩ j) := by
  unfold rGateB
  rw [broadcastInDim_apply ![0, 1] bcast_S1x384_S50000x384_0_1 _ (ix2 p j) (ix2 0 j)
      (fun a => match a with | ⟨0, _⟩ => rfl | ⟨1, _⟩ => rfl),
    broadcastInDim_apply ![1] bcast_S384_S1x384_1 _ (ix2 0 j) (ix1 j) (fun a => match a with | ⟨0, _⟩ => rfl),
    shapeCast_1a_a_apply]
  exact slice2_axis0_apply k b hs 0 j ⟨k, hk⟩ rfl

theorem rRowB_apply (b : FVec F S128 .f32) (p : Fin 50000) (j : Fin 128) : rRowB b (ix2 p j) = b (ix1 j) := by
  unfold rRowB
  rw [broadcastInDim_apply ![0, 1] bcast_S1x128_S50000x128_0_1 _ (ix2 p j) (ix2 0 j)
      (fun a => match a with | ⟨0, _⟩ => rfl | ⟨1, _⟩ => rfl),
    broadcastInDim_apply ![1] bcast_S128_S1x128_1 _ (ix2 0 j) (ix1 j) (fun a => match a with | ⟨0, _⟩ => rfl)]

end Blocks

end Cert.ReferenceIdeal.RefValue

end
-- ==== Proof.Bridge.Msg0.lean ====
import proofs.«406877_j20933670601167_1_alg».proof.Proof.Bridge.Ctx
import proofs.«406877_j20933670601167_1_alg».proof.Proof.KI.Val2
import proofs.«406877_j20933670601167_1_alg».proof.Proof.KI.HostA
import proofs.«406877_j20933670601167_1_alg».proof.Proof.KI.TakeMask
import proofs.«406877_j20933670601167_1_alg».proof.Proof.RefReads

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

/-- A value read after steps that leave it unchanged is the value at the step that last set it. -/
macro "keep_back" m:term:max c:term:max : tactic =>
  `(tactic| simp (disch := decide) only [rd, keep1 $m $c, keep2 $m $c, keep3 $m $c, keep4 $m $c, keep5 $m $c, keep6 $m $c, keep7 $m $c, keep8 $m $c, keep9 $m $c, keep10 $m $c, keep11 $m $c, keep12 $m $c, keep13 $m $c, keep14 $m $c, keep15 $m $c, keep16 $m $c, keep17 $m $c, keep18 $m $c, keep19 $m $c, keep20 $m $c, keep21 $m $c, keep22 $m $c, keep23 $m $c])

/-- Seven arrays that are the masked row takes, the blocks of the stacked weight and the conditioning row of round `k` have as their message the reference's message stage: in-range indices make the mask keep every row. -/
theorem msg_core {k : Nat} {s0 : S3x388x128.Slices ![k, 0, 0] S1x128x128} {s1 : S3x388x128.Slices ![k, 128, 0] S1x128x128}
    {s2 : S3x388x128.Slices ![k, 256, 0] S1x128x128} {s3 : S3x388x128.Slices ![k, 384, 0] S1x4x128} {s4 : S3x128.Slices ![k, 0] S1x128}
    {x x' : FVec Ideal S50000x128 .f32} {i21 i20 : IVec S500000 32} {A2 : FVec Ideal S1x4 .f32} {A6 : FVec Ideal S3x388x128 .f32} {A7 : FVec Ideal S3x128 .f32}
    {hd hs e : S500000x128.Idx → EReal} {wv ww we : S128x128.Idx → EReal} {ct : S1x128.Idx → EReal}
    (e15 : hd = takeOf x i21) (e16 : hs = takeOf x' i20)
    (e3 : wv = shapeCast _ (extractStridedSlice S1x128x128 ![k, 0, 0] A6 s0) shapeCasts_S1x128x128_S128x128)
    (e5 : ww = shapeCast _ (extractStridedSlice S1x128x128 ![k, 128, 0] A6 s1) shapeCasts_S1x128x128_S128x128)
    (e7 : we = shapeCast _ (extractStridedSlice S1x128x128 ![k, 256, 0] A6 s2) shapeCasts_S1x128x128_S128x128)
    (e14 : ct = addf (Host.dotGeneral dot_S1x4_S4x128_S1x128_1_0_0_1_n_n none A2 (shapeCast _ (extractStridedSlice S1x4x128 ![k, 384, 0] A6 s3) shapeCasts_S1x4x128_S4x128))
      (broadcastInDim S1x128 ![1] bcast_S128_S1x128_1 (shapeCast _ (extractStridedSlice S1x128 ![k, 0] A7 s4) shapeCasts_S1x128_S128)))
    (r21 : ∀ j, 0 ≤ (i21 j).toInt ∧ (i21 j).toInt < 50000) (r20 : ∀ j, 0 ≤ (i20 j).toInt ∧ (i20 j).toInt < 50000)
    (p : Fin 500000) (q : Fin 128) :
    Cert.Spec.msg (fun a b => hd (ix2 a b)) (fun a b => hs (ix2 a b)) (fun a b => e (ix2 a b)) (fun a b => wv (ix2 a b))
        (fun a b => ww (ix2 a b)) (fun a b => we (ix2 a b)) (fun b => ct (ix2 (0 : Fin 1) b)) p q
      = rMsg (F := Ideal) (rTake x i21) (rTake x' i20) e (rBlock A6 k 0 s0) (rBlock A6 k 128 s1) (rBlock A6 k 256 s2) (rCond A2 A6 A7 k s3 s4) (ix2 p q) := by
  subst e15 e16 e3 e5 e7 e14
  unfold takeOf
  rw [take_eq_gather x i21 r21, take_eq_gather x' i20 r20, rMsg_apply]
  rfl

variable (m : KMem) (c : Dev Cert.KernelIdeal.nD) (V0 : RVal)

theorem msg0_eq (ag : Agree m c V0)
    (h0 : (Cert.KernelIdeal.Hand.X1 m c Cert.KernelIdeal.main_v0 : Cert.KernelIdeal.S50000x128.Idx → EReal) = Cert.ReferenceIdeal.Value.res_main_v0 V0)
    (he : (Cert.KernelIdeal.Hand.X2 m c Cert.KernelIdeal.main_v1 : Cert.KernelIdeal.S500000x128.Idx → EReal) = Cert.ReferenceIdeal.Value.res_main_v1 V0) :
    (Cert.KernelIdeal.Hand.X6 m c Cert.KernelIdeal.main_v17 : Cert.KernelIdeal.S500000x128.Idx → EReal)
      = Cert.ReferenceIdeal.RefValue.rMsg (Cert.ReferenceIdeal.RefValue.rTake (Cert.ReferenceIdeal.Value.res_main_v0 V0) (V0 (Proc.devRef .tc Cert.ReferenceIdeal.main_arg21)))
          (Cert.ReferenceIdeal.RefValue.rTake (Cert.ReferenceIdeal.Value.res_main_v0 V0) (V0 (Proc.devRef .tc Cert.ReferenceIdeal.main_arg20)))
          (Cert.ReferenceIdeal.Value.res_main_v1 V0) (Cert.ReferenceIdeal.RefValue.rWv0 V0) (Cert.ReferenceIdeal.RefValue.rWw0 V0) (Cert.ReferenceIdeal.RefValue.rWe0 V0) (Cert.ReferenceIdeal.RefValue.rCt0 V0) := by
  funext i
  obtain ⟨p, q, rfl⟩ : ∃ p q, i = ix2 p q := ⟨i 0, i 1, eq_ix2 i⟩
  rw [show X6 m c main_v17 = a6 m c from Function.update_self _ _ _, a6, arr2_apply]
  keep_back m c
  refine (msg_core (hostOps2_1_main_v15 (X3 m c)) (hostOps2_2_main_v16 (X4 m c)) (hostOps2_main_v3 (X2 m c)) (hostOps2_main_v5 _)
    (hostOps2_main_v7 _) (hostOps2_main_v14 _) ?_ ?_ p q).trans ?_ <;> keep_back m c
  · exact ag.r21
  · exact ag.r20
  · rw [h0, he, ← ag.a21, ← ag.a20, ← ag.a6, ← ag.a2, ← ag.a7]
    rfl

end Cert.Proof.Bridge

end
-- ==== Proof.KI.Val4.lean ====
import proofs.«406877_j20933670601167_1_alg».proof.Proof.KI.Reg4
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off4 : ∀ t : Fin cfg4.N,
    (fun a => win4_0.index t a * S10000x128.size a) = ![t.val * 10000, 0]
    ∧ (fun a => win4_1.index t a * S10000x128.size a) = ![t.val * 10000, 0]
    ∧ (fun a => win4_2.index t a * S10000x128.size a) = ![t.val * 10000, 0]
    ∧ (fun a => win4_3.index t a * S128x128.size a) = ![0, 0]
    ∧ (fun a => win4_4.index t a * S128x128.size a) = ![0, 0]
    ∧ (fun a => win4_5.index t a * S128x128.size a) = ![0, 0]
    ∧ (fun a => win4_6.index t a * S1x128.size a) = ![0, 0]
    ∧ (fun a => win4_7.index t a * S10000x128.size a) = ![t.val * 10000, 0] :=
  (by decide +kernel : ∀ t : Fin grid4.N, _)

variable (V : (c : Dev nD) → (b : Ref sig .tc) → Buf (Elt Ideal) ((c : Thread nD τ).loc b))

/-- The input blocks at point `t`: rows `t * 10000 +` of the three row arrays, and the weights and the added row whole. -/
private theorem in4 (c : Dev nD) (t : Fin cfg4.N) :
    (∀ (y : S10000x128.Idx) (i : S500000x128.Idx), (i 0 : ℕ) = t.val * 10000 + y 0 ∧ (i 1 : ℕ) = y 1 →
        (iblk4 (F := Ideal) V c 0 t : S10000x128.Idx → EReal) y = (V c main_v45 : S500000x128.Idx → EReal) i)
    ∧ (∀ (y : S10000x128.Idx) (i : S500000x128.Idx), (i 0 : ℕ) = t.val * 10000 + y 0 ∧ (i 1 : ℕ) = y 1 →
        (iblk4 (F := Ideal) V c 1 t : S10000x128.Idx → EReal) y = (V c main_v46 : S500000x128.Idx → EReal) i)
    ∧ (∀ (y : S10000x128.Idx) (i : S500000x128.Idx), (i 0 : ℕ) = t.val * 10000 + y 0 ∧ (i 1 : ℕ) = y 1 →
        (iblk4 (F := Ideal) V c 2 t : S10000x128.Idx → EReal) y = (V c main_v1 : S500000x128.Idx → EReal) i)
    ∧ (iblk4 (F := Ideal) V c 3 t : S128x128.Idx → EReal) = V c main_v33 ∧ (iblk4 (F := Ideal) V c 4 t : S128x128.Idx → EReal) = V c main_v35
    ∧ (iblk4 (F := Ideal) V c 5 t : S128x128.Idx → EReal) = V c main_v37 ∧ (iblk4 (F := Ideal) V c 6 t : S1x128.Idx → EReal) = V c main_v44 :=
  let ⟨o0, o1, o2, o3, o4, o5, o6, _⟩ := off4 t
  ⟨unit_get o0 _, unit_get o1 _, unit_get o2 _, unit_read o3 _, unit_read o4 _, unit_read o5 _, unit_read o6 _⟩

/-- Point `t`'s output block is block `t` of the message of the input arrays. -/
private theorem flushed4 (c : Dev nD) (t : Fin cfg4.N) :
    (dat4 (F := Ideal) V c).flushed 7 t = ((cfg4.win 7).blk t).view.read (Elt Ideal)
      (msgArr (V c main_v45) (V c main_v46) (V c main_v1) (V c main_v33) (V c main_v35) (V c main_v37) (V c main_v44)) := by
  obtain ⟨h0, h1, h2, g0, g1, g2, gb⟩ := in4 V c t
  show (cfg4.win 7).cut (grid4.coords t) ((dat4 (F := Ideal) V c).after 7 t) = _
  rw [after4_7]
  unfold out4_7
  rw [View.canon_unit_zero hz]
  simp only [View.ld_unit_zero (S := S10000x128) hz, View.ld_unit_zero (S := S128x128) hz, View.ld_unit_zero (S := S1x128) hz]
  funext j
  exact pay_msg h0 h1 h2 g0 g1 g2 gb (unit_val (off4 t).2.2.2.2.2.2.2 j)

/-- Row `p` lies in the block of point `p / 10000`. -/
private theorem covered4 (i : S500000x128.Idx) :
    ∃ t : Fin cfg4.N, (cfg4.win 7).flush t = true ∧ i ∈ ((cfg4.win 7).blk t).view.set := by
  have hi : (i 0).val < 500000 := (i 0).isLt
  obtain ⟨t, ht⟩ : ∃ t : Fin cfg4.N, t.val = (i 0).val / 10000 := ⟨⟨_, (by omega : (i 0).val / 10000 < 50)⟩, rfl⟩
  obtain ⟨y, hy⟩ := unit_mem (off4 t).2.2.2.2.2.2.2 i (by omega) (by omega) (i 1).isLt
  exact ⟨t, flush4_7 t, hy ▸ View.emb_mem_set _ y⟩

theorem arr4_apply (c : Dev nD) (p : Fin 500000) (q : Fin 128) :
    ((dat4 (F := Ideal) V c).arrAt 7 cfg4.N : S500000x128.Idx → EReal) (ix2 p q)
      = Cert.Spec.msg (fun a b => (V c main_v45 : S500000x128.Idx → EReal) (ix2 a b))
          (fun a b => (V c main_v46 : S500000x128.Idx → EReal) (ix2 a b))
          (fun a b => (V c main_v1 : S500000x128.Idx → EReal) (ix2 a b))
          (fun a b => (V c main_v33 : S128x128.Idx → EReal) (ix2 a b))
          (fun a b => (V c main_v35 : S128x128.Idx → EReal) (ix2 a b))
          (fun a b => (V c main_v37 : S128x128.Idx → EReal) (ix2 a b))
          (fun b => (V c main_v44 : S1x128.Idx → EReal) (ix2 (0 : Fin 1) b)) p q :=
  congrFun ((dat4 (F := Ideal) V c).arrAt_eq_of_cover 7 _ (fun t _ => flushed4 V c t) covered4) _

end Cert.KernelIdeal.Hand

end
-- ==== Proof.KI.HostB.lean ====
import proofs.«406877_j20933670601167_1_alg».proof.Proof.KI.HostA

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F] (W : Valuation τ sig (Elt F))

theorem hostOps4_main_v33 :
    StableHlo.after hostOps4 W (Proc.devRef .tc main_v33)
      = shapeCast _ (extractStridedSlice S1x128x128 ![1, 0, 0] (W (Proc.devRef .tc main_arg6)) slices_S3x388x128_S1x128x128_1_0_0) shapeCasts_S1x128x128_S128x128 := by
  after_results
  all_goals rfl

theorem hostOps4_main_v35 :
    StableHlo.after hostOps4 W (Proc.devRef .tc main_v35)
      = shapeCast _ (extractStridedSlice S1x128x128 ![1, 128, 0] (W (Proc.devRef .tc main_arg6)) slices_S3x388x128_S1x128x128_1_128_0) shapeCasts_S1x128x128_S128x128 := by
  after_results
  all_goals rfl

theorem hostOps4_main_v37 :
    StableHlo.after hostOps4 W (Proc.devRef .tc main_v37)
      = shapeCast _ (extractStridedSlice S1x128x128 ![1, 256, 0] (W (Proc.devRef .tc main_arg6)) slices_S3x388x128_S1x128x128_1_256_0) shapeCasts_S1x128x128_S128x128 := by
  after_results
  all_goals rfl

theorem hostOps4_main_v44 :
    StableHlo.after hostOps4 W (Proc.devRef .tc main_v44)
      = addf (Host.dotGeneral dot_S1x4_S4x128_S1x128_1_0_0_1_n_n none (W (Proc.devRef .tc main_arg2))
            (shapeCast _ (extractStridedSlice S1x4x128 ![1, 384, 0] (W (Proc.devRef .tc main_arg6)) slices_S3x388x128_S1x4x128_1_384_0) shapeCasts_S1x4x128_S4x128))
          (broadcastInDim S1x128 ![1] bcast_S128_S1x128_1
            (shapeCast _ (extractStridedSlice S1x128 ![1, 0] (W (Proc.devRef .tc main_arg7)) slices_S3x128_S1x128_1_0) shapeCasts_S1x128_S128)) := by
  after_results
  all_goals rfl

set_option maxHeartbeats 2000000 in
theorem hostOps4_1_main_v45 :
    StableHlo.after hostOps4_1 W (Proc.devRef .tc main_v45) = takeOf (W (Proc.devRef .tc main_v31)) (W (Proc.devRef .tc main_arg21)) := by
  unfold takeOf
  simp only [hostOps4_1]
  after_results_simp
  simp only [ofBuf_toBuf]
  simp only [StableHlo.TRef.toBuf, StableHlo.TRef.ofBuf, cast_eq] <;> rfl

set_option maxHeartbeats 2000000 in
theorem hostOps4_2_main_v46 :
    StableHlo.after hostOps4_2 W (Proc.devRef .tc main_v46) = takeOf (W (Proc.devRef .tc main_v31)) (W (Proc.devRef .tc main_arg20)) := by
  unfold takeOf
  simp only [hostOps4_2]
  after_results_simp
  simp only [ofBuf_toBuf]
  simp only [StableHlo.TRef.toBuf, StableHlo.TRef.ofBuf, cast_eq] <;> rfl

theorem hostOps5_main_v50 :
    StableHlo.after hostOps5 W (Proc.devRef .tc main_v50)
      = Host.scatterAdd scatter_S50000x128_S500000x1_S500000x128_1_0_0_1
          (broadcastInDim S50000x128 ![] bcast_S_S50000x128 (constant (F := F) S_ .f32 0x00000000#32))
          (broadcastInDim S500000x1 ![0] bcast_S500000_S500000x1_0 (W (Proc.devRef .tc main_arg21)))
          (W (Proc.devRef .tc main_v47)) := by
  after_results
  all_goals rfl

theorem hostOps5_main_v53 :
    StableHlo.after hostOps5 W (Proc.devRef .tc main_v53)
      = shapeCast _ (shapeCast _ (extractStridedSlice S1x384 ![1, 0] (W (Proc.devRef .tc main_arg10)) slices_S3x384_S1x384_1_0) shapeCasts_S1x384_S384) shapeCasts_S384_S1x384 := by
  after_results
  all_goals rfl

theorem hostOps5_main_v56 :
    StableHlo.after hostOps5 W (Proc.devRef .tc main_v56)
      = shapeCast _ (shapeCast _ (extractStridedSlice S1x384 ![1, 0] (W (Proc.devRef .tc main_arg11)) slices_S3x384_S1x384_1_0) shapeCasts_S1x384_S384) shapeCasts_S384_S1x384 := by
  after_results
  all_goals rfl

theorem hostOps5_main_v58 :
    StableHlo.after hostOps5 W (Proc.devRef .tc main_v58)
      = shapeCast _ (extractStridedSlice S1x128x384 ![1, 0, 0] (W (Proc.devRef .tc main_arg8)) slices_S3x128x384_S1x128x384_1_0_0) shapeCasts_S1x128x384_S128x384 := by
  after_results
  all_goals rfl

theorem hostOps5_main_v60 :
    StableHlo.after hostOps5 W (Proc.devRef .tc main_v60)
      = shapeCast _ (extractStridedSlice S1x128x384 ![1, 0, 0] (W (Proc.devRef .tc main_arg9)) slices_S3x128x384_S1x128x384_1_0_0) shapeCasts_S1x128x384_S128x384 := by
  after_results
  all_goals rfl

end Cert.KernelIdeal.Hand

end
-- ==== Proof.Bridge.Msg1.lean ====
import proofs.«406877_j20933670601167_1_alg».proof.Proof.Bridge.Msg0
import proofs.«406877_j20933670601167_1_alg».proof.Proof.KI.Val4
import proofs.«406877_j20933670601167_1_alg».proof.Proof.KI.HostB

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

variable (m : KMem) (c : Dev Cert.KernelIdeal.nD) (V0 : RVal)

theorem msg1_eq (ag : Agree m c V0)
    (h0 : (Cert.KernelIdeal.Hand.X8 m c Cert.KernelIdeal.main_v31 : Cert.KernelIdeal.S50000x128.Idx → EReal) = Cert.ReferenceIdeal.Value.res_main_v82 V0)
    (he : (Cert.KernelIdeal.Hand.X2 m c Cert.KernelIdeal.main_v1 : Cert.KernelIdeal.S500000x128.Idx → EReal) = Cert.ReferenceIdeal.Value.res_main_v1 V0) :
    (Cert.KernelIdeal.Hand.X12 m c Cert.KernelIdeal.main_v47 : Cert.KernelIdeal.S500000x128.Idx → EReal)
      = Cert.ReferenceIdeal.RefValue.rMsg (Cert.ReferenceIdeal.RefValue.rTake (Cert.ReferenceIdeal.Value.res_main_v82 V0) (V0 (Proc.devRef .tc Cert.ReferenceIdeal.main_arg21)))
          (Cert.ReferenceIdeal.RefValue.rTake (Cert.ReferenceIdeal.Value.res_main_v82 V0) (V0 (Proc.devRef .tc Cert.ReferenceIdeal.main_arg20)))
          (Cert.ReferenceIdeal.Value.res_main_v1 V0) (Cert.ReferenceIdeal.RefValue.rWv1 V0) (Cert.ReferenceIdeal.RefValue.rWw1 V0) (Cert.ReferenceIdeal.RefValue.rWe1 V0) (Cert.ReferenceIdeal.RefValue.rCt1 V0) := by
  funext i
  obtain ⟨p, q, rfl⟩ : ∃ p q, i = ix2 p q := ⟨i 0, i 1, eq_ix2 i⟩
  rw [show X12 m c main_v47 = a12 m c from Function.update_self _ _ _, a12, arr4_apply]
  keep_back m c
  refine (msg_core (hostOps4_1_main_v45 (X9 m c)) (hostOps4_2_main_v46 (X10 m c)) (hostOps4_main_v33 (X8 m c)) (hostOps4_main_v35 _)
    (hostOps4_main_v37 _) (hostOps4_main_v44 _) ?_ ?_ p q).trans ?_ <;> keep_back m c
  · exact ag.r21
  · exact ag.r20
  · rw [h0, he, ← ag.a21, ← ag.a20, ← ag.a6, ← ag.a2, ← ag.a7]
    rfl

end Cert.Proof.Bridge

end
-- ==== Proof.KI.Val6.lean ====
import proofs.«406877_j20933670601167_1_alg».proof.Proof.KI.Reg6
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off6 : ∀ t : Fin cfg6.N,
    (fun a => win6_0.index t a * S10000x128.size a) = ![t.val * 10000, 0]
    ∧ (fun a => win6_1.index t a * S10000x128.size a) = ![t.val * 10000, 0]
    ∧ (fun a => win6_2.index t a * S10000x128.size a) = ![t.val * 10000, 0]
    ∧ (fun a => win6_3.index t a * S128x128.size a) = ![0, 0]
    ∧ (fun a => win6_4.index t a * S128x128.size a) = ![0, 0]
    ∧ (fun a => win6_5.index t a * S128x128.size a) = ![0, 0]
    ∧ (fun a => win6_6.index t a * S1x128.size a) = ![0, 0]
    ∧ (fun a => win6_7.index t a * S10000x128.size a) = ![t.val * 10000, 0] :=
  (by decide +kernel : ∀ t : Fin grid6.N, _)

variable (V : (c : Dev nD) → (b : Ref sig .tc) → Buf (Elt Ideal) ((c : Thread nD τ).loc b))

/-- The input blocks at point `t`: rows `t * 10000 +` of the three row arrays, and the weights and the added row whole. -/
private theorem in6 (c : Dev nD) (t : Fin cfg6.N) :
    (∀ (y : S10000x128.Idx) (i : S500000x128.Idx), (i 0 : ℕ) = t.val * 10000 + y 0 ∧ (i 1 : ℕ) = y 1 →
        (iblk6 (F := Ideal) V c 0 t : S10000x128.Idx → EReal) y = (V c main_v75 : S500000x128.Idx → EReal) i)
    ∧ (∀ (y : S10000x128.Idx) (i : S500000x128.Idx), (i 0 : ℕ) = t.val * 10000 + y 0 ∧ (i 1 : ℕ) = y 1 →
        (iblk6 (F := Ideal) V c 1 t : S10000x128.Idx → EReal) y = (V c main_v76 : S500000x128.Idx → EReal) i)
    ∧ (∀ (y : S10000x128.Idx) (i : S500000x128.Idx), (i 0 : ℕ) = t.val * 10000 + y 0 ∧ (i 1 : ℕ) = y 1 →
        (iblk6 (F := Ideal) V c 2 t : S10000x128.Idx → EReal) y = (V c main_v1 : S500000x128.Idx → EReal) i)
    ∧ (iblk6 (F := Ideal) V c 3 t : S128x128.Idx → EReal) = V c main_v63 ∧ (iblk6 (F := Ideal) V c 4 t : S128x128.Idx → EReal) = V c main_v65
    ∧ (iblk6 (F := Ideal) V c 5 t : S128x128.Idx → EReal) = V c main_v67 ∧ (iblk6 (F := Ideal) V c 6 t : S1x128.Idx → EReal) = V c main_v74 :=
  let ⟨o0, o1, o2, o3, o4, o5, o6, _⟩ := off6 t
  ⟨unit_get o0 _, unit_get o1 _, unit_get o2 _, unit_read o3 _, unit_read o4 _, unit_read o5 _, unit_read o6 _⟩

/-- Point `t`'s output block is block `t` of the message of the input arrays. -/
private theorem flushed6 (c : Dev nD) (t : Fin cfg6.N) :
    (dat6 (F := Ideal) V c).flushed 7 t = ((cfg6.win 7).blk t).view.read (Elt Ideal)
      (msgArr (V c main_v75) (V c main_v76) (V c main_v1) (V c main_v63) (V c main_v65) (V c main_v67) (V c main_v74)) := by
  obtain ⟨h0, h1, h2, g0, g1, g2, gb⟩ := in6 V c t
  show (cfg6.win 7).cut (grid6.coords t) ((dat6 (F := Ideal) V c).after 7 t) = _
  rw [after6_7]
  unfold out6_7
  rw [View.canon_unit_zero hz]
  simp only [View.ld_unit_zero (S := S10000x128) hz, View.ld_unit_zero (S := S128x128) hz, View.ld_unit_zero (S := S1x128) hz]
  funext j
  exact pay_msg h0 h1 h2 g0 g1 g2 gb (unit_val (off6 t).2.2.2.2.2.2.2 j)

/-- Row `p` lies in the block of point `p / 10000`. -/
private theorem covered6 (i : S500000x128.Idx) :
    ∃ t : Fin cfg6.N, (cfg6.win 7).flush t = true ∧ i ∈ ((cfg6.win 7).blk t).view.set := by
  have hi : (i 0).val < 500000 := (i 0).isLt
  obtain ⟨t, ht⟩ : ∃ t : Fin cfg6.N, t.val = (i 0).val / 10000 := ⟨⟨_, (by omega : (i 0).val / 10000 < 50)⟩, rfl⟩
  obtain ⟨y, hy⟩ := unit_mem (off6 t).2.2.2.2.2.2.2 i (by omega) (by omega) (i 1).isLt
  exact ⟨t, flush6_7 t, hy ▸ View.emb_mem_set _ y⟩

theorem arr6_apply (c : Dev nD) (p : Fin 500000) (q : Fin 128) :
    ((dat6 (F := Ideal) V c).arrAt 7 cfg6.N : S500000x128.Idx → EReal) (ix2 p q)
      = Cert.Spec.msg (fun a b => (V c main_v75 : S500000x128.Idx → EReal) (ix2 a b))
          (fun a b => (V c main_v76 : S500000x128.Idx → EReal) (ix2 a b))
          (fun a b => (V c main_v1 : S500000x128.Idx → EReal) (ix2 a b))
          (fun a b => (V c main_v63 : S128x128.Idx → EReal) (ix2 a b))
          (fun a b => (V c main_v65 : S128x128.Idx → EReal) (ix2 a b))
          (fun a b => (V c main_v67 : S128x128.Idx → EReal) (ix2 a b))
          (fun b => (V c main_v74 : S1x128.Idx → EReal) (ix2 (0 : Fin 1) b)) p q :=
  congrFun ((dat6 (F := Ideal) V c).arrAt_eq_of_cover 7 _ (fun t _ => flushed6 V c t) covered6) _

end Cert.KernelIdeal.Hand

end
-- ==== Proof.KI.HostC.lean ====
import proofs.«406877_j20933670601167_1_alg».proof.Proof.KI.HostA

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F] (W : Valuation τ sig (Elt F))

theorem hostOps6_main_v63 :
    StableHlo.after hostOps6 W (Proc.devRef .tc main_v63)
      = shapeCast _ (extractStridedSlice S1x128x128 ![2, 0, 0] (W (Proc.devRef .tc main_arg6)) slices_S3x388x128_S1x128x128_2_0_0) shapeCasts_S1x128x128_S128x128 := by
  after_results
  all_goals rfl

theorem hostOps6_main_v65 :
    StableHlo.after hostOps6 W (Proc.devRef .tc main_v65)
      = shapeCast _ (extractStridedSlice S1x128x128 ![2, 128, 0] (W (Proc.devRef .tc main_arg6)) slices_S3x388x128_S1x128x128_2_128_0) shapeCasts_S1x128x128_S128x128 := by
  after_results
  all_goals rfl

theorem hostOps6_main_v67 :
    StableHlo.after hostOps6 W (Proc.devRef .tc main_v67)
      = shapeCast _ (extractStridedSlice S1x128x128 ![2, 256, 0] (W (Proc.devRef .tc main_arg6)) slices_S3x388x128_S1x128x128_2_256_0) shapeCasts_S1x128x128_S128x128 := by
  after_results
  all_goals rfl

theorem hostOps6_main_v74 :
    StableHlo.after hostOps6 W (Proc.devRef .tc main_v74)
      = addf (Host.dotGeneral dot_S1x4_S4x128_S1x128_1_0_0_1_n_n none (W (Proc.devRef .tc main_arg2))
            (shapeCast _ (extractStridedSlice S1x4x128 ![2, 384, 0] (W (Proc.devRef .tc main_arg6)) slices_S3x388x128_S1x4x128_2_384_0) shapeCasts_S1x4x128_S4x128))
          (broadcastInDim S1x128 ![1] bcast_S128_S1x128_1
            (shapeCast _ (extractStridedSlice S1x128 ![2, 0] (W (Proc.devRef .tc main_arg7)) slices_S3x128_S1x128_2_0) shapeCasts_S1x128_S128)) := by
  after_results
  all_goals rfl

set_option maxHeartbeats 2000000 in
theorem hostOps6_1_main_v75 :
    StableHlo.after hostOps6_1 W (Proc.devRef .tc main_v75) = takeOf (W (Proc.devRef .tc main_v61)) (W (Proc.devRef .tc main_arg21)) := by
  unfold takeOf
  simp only [hostOps6_1]
  after_results_simp
  simp only [ofBuf_toBuf]
  simp only [StableHlo.TRef.toBuf, StableHlo.TRef.ofBuf, cast_eq] <;> rfl

set_option maxHeartbeats 2000000 in
theorem hostOps6_2_main_v76 :
    StableHlo.after hostOps6_2 W (Proc.devRef .tc main_v76) = takeOf (W (Proc.devRef .tc main_v61)) (W (Proc.devRef .tc main_arg20)) := by
  unfold takeOf
  simp only [hostOps6_2]
  after_results_simp
  simp only [ofBuf_toBuf]
  simp only [StableHlo.TRef.toBuf, StableHlo.TRef.ofBuf, cast_eq] <;> rfl

theorem hostOps7_main_v80 :
    StableHlo.after hostOps7 W (Proc.devRef .tc main_v80)
      = Host.scatterAdd scatter_S50000x128_S500000x1_S500000x128_1_0_0_1
          (broadcastInDim S50000x128 ![] bcast_S_S50000x128 (constant (F := F) S_ .f32 0x00000000#32))
          (broadcastInDim S500000x1 ![0] bcast_S500000_S500000x1_0 (W (Proc.devRef .tc main_arg21)))
          (W (Proc.devRef .tc main_v77)) := by
  after_results
  all_goals rfl

theorem hostOps7_main_v83 :
    StableHlo.after hostOps7 W (Proc.devRef .tc main_v83)
      = shapeCast _ (shapeCast _ (extractStridedSlice S1x384 ![2, 0] (W (Proc.devRef .tc main_arg10)) slices_S3x384_S1x384_2_0) shapeCasts_S1x384_S384) shapeCasts_S384_S1x384 := by
  after_results
  all_goals rfl

theorem hostOps7_main_v86 :
    StableHlo.after hostOps7 W (Proc.devRef .tc main_v86)
      = shapeCast _ (shapeCast _ (extractStridedSlice S1x384 ![2, 0] (W (Proc.devRef .tc main_arg11)) slices_S3x384_S1x384_2_0) shapeCasts_S1x384_S384) shapeCasts_S384_S1x384 := by
  after_results
  all_goals rfl

theorem hostOps7_main_v88 :
    StableHlo.after hostOps7 W (Proc.devRef .tc main_v88)
      = shapeCast _ (extractStridedSlice S1x128x384 ![2, 0, 0] (W (Proc.devRef .tc main_arg8)) slices_S3x128x384_S1x128x384_2_0_0) shapeCasts_S1x128x384_S128x384 := by
  after_results
  all_goals rfl

theorem hostOps7_main_v90 :
    StableHlo.after hostOps7 W (Proc.devRef .tc main_v90)
      = shapeCast _ (extractStridedSlice S1x128x384 ![2, 0, 0] (W (Proc.devRef .tc main_arg9)) slices_S3x128x384_S1x128x384_2_0_0) shapeCasts_S1x128x384_S128x384 := by
  after_results
  all_goals rfl

end Cert.KernelIdeal.Hand

end
-- ==== Proof.Bridge.Msg2.lean ====
import proofs.«406877_j20933670601167_1_alg».proof.Proof.Bridge.Msg0
import proofs.«406877_j20933670601167_1_alg».proof.Proof.KI.Val6
import proofs.«406877_j20933670601167_1_alg».proof.Proof.KI.HostC

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

variable (m : KMem) (c : Dev Cert.KernelIdeal.nD) (V0 : RVal)

theorem msg2_eq (ag : Agree m c V0)
    (h0 : (Cert.KernelIdeal.Hand.X14 m c Cert.KernelIdeal.main_v61 : Cert.KernelIdeal.S50000x128.Idx → EReal) = Cert.ReferenceIdeal.Value.res_main_v163 V0)
    (he : (Cert.KernelIdeal.Hand.X2 m c Cert.KernelIdeal.main_v1 : Cert.KernelIdeal.S500000x128.Idx → EReal) = Cert.ReferenceIdeal.Value.res_main_v1 V0) :
    (Cert.KernelIdeal.Hand.X18 m c Cert.KernelIdeal.main_v77 : Cert.KernelIdeal.S500000x128.Idx → EReal)
      = Cert.ReferenceIdeal.RefValue.rMsg (Cert.ReferenceIdeal.RefValue.rTake (Cert.ReferenceIdeal.Value.res_main_v163 V0) (V0 (Proc.devRef .tc Cert.ReferenceIdeal.main_arg21)))
          (Cert.ReferenceIdeal.RefValue.rTake (Cert.ReferenceIdeal.Value.res_main_v163 V0) (V0 (Proc.devRef .tc Cert.ReferenceIdeal.main_arg20)))
          (Cert.ReferenceIdeal.Value.res_main_v1 V0) (Cert.ReferenceIdeal.RefValue.rWv2 V0) (Cert.ReferenceIdeal.RefValue.rWw2 V0) (Cert.ReferenceIdeal.RefValue.rWe2 V0) (Cert.ReferenceIdeal.RefValue.rCt2 V0) := by
  funext i
  obtain ⟨p, q, rfl⟩ : ∃ p q, i = ix2 p q := ⟨i 0, i 1, eq_ix2 i⟩
  rw [show X18 m c main_v77 = a18 m c from Function.update_self _ _ _, a18, arr6_apply]
  keep_back m c
  refine (msg_core (hostOps6_1_main_v75 (X15 m c)) (hostOps6_2_main_v76 (X16 m c)) (hostOps6_main_v63 (X14 m c)) (hostOps6_main_v65 _)
    (hostOps6_main_v67 _) (hostOps6_main_v74 _) ?_ ?_ p q).trans ?_ <;> keep_back m c
  · exact ag.r21
  · exact ag.r20
  · rw [h0, he, ← ag.a21, ← ag.a20, ← ag.a6, ← ag.a2, ← ag.a7]
    rfl

end Cert.Proof.Bridge

end
-- ==== Proof.KI.Val3.lean ====
import proofs.«406877_j20933670601167_1_alg».proof.Proof.KI.Reg3
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off3 : ∀ t : Fin cfg3.N,
    (fun a => win3_0.index t a * S10000x128.size a) = ![t.val * 10000, 0]
    ∧ (fun a => win3_1.index t a * S10000x128.size a) = ![t.val * 10000, 0]
    ∧ (fun a => win3_2.index t a * S128x384.size a) = ![0, 0]
    ∧ (fun a => win3_3.index t a * S128x384.size a) = ![0, 0]
    ∧ (fun a => win3_4.index t a * S1x384.size a) = ![0, 0]
    ∧ (fun a => win3_5.index t a * S1x384.size a) = ![0, 0]
    ∧ (fun a => win3_6.index t a * S10000x128.size a) = ![t.val * 10000, 0] :=
  (by decide +kernel : ∀ t : Fin grid3.N, _)

variable (V : (c : Dev nD) → (b : Ref sig .tc) → Buf (Elt Ideal) ((c : Thread nD τ).loc b))

/-- The input blocks at point `t`: rows `t * 10000 +` of the two row arrays, and the weights and the added rows whole. -/
private theorem in3 (c : Dev nD) (t : Fin cfg3.N) :
    (∀ (y : S10000x128.Idx) (i : S50000x128.Idx), (i 0 : ℕ) = t.val * 10000 + y 0 ∧ (i 1 : ℕ) = y 1 →
        (iblk3 (F := Ideal) V c 0 t : S10000x128.Idx → EReal) y = (V c main_v20 : S50000x128.Idx → EReal) i)
    ∧ (∀ (y : S10000x128.Idx) (i : S50000x128.Idx), (i 0 : ℕ) = t.val * 10000 + y 0 ∧ (i 1 : ℕ) = y 1 →
        (iblk3 (F := Ideal) V c 1 t : S10000x128.Idx → EReal) y = (V c main_v0 : S50000x128.Idx → EReal) i)
    ∧ (iblk3 (F := Ideal) V c 2 t : S128x384.Idx → EReal) = V c main_v28 ∧ (iblk3 (F := Ideal) V c 3 t : S128x384.Idx → EReal) = V c main_v30
    ∧ (iblk3 (F := Ideal) V c 4 t : S1x384.Idx → EReal) = V c main_v23 ∧ (iblk3 (F := Ideal) V c 5 t : S1x384.Idx → EReal) = V c main_v26 :=
  let ⟨o0, o1, o2, o3, o4, o5, _⟩ := off3 t
  ⟨unit_get o0 _, unit_get o1 _, unit_read o2 _, unit_read o3 _, unit_read o4 _, unit_read o5 _⟩

/-- Point `t`'s output block is block `t` of the cell of the input arrays. -/
private theorem flushed3 (c : Dev nD) (t : Fin cfg3.N) :
    (dat3 (F := Ideal) V c).flushed 6 t = ((cfg3.win 6).blk t).view.read (Elt Ideal)
      (cell (V c main_v20) (V c main_v0) (V c main_v28) (V c main_v30) (V c main_v23) (V c main_v26)) := by
  obtain ⟨hx, hh, g2, g3, g4, g5⟩ := in3 V c t
  show (cfg3.win 6).cut (grid3.coords t) ((dat3 (F := Ideal) V c).after 6 t) = _
  rw [after3_6]
  unfold out3_6
  rw [View.canon_unit_zero hz]
  simp only [View.ld_unit_zero (S := S10000x128) hz, View.ld_unit_zero (S := S128x384) hz, View.ld_unit_zero (S := S1x384) hz]
  funext j
  exact pay_cell hx hh g2 g3 g4 g5 (unit_val (off3 t).2.2.2.2.2.2 j)

/-- Row `p` lies in the block of point `p / 10000`. -/
private theorem covered3 (i : S50000x128.Idx) :
    ∃ t : Fin cfg3.N, (cfg3.win 6).flush t = true ∧ i ∈ ((cfg3.win 6).blk t).view.set := by
  have hi : (i 0).val < 50000 := (i 0).isLt
  obtain ⟨t, ht⟩ : ∃ t : Fin cfg3.N, t.val = (i 0).val / 10000 := ⟨⟨_, (by omega : (i 0).val / 10000 < 5)⟩, rfl⟩
  obtain ⟨y, hy⟩ := unit_mem (off3 t).2.2.2.2.2.2 i (by omega) (by omega) (i 1).isLt
  exact ⟨t, flush3_6 t, hy ▸ View.emb_mem_set _ y⟩

theorem arr3_apply (c : Dev nD) (p : Fin 50000) (q : Fin 128) :
    ((dat3 (F := Ideal) V c).arrAt 6 cfg3.N : S50000x128.Idx → EReal) (ix2 p q)
      = Cert.Spec.gru (fun a b => (V c main_v20 : S50000x128.Idx → EReal) (ix2 a b))
          (fun a b => (V c main_v0 : S50000x128.Idx → EReal) (ix2 a b))
          (fun a b => (V c main_v28 : S128x384.Idx → EReal) (ix2 a b)) (fun a b => (V c main_v30 : S128x384.Idx → EReal) (ix2 a b))
          (fun j => (V c main_v23 : S1x384.Idx → EReal) (ix2 0 j)) (fun j => (V c main_v26 : S1x384.Idx → EReal) (ix2 0 j)) p q :=
  congrFun ((dat3 (F := Ideal) V c).arrAt_eq_of_cover 6 _ (fun t _ => flushed3 V c t) covered3) _

end Cert.KernelIdeal.Hand

end
-- ==== Proof.Bridge.Gru0.lean ====
import proofs.«406877_j20933670601167_1_alg».proof.Proof.Bridge.Msg0
import proofs.«406877_j20933670601167_1_alg».proof.Proof.KI.Val3

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

/-- Row `k` of a stack of rows, kept as one row, reads at column `j` the stack at row `k` and column `j`. -/
private theorem stack_row_apply {α : Type} (b : S3x384.Idx → α) (k : Nat) (hs : S3x384.Slices ![k, 0] S1x384)
    (h1 : S1x384.ShapeCasts S384) (h2 : S384.ShapeCasts S1x384) (j : Fin 384) (hk : k < 3) :
    shapeCast S1x384 (shapeCast S384 (extractStridedSlice S1x384 ![k, 0] b hs) h1) h2 (ix2 0 j) = b (ix2 ⟨k, hk⟩ j) := by
  rw [shapeCast_a_1a_apply, shapeCast_1a_a_apply]
  exact slice2_axis0_apply k b hs 0 j ⟨k, hk⟩ rfl

/-- Six arrays that are the scatter-add of the messages, a state, and the gate weights and bias rows of round `k` have as their gated cell the reference's gated update: a bias row kept as one row is the broadcast bias at every node. -/
theorem gru_core {k : Nat} (hk : k < 3) {sW : S3x128x384.Slices ![k, 0, 0] S1x128x384} {sB : S3x384.Slices ![k, 0] S1x384}
    {idx : IVec S500000 32} {U : S500000x128.Idx → EReal} {A8 A9 : S3x128x384.Idx → EReal} {A10 A11 : S3x384.Idx → EReal}
    {a H : S50000x128.Idx → EReal} {wi wh : S128x384.Idx → EReal} {bi bh : S1x384.Idx → EReal}
    (e20 : a = Host.scatterAdd scatter_S50000x128_S500000x1_S500000x128_1_0_0_1
      (broadcastInDim S50000x128 ![] bcast_S_S50000x128 (constant (F := Ideal) S_ .f32 0x00000000#32)) (broadcastInDim S500000x1 ![0] bcast_S500000_S500000x1_0 idx) U)
    (e28 : wi = shapeCast _ (extractStridedSlice S1x128x384 ![k, 0, 0] A8 sW) shapeCasts_S1x128x384_S128x384)
    (e30 : wh = shapeCast _ (extractStridedSlice S1x128x384 ![k, 0, 0] A9 sW) shapeCasts_S1x128x384_S128x384)
    (e23 : bi = shapeCast _ (shapeCast _ (extractStridedSlice S1x384 ![k, 0] A10 sB) shapeCasts_S1x384_S384) shapeCasts_S384_S1x384)
    (e26 : bh = shapeCast _ (shapeCast _ (extractStridedSlice S1x384 ![k, 0] A11 sB) shapeCasts_S1x384_S384) shapeCasts_S384_S1x384)
    (p : Fin 50000) (q : Fin 128) :
    Cert.Spec.gru (fun x y => a (ix2 x y)) (fun x y => H (ix2 x y)) (fun x y => wi (ix2 x y)) (fun x y => wh (ix2 x y))
        (fun j => bi (ix2 0 j)) (fun j => bh (ix2 0 j)) p q
      = rGru (F := Ideal) (rScatter idx U) H (rGateW A8 k sW) (rGateW A9 k sW) (rGateB A10 k sB) (rGateB A11 k sB) (ix2 p q) := by
  subst e20 e28 e30 e23 e26
  rw [rGru_apply _ _ _ _ _ _ _ _ (fun p j => (rGateB_apply (F := Ideal) A10 k sB p j hk).trans (stack_row_apply A10 k sB _ _ j hk).symm)
    (fun p j => (rGateB_apply (F := Ideal) A11 k sB p j hk).trans (stack_row_apply A11 k sB _ _ j hk).symm) p q]
  rfl

variable (m : KMem) (c : Dev Cert.KernelIdeal.nD) (V0 : RVal)

theorem h1_eq (ag : Agree m c V0)
    (h0 : (Cert.KernelIdeal.Hand.X1 m c Cert.KernelIdeal.main_v0 : Cert.KernelIdeal.S50000x128.Idx → EReal) = Cert.ReferenceIdeal.Value.res_main_v0 V0)
    (hmsg : (Cert.KernelIdeal.Hand.X6 m c Cert.KernelIdeal.main_v17 : Cert.KernelIdeal.S500000x128.Idx → EReal)
      = Cert.ReferenceIdeal.RefValue.rMsg (Cert.ReferenceIdeal.RefValue.rTake (Cert.ReferenceIdeal.Value.res_main_v0 V0) (V0 (Proc.devRef .tc Cert.ReferenceIdeal.main_arg21)))
          (Cert.ReferenceIdeal.RefValue.rTake (Cert.ReferenceIdeal.Value.res_main_v0 V0) (V0 (Proc.devRef .tc Cert.ReferenceIdeal.main_arg20))) (Cert.ReferenceIdeal.Value.res_main_v1 V0)
          (Cert.ReferenceIdeal.RefValue.rWv0 V0) (Cert.ReferenceIdeal.RefValue.rWw0 V0) (Cert.ReferenceIdeal.RefValue.rWe0 V0) (Cert.ReferenceIdeal.RefValue.rCt0 V0)) :
    (Cert.KernelIdeal.Hand.X8 m c Cert.KernelIdeal.main_v31 : Cert.KernelIdeal.S50000x128.Idx → EReal) = Cert.ReferenceIdeal.Value.res_main_v82 V0 := by
  funext i
  obtain ⟨p, q, rfl⟩ : ∃ p q, i = ix2 p q := ⟨i 0, i 1, eq_ix2 i⟩
  rw [show X8 m c main_v31 = a8 m c from Function.update_self _ _ _, a8, arr3_apply (rd (X7 m)) c p q, res_v82_eq]
  refine (gru_core (by decide) (hostOps3_main_v20 (X6 m c)) (hostOps3_main_v28 _) (hostOps3_main_v30 _) (hostOps3_main_v23 _)
    (hostOps3_main_v26 _) p q).trans ?_
  keep_back m c
  rw [hmsg, h0, ← ag.a21, ← ag.a8, ← ag.a9, ← ag.a10, ← ag.a11]
  rfl

end Cert.Proof.Bridge

end
-- ==== Proof.KI.Val5.lean ====
import proofs.«406877_j20933670601167_1_alg».proof.Proof.KI.Reg5
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off5 : ∀ t : Fin cfg5.N,
    (fun a => win5_0.index t a * S10000x128.size a) = ![t.val * 10000, 0]
    ∧ (fun a => win5_1.index t a * S10000x128.size a) = ![t.val * 10000, 0]
    ∧ (fun a => win5_2.index t a * S128x384.size a) = ![0, 0]
    ∧ (fun a => win5_3.index t a * S128x384.size a) = ![0, 0]
    ∧ (fun a => win5_4.index t a * S1x384.size a) = ![0, 0]
    ∧ (fun a => win5_5.index t a * S1x384.size a) = ![0, 0]
    ∧ (fun a => win5_6.index t a * S10000x128.size a) = ![t.val * 10000, 0] :=
  (by decide +kernel : ∀ t : Fin grid5.N, _)

variable (V : (c : Dev nD) → (b : Ref sig .tc) → Buf (Elt Ideal) ((c : Thread nD τ).loc b))

/-- The input blocks at point `t`: rows `t * 10000 +` of the two row arrays, and the weights and the added rows whole. -/
private theorem in5 (c : Dev nD) (t : Fin cfg5.N) :
    (∀ (y : S10000x128.Idx) (i : S50000x128.Idx), (i 0 : ℕ) = t.val * 10000 + y 0 ∧ (i 1 : ℕ) = y 1 →
        (iblk5 (F := Ideal) V c 0 t : S10000x128.Idx → EReal) y = (V c main_v50 : S50000x128.Idx → EReal) i)
    ∧ (∀ (y : S10000x128.Idx) (i : S50000x128.Idx), (i 0 : ℕ) = t.val * 10000 + y 0 ∧ (i 1 : ℕ) = y 1 →
        (iblk5 (F := Ideal) V c 1 t : S10000x128.Idx → EReal) y = (V c main_v31 : S50000x128.Idx → EReal) i)
    ∧ (iblk5 (F := Ideal) V c 2 t : S128x384.Idx → EReal) = V c main_v58 ∧ (iblk5 (F := Ideal) V c 3 t : S128x384.Idx → EReal) = V c main_v60
    ∧ (iblk5 (F := Ideal) V c 4 t : S1x384.Idx → EReal) = V c main_v53 ∧ (iblk5 (F := Ideal) V c 5 t : S1x384.Idx → EReal) = V c main_v56 :=
  let ⟨o0, o1, o2, o3, o4, o5, _⟩ := off5 t
  ⟨unit_get o0 _, unit_get o1 _, unit_read o2 _, unit_read o3 _, unit_read o4 _, unit_read o5 _⟩

/-- Point `t`'s output block is block `t` of the cell of the input arrays. -/
private theorem flushed5 (c : Dev nD) (t : Fin cfg5.N) :
    (dat5 (F := Ideal) V c).flushed 6 t = ((cfg5.win 6).blk t).view.read (Elt Ideal)
      (cell (V c main_v50) (V c main_v31) (V c main_v58) (V c main_v60) (V c main_v53) (V c main_v56)) := by
  obtain ⟨hx, hh, g2, g3, g4, g5⟩ := in5 V c t
  show (cfg5.win 6).cut (grid5.coords t) ((dat5 (F := Ideal) V c).after 6 t) = _
  rw [after5_6]
  unfold out5_6
  rw [View.canon_unit_zero hz]
  simp only [View.ld_unit_zero (S := S10000x128) hz, View.ld_unit_zero (S := S128x384) hz, View.ld_unit_zero (S := S1x384) hz]
  funext j
  exact pay_cell hx hh g2 g3 g4 g5 (unit_val (off5 t).2.2.2.2.2.2 j)

/-- Row `p` lies in the block of point `p / 10000`. -/
private theorem covered5 (i : S50000x128.Idx) :
    ∃ t : Fin cfg5.N, (cfg5.win 6).flush t = true ∧ i ∈ ((cfg5.win 6).blk t).view.set := by
  have hi : (i 0).val < 50000 := (i 0).isLt
  obtain ⟨t, ht⟩ : ∃ t : Fin cfg5.N, t.val = (i 0).val / 10000 := ⟨⟨_, (by omega : (i 0).val / 10000 < 5)⟩, rfl⟩
  obtain ⟨y, hy⟩ := unit_mem (off5 t).2.2.2.2.2.2 i (by omega) (by omega) (i 1).isLt
  exact ⟨t, flush5_6 t, hy ▸ View.emb_mem_set _ y⟩

theorem arr5_apply (c : Dev nD) (p : Fin 50000) (q : Fin 128) :
    ((dat5 (F := Ideal) V c).arrAt 6 cfg5.N : S50000x128.Idx → EReal) (ix2 p q)
      = Cert.Spec.gru (fun a b => (V c main_v50 : S50000x128.Idx → EReal) (ix2 a b))
          (fun a b => (V c main_v31 : S50000x128.Idx → EReal) (ix2 a b))
          (fun a b => (V c main_v58 : S128x384.Idx → EReal) (ix2 a b)) (fun a b => (V c main_v60 : S128x384.Idx → EReal) (ix2 a b))
          (fun j => (V c main_v53 : S1x384.Idx → EReal) (ix2 0 j)) (fun j => (V c main_v56 : S1x384.Idx → EReal) (ix2 0 j)) p q :=
  congrFun ((dat5 (F := Ideal) V c).arrAt_eq_of_cover 6 _ (fun t _ => flushed5 V c t) covered5) _

end Cert.KernelIdeal.Hand

end
-- ==== Proof.Bridge.Gru1.lean ====
import proofs.«406877_j20933670601167_1_alg».proof.Proof.Bridge.Gru0
import proofs.«406877_j20933670601167_1_alg».proof.Proof.KI.Val5
import proofs.«406877_j20933670601167_1_alg».proof.Proof.KI.HostB

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

variable (m : KMem) (c : Dev Cert.KernelIdeal.nD) (V0 : RVal)

theorem h2_eq (ag : Agree m c V0)
    (h0 : (Cert.KernelIdeal.Hand.X8 m c Cert.KernelIdeal.main_v31 : Cert.KernelIdeal.S50000x128.Idx → EReal) = Cert.ReferenceIdeal.Value.res_main_v82 V0)
    (hmsg : (Cert.KernelIdeal.Hand.X12 m c Cert.KernelIdeal.main_v47 : Cert.KernelIdeal.S500000x128.Idx → EReal)
      = Cert.ReferenceIdeal.RefValue.rMsg (Cert.ReferenceIdeal.RefValue.rTake (Cert.ReferenceIdeal.Value.res_main_v82 V0) (V0 (Proc.devRef .tc Cert.ReferenceIdeal.main_arg21)))
          (Cert.ReferenceIdeal.RefValue.rTake (Cert.ReferenceIdeal.Value.res_main_v82 V0) (V0 (Proc.devRef .tc Cert.ReferenceIdeal.main_arg20))) (Cert.ReferenceIdeal.Value.res_main_v1 V0)
          (Cert.ReferenceIdeal.RefValue.rWv1 V0) (Cert.ReferenceIdeal.RefValue.rWw1 V0) (Cert.ReferenceIdeal.RefValue.rWe1 V0) (Cert.ReferenceIdeal.RefValue.rCt1 V0)) :
    (Cert.KernelIdeal.Hand.X14 m c Cert.KernelIdeal.main_v61 : Cert.KernelIdeal.S50000x128.Idx → EReal) = Cert.ReferenceIdeal.Value.res_main_v163 V0 := by
  funext i
  obtain ⟨p, q, rfl⟩ : ∃ p q, i = ix2 p q := ⟨i 0, i 1, eq_ix2 i⟩
  rw [show X14 m c main_v61 = a14 m c from Function.update_self _ _ _, a14, arr5_apply (rd (X13 m)) c p q, res_v163_eq]
  refine (gru_core (by decide) (hostOps5_main_v50 (X12 m c)) (hostOps5_main_v58 _) (hostOps5_main_v60 _) (hostOps5_main_v53 _)
    (hostOps5_main_v56 _) p q).trans ?_
  keep_back m c
  rw [hmsg, h0, ← ag.a21, ← ag.a8, ← ag.a9, ← ag.a10, ← ag.a11]
  rfl

end Cert.Proof.Bridge

end
-- ==== Proof.KI.Val7.lean ====
import proofs.«406877_j20933670601167_1_alg».proof.Proof.KI.Reg7
import proofs.«406877_j20933670601167_1_alg».proof.Proof.KI.ValLib

noncomputable section

namespace Cert.KernelIdeal.Hand

open Cert.KernelIdeal Cert.KernelIdeal.Gen
open Idealize.ShloMosaic Idealize.ShloMosaic.TcCoe Idealize.ShloMosaic.ValueIdx
open ValLib

/-- The offsets of each array's block at point `t`: row `t * 10000` for the row blocks, zero for the arrays read whole. -/
private theorem off7 : ∀ t : Fin cfg7.N,
    (fun a => win7_0.index t a * S10000x128.size a) = ![t.val * 10000, 0]
    ∧ (fun a => win7_1.index t a * S10000x128.size a) = ![t.val * 10000, 0]
    ∧ (fun a => win7_2.index t a * S128x384.size a) = ![0, 0]
    ∧ (fun a => win7_3.index t a * S128x384.size a) = ![0, 0]
    ∧ (fun a => win7_4.index t a * S1x384.size a) = ![0, 0]
    ∧ (fun a => win7_5.index t a * S1x384.size a) = ![0, 0]
    ∧ (fun a => win7_6.index t a * S10000x128.size a) = ![t.val * 10000, 0] :=
  (by decide +kernel : ∀ t : Fin grid7.N, _)

variable (V : (c : Dev nD) → (b : Ref sig .tc) → Buf (Elt Ideal) ((c : Thread nD τ).loc b))

/-- The input blocks at point `t`: rows `t * 10000 +` of the two row arrays, and the weights and the added rows whole. -/
private theorem in7 (c : Dev nD) (t : Fin cfg7.N) :
    (∀ (y : S10000x128.Idx) (i : S50000x128.Idx), (i 0 : ℕ) = t.val * 10000 + y 0 ∧ (i 1 : ℕ) = y 1 →
        (iblk7 (F := Ideal) V c 0 t : S10000x128.Idx → EReal) y = (V c main_v80 : S50000x128.Idx → EReal) i)
    ∧ (∀ (y : S10000x128.Idx) (i : S50000x128.Idx), (i 0 : ℕ) = t.val * 10000 + y 0 ∧ (i 1 : ℕ) = y 1 →
        (iblk7 (F := Ideal) V c 1 t : S10000x128.Idx → EReal) y = (V c main_v61 : S50000x128.Idx → EReal) i)
    ∧ (iblk7 (F := Ideal) V c 2 t : S128x384.Idx → EReal) = V c main_v88 ∧ (iblk7 (F := Ideal) V c 3 t : S128x384.Idx → EReal) = V c main_v90
    ∧ (iblk7 (F := Ideal) V c 4 t : S1x384.Idx → EReal) = V c main_v83 ∧ (iblk7 (F := Ideal) V c 5 t : S1x384.Idx → EReal) = V c main_v86 :=
  let ⟨o0, o1, o2, o3, o4, o5, _⟩ := off7 t
  ⟨unit_get o0 _, unit_get o1 _, unit_read o2 _, unit_read o3 _, unit_read o4 _, unit_read o5 _⟩

/-- Point `t`'s output block is block `t` of the cell of the input arrays. -/
private theorem flushed7 (c : Dev nD) (t : Fin cfg7.N) :
    (dat7 (F := Ideal) V c).flushed 6 t = ((cfg7.win 6).blk t).view.read (Elt Ideal)
      (cell (V c main_v80) (V c main_v61) (V c main_v88) (V c main_v90) (V c main_v83) (V c main_v86)) := by
  obtain ⟨hx, hh, g2, g3, g4, g5⟩ := in7 V c t
  show (cfg7.win 6).cut (grid7.coords t) ((dat7 (F := Ideal) V c).after 6 t) = _
  rw [after7_6]
  unfold out7_6
  rw [View.canon_unit_zero hz]
  simp only [View.ld_unit_zero (S := S10000x128) hz, View.ld_unit_zero (S := S128x384) hz, View.ld_unit_zero (S := S1x384) hz]
  funext j
  exact pay_cell hx hh g2 g3 g4 g5 (unit_val (off7 t).2.2.2.2.2.2 j)

/-- Row `p` lies in the block of point `p / 10000`. -/
private theorem covered7 (i : S50000x128.Idx) :
    ∃ t : Fin cfg7.N, (cfg7.win 6).flush t = true ∧ i ∈ ((cfg7.win 6).blk t).view.set := by
  have hi : (i 0).val < 50000 := (i 0).isLt
  obtain ⟨t, ht⟩ : ∃ t : Fin cfg7.N, t.val = (i 0).val / 10000 := ⟨⟨_, (by omega : (i 0).val / 10000 < 5)⟩, rfl⟩
  obtain ⟨y, hy⟩ := unit_mem (off7 t).2.2.2.2.2.2 i (by omega) (by omega) (i 1).isLt
  exact ⟨t, flush7_6 t, hy ▸ View.emb_mem_set _ y⟩

theorem arr7_apply (c : Dev nD) (p : Fin 50000) (q : Fin 128) :
    ((dat7 (F := Ideal) V c).arrAt 6 cfg7.N : S50000x128.Idx → EReal) (ix2 p q)
      = Cert.Spec.gru (fun a b => (V c main_v80 : S50000x128.Idx → EReal) (ix2 a b))
          (fun a b => (V c main_v61 : S50000x128.Idx → EReal) (ix2 a b))
          (fun a b => (V c main_v88 : S128x384.Idx → EReal) (ix2 a b)) (fun a b => (V c main_v90 : S128x384.Idx → EReal) (ix2 a b))
          (fun j => (V c main_v83 : S1x384.Idx → EReal) (ix2 0 j)) (fun j => (V c main_v86 : S1x384.Idx → EReal) (ix2 0 j)) p q :=
  congrFun ((dat7 (F := Ideal) V c).arrAt_eq_of_cover 6 _ (fun t _ => flushed7 V c t) covered7) _

end Cert.KernelIdeal.Hand

end
-- ==== Proof.Bridge.Gru2.lean ====
import proofs.«406877_j20933670601167_1_alg».proof.Proof.Bridge.Gru0
import proofs.«406877_j20933670601167_1_alg».proof.Proof.KI.Val7
import proofs.«406877_j20933670601167_1_alg».proof.Proof.KI.HostC

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.ReferenceIdeal.RefValue

variable (m : KMem) (c : Dev Cert.KernelIdeal.nD) (V0 : RVal)

theorem h3_eq (ag : Agree m c V0)
    (h0 : (Cert.KernelIdeal.Hand.X14 m c Cert.KernelIdeal.main_v61 : Cert.KernelIdeal.S50000x128.Idx → EReal) = Cert.ReferenceIdeal.Value.res_main_v163 V0)
    (hmsg : (Cert.KernelIdeal.Hand.X18 m c Cert.KernelIdeal.main_v77 : Cert.KernelIdeal.S500000x128.Idx → EReal)
      = Cert.ReferenceIdeal.RefValue.rMsg (Cert.ReferenceIdeal.RefValue.rTake (Cert.ReferenceIdeal.Value.res_main_v163 V0) (V0 (Proc.devRef .tc Cert.ReferenceIdeal.main_arg21)))
          (Cert.ReferenceIdeal.RefValue.rTake (Cert.ReferenceIdeal.Value.res_main_v163 V0) (V0 (Proc.devRef .tc Cert.ReferenceIdeal.main_arg20))) (Cert.ReferenceIdeal.Value.res_main_v1 V0)
          (Cert.ReferenceIdeal.RefValue.rWv2 V0) (Cert.ReferenceIdeal.RefValue.rWw2 V0) (Cert.ReferenceIdeal.RefValue.rWe2 V0) (Cert.ReferenceIdeal.RefValue.rCt2 V0)) :
    (Cert.KernelIdeal.Hand.X20 m c Cert.KernelIdeal.main_v91 : Cert.KernelIdeal.S50000x128.Idx → EReal) = Cert.ReferenceIdeal.Value.res_main_v244 V0 := by
  funext i
  obtain ⟨p, q, rfl⟩ : ∃ p q, i = ix2 p q := ⟨i 0, i 1, eq_ix2 i⟩
  rw [show X20 m c main_v91 = a20 m c from Function.update_self _ _ _, a20, arr7_apply (rd (X19 m)) c p q, res_v244_eq]
  refine (gru_core (by decide) (hostOps7_main_v80 (X18 m c)) (hostOps7_main_v88 _) (hostOps7_main_v90 _) (hostOps7_main_v83 _)
    (hostOps7_main_v86 _) p q).trans ?_
  keep_back m c
  rw [hmsg, h0, ← ag.a21, ← ag.a8, ← ag.a9, ← ag.a10, ← ag.a11]
  rfl

end Cert.Proof.Bridge

end
-- ==== Proof.KI.Val8.lean ====
import proofs.«406877_j20933670601167_1_alg».proof.Proof.KI.Reg8
import proofs.«406877_j20933670601167_1_alg».proof.Proof.Spec
import proofs.«406877_j20933670601167_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem mm8_apply (l : Vec Ideal S10000x128 .f32) (w : Vec Ideal S128x128 .f32) (r : Fin 10000) (q : Fin 128) :
    (matmul (F := Ideal) (φ₁ := .f32) (φ₂ := .f32) dot_S10000x128_S128x128_S10000x128_1_0_0_1_n_n none l w (constant (F := Ideal) S10000x128 .f32 0x00000000#32) : S10000x128.Idx → EReal) (ix2 r q)
      = ∑ k : Fin 128, l (ix2 r k) * w (ix2 k q) :=
  (Ideal.matmul_constant_zero_apply (φ₁ := .f32) (φ₂ := .f32) dot_S10000x128_S128x128_S10000x128_1_0_0_1_n_n none l w (ix2 r q)).trans
    (PlainDot.sum_eq dot_S10000x128_S128x128_S10000x128_1_0_0_1_n_n rfl rfl rfl rfl rfl rfl l w r q)

theorem colsum8_apply (x : FVec Ideal S10000x128 .f32) (hacc : (0x00000000#32 : BitVec 32) = 0x00000000#32) (q : Fin 128) :
    (multiReduction (F := Ideal) .add [0] S128 x 0x00000000#32 reduces_S10000x128_S128 (.inl rfl) hacc : S128.Idx → EReal) (ix1 q)
      = ∑ r : Fin 10000, x (ix2 r q) := by
  refine (Ideal.multiReduction_add_single x 0x00000000#32 reduces_S10000x128_S128 (.inl rfl) hacc (ix1 q)).trans ?_
  refine Finset.sum_congr rfl fun r _ => congrArg x ?_
  funext a
  match a with
  | ⟨0, _⟩ => rfl
  | ⟨1, _⟩ => rfl

theorem pay8_2_apply (x : Vec Ideal S10000x128 .f32) (W1 : Vec Ideal S128x128 .f32) (b1 : Vec Ideal S1x128 .f32)
    (W2 : Vec Ideal S128x128 .f32) (b2 : Vec Ideal S1x128 .f32) (prev : Vec Ideal S1x128 .f32) (q : Fin 128) :
    (k8_pay2 (F := Ideal) x W1 b1 x W2 b2 prev : S1x128.Idx → EReal) (ix2 (0 : Fin 1) q)
      = prev (ix2 (0 : Fin 1) q) + ∑ r : Fin 10000, ((∑ k : Fin 128, x (ix2 r k) * W1 (ix2 k q)) + b1 (ix2 (0 : Fin 1) q))
          * Ideal.logistic ((∑ k : Fin 128, x (ix2 r k) * W2 (ix2 k q)) + b2 (ix2 (0 : Fin 1) q)) := by
  unfold k8_pay2
  simp only [shapeCast_self]
  refine (addf_apply _ _ _).trans (congrArg (prev (ix2 (0 : Fin 1) q) + ·) ?_)
  refine (shapeCast_a_1a_apply _ _ (0 : Fin 1) q).trans ?_
  refine (colsum8_apply _ _ q).trans (Finset.sum_congr rfl fun r _ => ?_)
  refine (mulf_apply _ _ _).trans ?_
  refine congrArg₂ (· * ·) ?_ ?_
  · refine (addf_apply _ _ _).trans (congrArg₂ (· + ·) (mm8_apply x W1 r q) (broadcastTo_1b_ab_apply b1 _ r q))
  · refine congrArg Ideal.logistic ?_
    refine (addf_apply _ _ _).trans (congrArg₂ (· + ·) (mm8_apply x W2 r q) (broadcastTo_1b_ab_apply b2 _ r q))

theorem pay8_1_apply (j : S1x128.Idx) : (k8_pay1 (F := Ideal) : S1x128.Idx → EReal) j = 0 := by
  unfold k8_pay1
  simp only [shapeCast_self]
  exact Ideal.ofBits_zero_f32

theorem pay8_3_apply (a : Vec Ideal S1x128 .f32) (j : S1x128.Idx) :
    (k8_pay3 (F := Ideal) a : S1x128.Idx → EReal) j = a j * ((1 / 50000 : ℝ) : EReal) := by
  unfold k8_pay3
  refine (mulf_apply _ _ _).trans (congrArg (a j * ·) ?_)
  exact IdealRules.named_const.ideal_named_scalar _ _ _ _ rfl

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

theorem lt5_8 (t : Fin cfg8.N) : t.val < 5 := lt_of_lt_of_eq t.isLt (show cfg8.N = 5 from N_8)

-- row r of the state's block at point t is row 10000 t + r of the state; the other four blocks are their whole arrays
theorem iblk8_apply (c : Dev nD) (t : Fin cfg8.N) :
    (∀ (r : Fin 10000) (k : Fin 128), (iblk8 V c 0 t : S10000x128.Idx → EReal) (ix2 r k)
        = (V c main_v91 : S50000x128.Idx → EReal) (ix2 (⟨10000 * t.val + r.val, by have := lt5_8 t; omega⟩ : Fin 50000) k))
    ∧ (∀ k q : Fin 128, (iblk8 V c 1 t : S128x128.Idx → EReal) (ix2 k q) = (V c main_arg12 : S128x128.Idx → EReal) (ix2 k q))
    ∧ (∀ q : Fin 128, (iblk8 V c 2 t : S1x128.Idx → EReal) (ix2 (0 : Fin 1) q) = (V c main_v92 : S1x128.Idx → EReal) (ix2 (0 : Fin 1) q))
    ∧ (∀ k q : Fin 128, (iblk8 V c 3 t : S128x128.Idx → EReal) (ix2 k q) = (V c main_arg14 : S128x128.Idx → EReal) (ix2 k q))
    ∧ (∀ q : Fin 128, (iblk8 V c 4 t : S1x128.Idx → EReal) (ix2 (0 : Fin 1) q) = (V c main_v93 : S1x128.Idx → EReal) (ix2 (0 : Fin 1) q)) := by
  obtain ⟨a0, a1, b0, b1, c0, c1, d0, d1, e0, e1, -⟩ := idx_facts8 t
  refine ⟨fun r k => ?_, fun k q => ?_, fun q => ?_, fun k q => ?_, fun q => ?_⟩
  · refine congrArg (V c main_v91) (funext fun a => Fin.ext ?_)
    match a with
    | ⟨0, _⟩ => show win8_0.index t (0 : Fin 2) * 10000 + 1 * r.val = 10000 * t.val + r.val; omega
    | ⟨1, _⟩ => show win8_0.index t (1 : Fin 2) * 128 + 1 * k.val = k.val; omega
  · refine congrArg (V c main_arg12) (funext fun a => Fin.ext ?_)
    match a with
    | ⟨0, _⟩ => show win8_1.index t (0 : Fin 2) * 128 + 1 * k.val = k.val; omega
    | ⟨1, _⟩ => show win8_1.index t (1 : Fin 2) * 128 + 1 * q.val = q.val; omega
  · refine congrArg (V c main_v92) (funext fun a => Fin.ext ?_)
    match a with
    | ⟨0, _⟩ => show win8_2.index t (0 : Fin 2) * 1 + 1 * 0 = 0; omega
    | ⟨1, _⟩ => show win8_2.index t (1 : Fin 2) * 128 + 1 * q.val = q.val; omega
  · refine congrArg (V c main_arg14) (funext fun a => Fin.ext ?_)
    match a with
    | ⟨0, _⟩ => show win8_3.index t (0 : Fin 2) * 128 + 1 * k.val = k.val; omega
    | ⟨1, _⟩ => show win8_3.index t (1 : Fin 2) * 128 + 1 * q.val = q.val; omega
  · refine congrArg (V c main_v93) (funext fun a => Fin.ext ?_)
    match a with
    | ⟨0, _⟩ => show win8_4.index t (0 : Fin 2) * 1 + 1 * 0 = 0; omega
    | ⟨1, _⟩ => show win8_4.index t (1 : Fin 2) * 128 + 1 * q.val = q.val; omega

abbrev st8 (c : Dev nD) : Fin 50000 → Fin 128 → EReal := fun a b => (V c main_v91 : S50000x128.Idx → EReal) (ix2 a b)
abbrev wa8 (c : Dev nD) : Fin 128 → Fin 128 → EReal := fun a b => (V c main_arg12 : S128x128.Idx → EReal) (ix2 a b)
abbrev wb8 (c : Dev nD) : Fin 128 → Fin 128 → EReal := fun a b => (V c main_arg14 : S128x128.Idx → EReal) (ix2 a b)
abbrev ba8 (c : Dev nD) : Fin 128 → EReal := fun b => (V c main_v92 : S1x128.Idx → EReal) (ix2 (0 : Fin 1) b)
abbrev bb8 (c : Dev nD) : Fin 128 → EReal := fun b => (V c main_v93 : S1x128.Idx → EReal) (ix2 (0 : Fin 1) b)

def rowTerm8 (c : Dev nD) (q : Fin 128) (p : ℕ) : EReal :=
  if hp : p < 50000 then Cert.Spec.gated (st8 V c) (wa8 V c) (wb8 V c) (ba8 V c) (bb8 V c) ⟨p, hp⟩ q else 0

theorem step8 (c : Dev nD) (t : Fin cfg8.N) (prev : Vec Ideal S1x128 .f32) (q : Fin 128) :
    (k8_pay2 (F := Ideal) (iblk8 V c 0 t) (iblk8 V c 1 t) (iblk8 V c 2 t) (iblk8 V c 0 t) (iblk8 V c 3 t) (iblk8 V c 4 t) prev : S1x128.Idx → EReal) (ix2 (0 : Fin 1) q)
      = prev (ix2 (0 : Fin 1) q) + ∑ r ∈ Finset.range 10000, rowTerm8 V c q (10000 * t.val + r) := by
  refine (pay8_2_apply (iblk8 V c 0 t) (iblk8 V c 1 t) (iblk8 V c 2 t) (iblk8 V c 3 t) (iblk8 V c 4 t) prev q).trans
    (congrArg (prev (ix2 (0 : Fin 1) q) + ·) ?_)
  refine Eq.trans (Finset.sum_congr rfl fun r _ => ?_) (Fin.sum_univ_eq_sum_range (fun r => rowTerm8 V c q (10000 * t.val + r)) 10000)
  have hp : 10000 * t.val + r.val < 50000 := by have := lt5_8 t; omega
  obtain ⟨i0, i1, i2, i3, i4⟩ := iblk8_apply V c t
  rw [rowTerm8, dif_pos hp]
  unfold Cert.Spec.gated Cert.Spec.mm
  refine congrArg₂ (· * ·) ?_ (congrArg Ideal.logistic ?_)
  · exact congrArg₂ (· + ·) (Finset.sum_congr rfl fun k _ => congrArg₂ (· * ·) (i0 r k) (i1 k q)) (i2 q)
  · exact congrArg₂ (· + ·) (Finset.sum_congr rfl fun k _ => congrArg₂ (· * ·) (i0 r k) (i3 k q)) (i4 q)

theorem acc8_apply (c : Dev nD) (q : Fin 128) : ∀ (n : ℕ) (hn : n < cfg8.N),
    (acc8 V c n hn : S1x128.Idx → EReal) (ix2 (0 : Fin 1) q) = ∑ p ∈ Finset.range (10000 * (n + 1)), rowTerm8 V c q p
  | 0, hn => by
    rw [acc8_zero]
    refine (step8 V c ⟨0, hn⟩ _ q).trans ?_
    rw [pay8_1_apply, zero_add]
    exact Finset.sum_congr rfl fun r _ => congrArg (rowTerm8 V c q) (by show 10000 * 0 + r = r; omega)
  | n + 1, hn => by
    rw [acc8_succ]
    refine (step8 V c ⟨n + 1, hn⟩ _ q).trans ?_
    rw [acc8_apply c q n (Nat.lt_of_succ_lt hn), show 10000 * (n + 1 + 1) = 10000 * (n + 1) + 10000 by omega, Finset.sum_range_add]

theorem acc8_last (c : Dev nD) (q : Fin 128) :
    (acc8 V c 4 t8_4.isLt : S1x128.Idx → EReal) (ix2 (0 : Fin 1) q)
      = ∑ p : Fin 50000, Cert.Spec.gated (st8 V c) (wa8 V c) (wb8 V c) (ba8 V c) (bb8 V c) p q := by
  have e : 10000 * (4 + 1) = 50000 := by norm_num
  rw [acc8_apply V c q 4 t8_4.isLt, e]
  refine (Fin.sum_univ_eq_sum_range (rowTerm8 V c q) 50000).symm.trans (Finset.sum_congr rfl fun p _ => ?_)
  rw [rowTerm8, dif_pos p.isLt]

abbrev out8 (c : Dev nD) : Buf (Elt Ideal) ((c : Thread nD τ).loc main_v94) := k8_pay3 (F := Ideal) (acc8 V c 4 t8_4.isLt)

theorem flushed8_eq (c : Dev nD) (t : Fin cfg8.N) (hf : (cfg8.win 5).flush t = true) :
    (dat8 V c).flushed 5 t = ((cfg8.win 5).blk t).view.read (Elt Ideal) (out8 V c) := by
  have h4 : t.val = 4 := by have := (flush8_5 t).mp hf; have := lt5_8 t; omega
  obtain rfl : t = t8_4 := Fin.ext h4
  show (cfg8.win 5).cut (grid8.coords t8_4) ((dat8 V c).after 5 t8_4) = _
  rw [after8_5_last]
  obtain ⟨-, -, -, -, -, -, -, -, -, -, e0, e1⟩ := idx_facts8 t8_4
  funext j
  show k8_pay3 (F := Ideal) (acc8 V c 4 t8_4.isLt) j = out8 V c (((cfg8.win 5).blk t8_4).view.emb j)
  refine congrArg (k8_pay3 (F := Ideal) (acc8 V c 4 t8_4.isLt)) (funext fun a => Fin.ext ?_)
  match a with
  | ⟨0, _⟩ => show (j 0).val = win8_5.index t8_4 (0 : Fin 2) * 1 + 1 * (j 0).val; omega
  | ⟨1, _⟩ => show (j 1).val = win8_5.index t8_4 (1 : Fin 2) * 128 + 1 * (j 1).val; omega

theorem mem_blk8_5 (t : Fin cfg8.N) (i : S1x128.Idx) :
    i ∈ ((cfg8.win 5).blk t).view.set ↔ ∀ a : Fin 2, win8_5.index t a * S1x128.size a ≤ (i a).val ∧ (i a).val < win8_5.index t a * S1x128.size a + S1x128.size a := by
  show i ∈ ((View.whole main_v94).slice (win8_5.rect t)).set ↔ _
  rw [View.set_slice_whole, Rect.mem_set_unit]
  exact Iff.rfl

theorem arr8_eq (c : Dev nD) : (dat8 V c).arrAt 5 cfg8.N = out8 V c :=
  (dat8 V c).arrAt_eq_of_cover 5 (out8 V c) (flushed8_eq V c) fun i =>
    ⟨t8_4, (flush8_5 t8_4).mpr rfl, by
      obtain ⟨-, -, -, -, -, -, -, -, -, -, e0, e1⟩ := idx_facts8 t8_4
      rw [mem_blk8_5]
      intro a
      match a with
      | ⟨0, _⟩ =>
        show win8_5.index t8_4 (0 : Fin 2) * 1 ≤ (i 0).val ∧ (i 0).val < win8_5.index t8_4 (0 : Fin 2) * 1 + 1
        have := idx2_lt0 i; omega
      | ⟨1, _⟩ =>
        show win8_5.index t8_4 (1 : Fin 2) * 128 ≤ (i 1).val ∧ (i 1).val < win8_5.index t8_4 (1 : Fin 2) * 128 + 128
        have := idx2_lt1 i; omega⟩

theorem arr8_apply (c : Dev nD) (q : Fin 128) :
    ((dat8 (F := Ideal) V c).arrAt 5 cfg8.N : S1x128.Idx → EReal) (ix2 (0 : Fin 1) q)
      = Cert.Spec.readout (fun a b => (V c main_v91 : S50000x128.Idx → EReal) (ix2 a b))
          (fun a b => (V c main_arg12 : S128x128.Idx → EReal) (ix2 a b)) (fun a b => (V c main_arg14 : S128x128.Idx → EReal) (ix2 a b))
          (fun b => (V c main_v92 : S1x128.Idx → EReal) (ix2 (0 : Fin 1) b)) (fun b => (V c main_v93 : S1x128.Idx → EReal) (ix2 (0 : Fin 1) b)) q := by
  rw [arr8_eq]
  refine (pay8_3_apply (acc8 V c 4 t8_4.isLt) (ix2 (0 : Fin 1) q)).trans ?_
  unfold Cert.Spec.readout
  exact congrArg (· * ((1 / 50000 : ℝ) : EReal)) (acc8_last V c q)

end Cert.KernelIdeal.Hand

end
-- ==== Proof.KI.HostD.lean ====
import proofs.«406877_j20933670601167_1_alg».proof.Proof.Gen.KernelIdeal.Launch
import proofs.«406877_j20933670601167_1_alg».proof.Proof.Gen.KernelIdeal.Skeleton
import proofs.«406877_j20933670601167_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hostOps8_main_v92 (W : Valuation τ sig (Elt F)) :
    StableHlo.after hostOps8 W (Proc.devRef .tc main_v92)
      = shapeCast _ (W (Proc.devRef .tc main_arg13)) shapeCasts_S128_S1x128 := by
  after_results
  all_goals rfl

theorem hostOps8_main_v93 (W : Valuation τ sig (Elt F)) :
    StableHlo.after hostOps8 W (Proc.devRef .tc main_v93)
      = shapeCast _ (W (Proc.devRef .tc main_arg15)) shapeCasts_S128_S1x128 := by
  after_results
  all_goals rfl

set_option maxHeartbeats 1000000 in
theorem hostOps9_main_v106 (W : Valuation τ sig (Elt F)) :
    StableHlo.after hostOps9 W (Proc.devRef .tc main_v106)
      = concatenate S1x384 1
          [⟨S1x128, (addf (addf (Host.dotGeneral dot_S1x128_S128x128_S1x128_1_0_0_1_n_n none (W (Proc.devRef .tc main_v94)) (W (Proc.devRef .tc main_arg16))) (broadcastInDim S1x128 ![1] bcast_S128_S1x128_1 (W (Proc.devRef .tc main_arg17)))) (mulf (W (Proc.devRef .tc main_arg3)) (Host.exp (mulf (broadcastInDim S1x128 ![] bcast_S_S1x128 (constant (F := F) S_ .f32 0x3F000000#32)) (addf (Host.dotGeneral dot_S1x128_S128x128_S1x128_1_0_0_1_n_n none (W (Proc.devRef .tc main_v94)) (W (Proc.devRef .tc main_arg18))) (broadcastInDim S1x128 ![1] bcast_S128_S1x128_1 (W (Proc.devRef .tc main_arg19))))))))⟩,
           ⟨S1x128, (addf (Host.dotGeneral dot_S1x128_S128x128_S1x128_1_0_0_1_n_n none (W (Proc.devRef .tc main_v94)) (W (Proc.devRef .tc main_arg16))) (broadcastInDim S1x128 ![1] bcast_S128_S1x128_1 (W (Proc.devRef .tc main_arg17))))⟩,
           ⟨S1x128, (addf (Host.dotGeneral dot_S1x128_S128x128_S1x128_1_0_0_1_n_n none (W (Proc.devRef .tc main_v94)) (W (Proc.devRef .tc main_arg18))) (broadcastInDim S1x128 ![1] bcast_S128_S1x128_1 (W (Proc.devRef .tc main_arg19))))⟩]
          concatenates_S1x128_S1x128_S1x128_S1x384_d1 := by
  simp only [StableHlo.after_cons, StableHlo.after_nil]
  rw [StableHlo.nary_result]
  dsimp only [Matrix.cons_val]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  all_goals rfl

end Cert.KernelIdeal.Hand
-- ==== Proof.Bridge.Readout.lean ====
import proofs.«406877_j20933670601167_1_alg».proof.Proof.Bridge.Ctx
import proofs.«406877_j20933670601167_1_alg».proof.Proof.KI.Val8
import proofs.«406877_j20933670601167_1_alg».proof.Proof.KI.HostD
import proofs.«406877_j20933670601167_1_alg».proof.Proof.RefReads
import Idealize.ShloMosaic.Lib.ValueLayout

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Hand

variable (m : KMem) (c : Dev Cert.KernelIdeal.nD) (V0 : RVal)

theorem ref_enc_apply (q : Fin 128) :
    (Cert.ReferenceIdeal.Value.res_main_v263 V0 : Cert.ReferenceIdeal.S1x128.Idx → EReal) (ix2 (0 : Fin 1) q)
      = Cert.Spec.readout (fun a b => (Cert.ReferenceIdeal.Value.res_main_v244 V0 : Cert.ReferenceIdeal.S50000x128.Idx → EReal) (ix2 a b))
          (fun a b => (V0 (Proc.devRef .tc Cert.ReferenceIdeal.main_arg12) : Cert.ReferenceIdeal.S128x128.Idx → EReal) (ix2 a b))
          (fun a b => (V0 (Proc.devRef .tc Cert.ReferenceIdeal.main_arg14) : Cert.ReferenceIdeal.S128x128.Idx → EReal) (ix2 a b))
          (fun j => (V0 (Proc.devRef .tc Cert.ReferenceIdeal.main_arg13) : Cert.ReferenceIdeal.S128.Idx → EReal) (ix1 j))
          (fun j => (V0 (Proc.devRef .tc Cert.ReferenceIdeal.main_arg15) : Cert.ReferenceIdeal.S128.Idx → EReal) (ix1 j)) q := by
  rw [Cert.ReferenceIdeal.RefValue.res_v263_eq]
  exact Cert.ReferenceIdeal.RefValue.rReadout_apply _ _ _ _ _ _ _
    (fun p j => Cert.ReferenceIdeal.RefValue.rRowB_apply _ p j) (fun p j => Cert.ReferenceIdeal.RefValue.rRowB_apply _ p j) q

theorem row_apply (b : Cert.KernelIdeal.S128.Idx → EReal) (h : Cert.KernelIdeal.S128.ShapeCasts Cert.KernelIdeal.S1x128) (j : Fin 128) :
    (shapeCast Cert.KernelIdeal.S1x128 b h : Cert.KernelIdeal.S1x128.Idx → EReal) (ix2 (0 : Fin 1) j) = b (ix1 j) :=
  shapeCast_a_1a_apply b h 0 j

-- No item before the last region writes the readout's weights and biases: they hold their launch contents there.
theorem arg_at21 (r : Ref sig .tc) (hr : r ∈ [main_arg12, main_arg13, main_arg14, main_arg15]) :
    X21 m c r = X0 m c r ∧ X20 m c r = X0 m c r := by
  simp only [List.mem_cons, List.mem_nil_iff, or_false] at hr
  rcases hr with rfl | rfl | rfl | rfl <;> constructor <;>
    simp (disch := decide) only [keep1 m c, keep2 m c, keep3 m c, keep4 m c, keep5 m c, keep6 m c, keep7 m c, keep8 m c, keep9 m c, keep10 m c, keep11 m c, keep12 m c, keep13 m c, keep14 m c, keep15 m c, keep16 m c, keep17 m c, keep18 m c, keep19 m c, keep20 m c, keep21 m c]

theorem b1row_apply (j : Fin 128) :
    (X21 m c main_v92 : S1x128.Idx → EReal) (ix2 (0 : Fin 1) j) = (X0 m c main_arg13 : S128.Idx → EReal) (ix1 j) := by
  unfold X21
  rw [hostOps8_main_v92, row_apply]
  exact congrFun (arg_at21 m c main_arg13 (by decide)).2 (ix1 j)

theorem b2row_apply (j : Fin 128) :
    (X21 m c main_v93 : S1x128.Idx → EReal) (ix2 (0 : Fin 1) j) = (X0 m c main_arg15 : S128.Idx → EReal) (ix1 j) := by
  unfold X21
  rw [hostOps8_main_v93, row_apply]
  exact congrFun (arg_at21 m c main_arg15 (by decide)).2 (ix1 j)

theorem ker_enc_apply (q : Fin 128) :
    (X22 m c main_v94 : S1x128.Idx → EReal) (ix2 (0 : Fin 1) q)
      = Cert.Spec.readout (fun a b => (X20 m c main_v91 : S50000x128.Idx → EReal) (ix2 a b))
          (fun a b => (X0 m c main_arg12 : S128x128.Idx → EReal) (ix2 a b))
          (fun a b => (X0 m c main_arg14 : S128x128.Idx → EReal) (ix2 a b))
          (fun j => (X0 m c main_arg13 : S128.Idx → EReal) (ix1 j))
          (fun j => (X0 m c main_arg15 : S128.Idx → EReal) (ix1 j)) q := by
  have hout : X22 m c main_v94 = (dat8 (rd (X21 m)) c).arrAt 5 cfg8.N := by
    unfold X22; exact Function.update_self _ _ _
  rw [hout, arr8_apply (rd (X21 m)) c q]
  show Cert.Spec.readout (fun a b => (X21 m c main_v91 : S50000x128.Idx → EReal) (ix2 a b))
      (fun a b => (X21 m c main_arg12 : S128x128.Idx → EReal) (ix2 a b))
      (fun a b => (X21 m c main_arg14 : S128x128.Idx → EReal) (ix2 a b))
      (fun j => (X21 m c main_v92 : S1x128.Idx → EReal) (ix2 (0 : Fin 1) j))
      (fun j => (X21 m c main_v93 : S1x128.Idx → EReal) (ix2 (0 : Fin 1) j)) q = _
  rw [keep21 m c main_v91 (by decide), (arg_at21 m c main_arg12 (by decide)).1, (arg_at21 m c main_arg14 (by decide)).1]
  simp only [b1row_apply m c, b2row_apply m c]

theorem enc_eq (ag : Agree m c V0)
    (h3 : (Cert.KernelIdeal.Hand.X20 m c Cert.KernelIdeal.main_v91 : Cert.KernelIdeal.S50000x128.Idx → EReal) = Cert.ReferenceIdeal.Value.res_main_v244 V0) :
    (Cert.KernelIdeal.Hand.X22 m c Cert.KernelIdeal.main_v94 : Cert.KernelIdeal.S1x128.Idx → EReal) = Cert.ReferenceIdeal.Value.res_main_v263 V0 := by
  funext i
  obtain ⟨p, q, rfl⟩ : ∃ (p : Fin 1) (q : Fin 128), i = ix2 p q := ⟨i 0, i 1, eq_ix2 i⟩
  obtain rfl : p = 0 := Subsingleton.elim _ _
  rw [ker_enc_apply m c q, ref_enc_apply V0 q, h3, ag.a12, ag.a14, ag.a13, ag.a15]

end Cert.Proof.Bridge

end
-- ==== Proof.Bridge.Head.lean ====
import proofs.«406877_j20933670601167_1_alg».proof.Proof.Bridge.Ctx
import proofs.«406877_j20933670601167_1_alg».proof.Proof.KI.HostD

set_option maxRecDepth 16384

noncomputable section

namespace Cert.Proof.Bridge

open Idealize.ShloMosaic Idealize.ShloMosaic.TcCoe Idealize.SL.Sem
open Cert.KernelIdeal Cert.KernelIdeal.Hand

variable (m : KMem) (c : Dev Cert.KernelIdeal.nD) (V0 : RVal)

-- No item writes these launch arguments: before the last stretch they hold their launch contents.
theorem arg_at22 (r : Ref sig .tc) (hr : r ∈ [main_arg3, main_arg16, main_arg17, main_arg18, main_arg19]) :
    X22 m c r = X0 m c r := by
  simp only [List.mem_cons, List.mem_nil_iff, or_false] at hr
  rcases hr with rfl | rfl | rfl | rfl | rfl <;>
    simp (disch := decide) only [keep1 m c, keep2 m c, keep3 m c, keep4 m c, keep5 m c, keep6 m c, keep7 m c, keep8 m c, keep9 m c, keep10 m c, keep11 m c, keep12 m c, keep13 m c, keep14 m c, keep15 m c, keep16 m c, keep17 m c, keep18 m c, keep19 m c, keep20 m c, keep21 m c, keep22 m c, keep23 m c]

set_option maxHeartbeats 2000000 in
theorem out_eq (ag : Agree m c V0)
    (henc : (Cert.KernelIdeal.Hand.X22 m c Cert.KernelIdeal.main_v94 : Cert.KernelIdeal.S1x128.Idx → EReal) = Cert.ReferenceIdeal.Value.res_main_v263 V0) :
    (Cert.KernelIdeal.Hand.X23 m c Cert.KernelIdeal.main_v106 : Cert.KernelIdeal.S1x384.Idx → EReal)
      = concatenate Cert.ReferenceIdeal.S1x384 1 [⟨Cert.ReferenceIdeal.S1x128, (addf (Cert.ReferenceIdeal.Value.res_main_v266 V0) (mulf (V0 (Proc.devRef .tc Cert.ReferenceIdeal.main_arg3)) (Host.exp (mulf (broadcastInDim Cert.ReferenceIdeal.S1x128 ![] Cert.ReferenceIdeal.Facts₀.bcast_S_S1x128 (constant Cert.ReferenceIdeal.S_ .f32 0x3F000000#32)) (Cert.ReferenceIdeal.Value.res_main_v269 V0)))))⟩, ⟨Cert.ReferenceIdeal.S1x128, (Cert.ReferenceIdeal.Value.res_main_v266 V0)⟩, ⟨Cert.ReferenceIdeal.S1x128, (Cert.ReferenceIdeal.Value.res_main_v269 V0)⟩] Cert.ReferenceIdeal.Facts₀.concatenates_S1x128_S1x128_S1x128_S1x384_d1 := by
  have e3 := arg_at22 m c main_arg3 (by decide)
  have e16 := arg_at22 m c main_arg16 (by decide)
  have e17 := arg_at22 m c main_arg17 (by decide)
  have e18 := arg_at22 m c main_arg18 (by decide)
  have e19 := arg_at22 m c main_arg19 (by decide)
  unfold X23
  rw [hostOps9_main_v106]
  rw [e3, e16, e17, e18, e19]
  unfold Cert.ReferenceIdeal.Value.res_main_v266 Cert.ReferenceIdeal.Value.res_main_v269
  rw [← henc, ag.a3, ag.a16, ag.a17, ag.a18, ag.a19]
  rfl

end Cert.Proof.Bridge

end
-- ==== Proof.PreIdx.lean ====
import proofs.«406877_j20933670601167_1_alg».proof.Pre_finite_inputs
import Idealize.ShloMosaic.Lib.StableHlo.Predicate
import Idealize.ShloMosaic.Lib.ReduceAll
import Idealize.ShloMosaic.Lib.ValueIdx

set_option maxRecDepth 16384

noncomputable section

namespace Cert.Proof.PreIdx

open Cert.Pre_finite_inputs
open Idealize.ShloMosaic Idealize.ShloMosaic.ValueIdx

variable {F : FTy → Type} [FloatOps F] [Cert.Pre_finite_inputs.Facts]

instance : Subsingleton S_.Idx := ⟨fun a b => funext fun d => d.elim0⟩

theorem range_of_all (a : IVec S500000 32) (z c : IVec S500000 32) (hz : ∀ e, z e = 0#32) (hc : ∀ e, c e = 50000#32)
    (init : IVec S_ 1) (hred : S500000.ReducesTo [0] S_) (hu : 0 < S_.numel)
    (h : Host.reduce IntOp.andi (andi (cmpi .sge a z) (cmpi .slt a c)) init hred hu ix0 = 1#1) (e : S500000.Idx) :
    0 ≤ (a e).toInt ∧ (a e).toInt < 50000 := by
  have he : IntOp.andi (IntOp.cmpi .sge (a e) (z e)) (IntOp.cmpi .slt (a e) (c e)) = 1#1 :=
    Host.reduce_andi_all _ init hred hu ix0 h e
  obtain ⟨hge, hlt⟩ := IntOp.andi_eq_one.1 he
  have h0 := IntOp.cmpi_sge.1 hge
  have h1 := IntOp.cmpi_slt.1 hlt
  rw [hz e, show (0#32 : BitVec 32).toInt = 0 from by decide] at h0
  rw [hc e, show (50000#32 : BitVec 32).toInt = 50000 from by decide] at h1
  exact ⟨h0, h1⟩

theorem idx_range
    (a0 : FVec F S50000x14 .f32) (a1 : FVec F S500000x11 .f32) (a2 : FVec F S1x4 .f32) (a3 : FVec F S1x128 .f32)
    (a4 : FVec F S14x128 .f32) (a5 : FVec F S11x128 .f32) (a6 : FVec F S3x388x128 .f32) (a7 : FVec F S3x128 .f32)
    (a8 : FVec F S3x128x384 .f32) (a9 : FVec F S3x128x384 .f32) (a10 : FVec F S3x384 .f32) (a11 : FVec F S3x384 .f32)
    (a12 : FVec F S128x128 .f32) (a13 : FVec F S128 .f32) (a14 : FVec F S128x128 .f32) (a15 : FVec F S128 .f32)
    (a16 : FVec F S128x128 .f32) (a17 : FVec F S128 .f32) (a18 : FVec F S128x128 .f32) (a19 : FVec F S128 .f32)
    (a20 : IVec S500000 32) (a21 : IVec S500000 32)
    (h : Cert.Pre_finite_inputs.fn (F := F) a0 a1 a2 a3 a4 a5 a6 a7 a8 a9 a10 a11 a12 a13 a14 a15 a16 a17 a18 a19 a20 a21
      = (fun _ => 1#1)) :
    (∀ e : Cert.Pre_finite_inputs.S500000.Idx, 0 ≤ (a20 e).toInt ∧ (a20 e).toInt < 50000)
      ∧ (∀ e : Cert.Pre_finite_inputs.S500000.Idx, 0 ≤ (a21 e).toInt ∧ (a21 e).toInt < 50000) := by
  have h0 := congrFun h ix0
  dsimp only [fn, fn_part1, fn_part2, fn_part3, fn_part4, fn_part5, fn_part6] at h0
  obtain ⟨h1, h21⟩ := IntOp.andi_eq_one.1 h0
  obtain ⟨-, h20⟩ := IntOp.andi_eq_one.1 h1
  exact ⟨range_of_all a20 _ _ (fun _ => rfl) (fun _ => rfl) _ _ _ h20, range_of_all a21 _ _ (fun _ => rfl) (fun _ => rfl) _ _ _ h21⟩

end Cert.Proof.PreIdx

end
-- ==== Proof.Bridge.All.lean ====
import proofs.«406877_j20933670601167_1_alg».proof.Proof.Bridge.Embed
import proofs.«406877_j20933670601167_1_alg».proof.Proof.Bridge.Msg0
import proofs.«406877_j20933670601167_1_alg».proof.Proof.Bridge.Msg1
import proofs.«406877_j20933670601167_1_alg».proof.Proof.Bridge.Msg2
import proofs.«406877_j20933670601167_1_alg».proof.Proof.Bridge.Gru0
import proofs.«406877_j20933670601167_1_alg».proof.Proof.Bridge.Gru1
import proofs.«406877_j20933670601167_1_alg».proof.Proof.Bridge.Gru2
import proofs.«406877_j20933670601167_1_alg».proof.Proof.Bridge.Readout
import proofs.«406877_j20933670601167_1_alg».proof.Proof.Bridge.Head
import proofs.«406877_j20933670601167_1_alg».proof.Proof.PreIdx

set_option maxRecDepth 16384

noncomputable section

namespace Cert.Proof.Bridge

open Idealize.ShloMosaic Idealize.ShloMosaic.TcCoe Idealize.SL.Sem

variable (m : KMem) (c : Dev Cert.KernelIdeal.nD) (V0 : RVal)

theorem result_eq (ag : Agree m c V0) :
    (Cert.KernelIdeal.Hand.X23 m c Cert.KernelIdeal.main_v106 : Cert.KernelIdeal.S1x384.Idx → EReal)
      = concatenate Cert.ReferenceIdeal.S1x384 1 [⟨Cert.ReferenceIdeal.S1x128, (addf (Cert.ReferenceIdeal.Value.res_main_v266 V0) (mulf (V0 (Proc.devRef .tc Cert.ReferenceIdeal.main_arg3)) (Host.exp (mulf (broadcastInDim Cert.ReferenceIdeal.S1x128 ![] Cert.ReferenceIdeal.Facts₀.bcast_S_S1x128 (constant Cert.ReferenceIdeal.S_ .f32 0x3F000000#32)) (Cert.ReferenceIdeal.Value.res_main_v269 V0)))))⟩, ⟨Cert.ReferenceIdeal.S1x128, (Cert.ReferenceIdeal.Value.res_main_v266 V0)⟩, ⟨Cert.ReferenceIdeal.S1x128, (Cert.ReferenceIdeal.Value.res_main_v269 V0)⟩] Cert.ReferenceIdeal.Facts₀.concatenates_S1x128_S1x128_S1x128_S1x384_d1 := by
  have h0 := h0_eq m c V0 ag
  have he := e_eq m c V0 ag
  have hm0 := msg0_eq m c V0 ag h0 he
  have h1 := h1_eq m c V0 ag h0 hm0
  have hm1 := msg1_eq m c V0 ag h1 he
  have h2 := h2_eq m c V0 ag h1 hm1
  have hm2 := msg2_eq m c V0 ag h2 he
  have h3 := h3_eq m c V0 ag h2 hm2
  exact out_eq m c V0 ag (enc_eq m c V0 ag h3)

end Cert.Proof.Bridge

end
-- ==== Proof.lean ====
import proofs.«406877_j20933670601167_1_alg».proof.Defs
import proofs.«406877_j20933670601167_1_alg».proof.Proof.Gen.Kernel
import proofs.«406877_j20933670601167_1_alg».proof.Proof.Gen.KernelIdeal
import proofs.«406877_j20933670601167_1_alg».proof.Proof.Gen.ReferenceIdeal
import proofs.«406877_j20933670601167_1_alg».proof.Proof.Gen.Pre_finite_inputs
import proofs.«406877_j20933670601167_1_alg».proof.Proof.Gen.ReferenceIdeal.Run
import proofs.«406877_j20933670601167_1_alg».proof.Proof.K.Frame
import proofs.«406877_j20933670601167_1_alg».proof.Proof.KI.Frame
import proofs.«406877_j20933670601167_1_alg».proof.Proof.Bridge.All
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_named m ρ)

theorem frame_ki : Cert.frame_KernelIdeal := fun m ρ _ =>
  (θ_run Cert.KernelIdeal.defs _ _).mono (fun _ h c => (h c).2) (Cert.KernelIdeal.Hand.run_named m ρ)

theorem frame_ri : Cert.frame_ReferenceIdeal := fun m ρ _ =>
  (θ_run Cert.ReferenceIdeal.defs _ _).mono (fun _ h c => (h c).2) (Cert.ReferenceIdeal.Value.run (F := Ideal) m ρ)

/-- The readout's constant 0x37A7C5AC, the single-precision rounding of 1/50000, is named and reads as the rational. -/
theorem preserves : Cert.preserves_Kernel_KernelIdeal :=
  IdealRules.named_const.statement Cert.KernelIdeal.κ "inv_50000" .f32 0x37A7C5AC#32 ((1 / 50000 : ℝ) : EReal) rfl

set_option maxHeartbeats 8000000 in
/-- The chain's value of the result buffer is the reference's result term once the memories agree and the index arrays are in range. -/
theorem algebraic : Cert.algebraic_KernelIdeal_ReferenceIdeal := by
  intro m g m' g' hpre hagree
  refine ⟨fun c => Cert.KernelIdeal.Hand.X23 m c Cert.KernelIdeal.main_v106, Cert.KernelIdeal.Hand.run_named m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5, a6, a7, a8, a9, a10, a11, a12, a13, a14, a15, a16, a17, a18, a19, a20, a21⟩ := hagree c
  have hr := Cert.Proof.PreIdx.idx_range _ _ _ _ _ _ _ _ _ _ _ _ _ _ _ _ _ _ _ _ _ _ (hpre c)
  exact (Bridge.result_eq m c (StableHlo.launchContents m' c)
    ⟨a0, a1, a2, a3, a4, a5, a6, a7, a8, a9, a10, a11, a12, a13, a14, a15, a16, a17, a18, a19, a20, a21, hr.1, hr.2⟩).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
